-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_v10 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v10 main_v16
  main_v17

def fn {F : FTy → Type} [FloatOps F] (main_arg0 : FVec F S262144x512 .f32) (main_arg1 : IVec S262144 32) (main_arg2 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1024#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  let main_c_3 : IVec S_ 32 := constantI S_ 32 0#32
  let main_v11 : IVec S262144 32 := broadcastInDim S262144 ![] bcast_S_S262144 main_c_3
  let main_v12 : IVec S262144 1 := cmpi .sge main_arg2 main_v11
  let main_c_4 : IVec S_ 32 := constantI S_ 32 8#32
  let main_v13 : IVec S262144 32 := broadcastInDim S262144 ![] bcast_S_S262144 main_c_4
  let main_v14 : IVec S262144 1 := cmpi .slt main_arg2 main_v13
  let main_v15 : IVec S262144 1 := andi main_v12 main_v14
  let main_c_5 : IVec S_ 1 := constantI S_ 1 1#1
  fn_part1 (F := F) main_v10 main_v15 main_c_5
-- ==== Kernel.lean ====
abbrev S262144x512 : Shape := ⟨2, ![262144, 512]⟩
abbrev S262144 : Shape := ⟨1, ![262144]⟩
abbrev S2x1x512 : Shape := ⟨3, ![2, 1, 512]⟩
abbrev S8192x512 : Shape := ⟨2, ![8192, 512]⟩
abbrev S1x1x512 : Shape := ⟨3, ![1, 1, 512]⟩
abbrev S1x512 : Shape := ⟨2, ![1, 512]⟩
abbrev S512 : Shape := ⟨1, ![512]⟩
abbrev S_ : Shape := ⟨0, ![]⟩
abbrev S1 : Shape := ⟨1, ![1]⟩
abbrev S1x1 : Shape := ⟨2, ![1, 1]⟩
abbrev S2x1024x8 : Shape := ⟨3, ![2, 1024, 8]⟩
abbrev S2048x512 : Shape := ⟨2, ![2048, 512]⟩
abbrev S2048 : Shape := ⟨1, ![2048]⟩
abbrev S1x1024x8 : Shape := ⟨3, ![1, 1024, 8]⟩
abbrev S1024x8 : Shape := ⟨2, ![1024, 8]⟩
abbrev S2048x1 : Shape := ⟨2, ![2048, 1]⟩
abbrev S2048x8 : Shape := ⟨2, ![2048, 8]⟩
abbrev S1x2048 : Shape := ⟨2, ![1, 2048]⟩
abbrev S1024x2048 : Shape := ⟨2, ![1024, 2048]⟩
abbrev S2048x24 : Shape := ⟨2, ![2048, 24]⟩
abbrev S1024x24 : Shape := ⟨2, ![1024, 24]⟩
abbrev S1024 : Shape := ⟨1, ![1024]⟩
abbrev S1024x1 : Shape := ⟨2, ![1024, 1]⟩

abbrev nBuf : Space → Nat
  | .hbm => 255
  | .vmem => 18
  | .smem => 0
  | _ => 0

abbrev hbmTy0_0 (i : Nat) : BufTy := match i % 128 with
  | 0 => ⟨S262144x512, .f32⟩
  | 1 => ⟨S262144, .i32⟩
  | 2 => ⟨S262144, .i32⟩
  | 3 => ⟨S2x1x512, .f32⟩
  | 4 => ⟨S1x1x512, .f32⟩
  | 5 => ⟨S1x512, .f32⟩
  | 6 => ⟨S1x1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1, .f32⟩
  | 15 => ⟨S1x1, .f32⟩
  | 16 => ⟨S1x1, .f32⟩
  | 17 => ⟨S_, .f32⟩
  | 18 => ⟨S1x1, .f32⟩
  | 19 => ⟨S1x1, .f32⟩
  | 20 => ⟨S1x512, .f32⟩
  | 21 => ⟨S1x512, .f32⟩
  | 22 => ⟨S2x1024x8, .f32⟩
  | 23 => ⟨S2x1024x8, .f32⟩
  | 24 => ⟨S1x1024x8, .f32⟩
  | 25 => ⟨S1024x8, .f32⟩
  | 26 => ⟨S1x1024x8, .f32⟩
  | 27 => ⟨S1024x8, .f32⟩
  | 28 => ⟨S1024x8, .f32⟩
  | 29 => ⟨S1x1024x8, .f32⟩
  | 30 => ⟨S1024x8, .f32⟩
  | 31 => ⟨S1x1024x8, .f32⟩
  | 32 => ⟨S1024x8, .f32⟩
  | 33 => ⟨S1024x8, .f32⟩
  | 34 => ⟨S_, .f32⟩
  | 35 => ⟨S1024x8, .f32⟩
  | 36 => ⟨S1024x8, .f32⟩
  | 37 => ⟨S1024x8, .f32⟩
  | 38 => ⟨S_, .f32⟩
  | 39 => ⟨S1024x8, .f32⟩
  | 40 => ⟨S1024x8, .i1⟩
  | 41 => ⟨S_, .f32⟩
  | 42 => ⟨S1024, .f32⟩
  | 43 => ⟨S_, .i1⟩
  | 44 => ⟨S1024, .i1⟩
  | 45 => ⟨S1024x1, .f32⟩
  | 46 => ⟨S1024, .f32⟩
  | 47 => ⟨S1024x1, .i1⟩
  | 48 => ⟨S1024, .i1⟩
  | 49 => ⟨S1024, .i1⟩
  | 50 => ⟨S1024, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S_, .f32⟩
  | 58 => ⟨S_, .f32⟩
  | 59 => ⟨S1024, .f32⟩
  | 60 => ⟨S1024, .f32⟩
  | 61 => ⟨S_, .f32⟩
  | 62 => ⟨S_, .f32⟩
  | 63 => ⟨S_, .f32⟩
  | 64 => ⟨S_, .f32⟩
  | 65 => ⟨S1024, .f32⟩
  | 66 => ⟨S_, .f32⟩
  | 67 => ⟨S_, .f32⟩
  | 68 => ⟨S_, .f32⟩
  | 69 => ⟨S_, .f32⟩
  | 70 => ⟨S1024, .f32⟩
  | 71 => ⟨S1024, .i1⟩
  | 72 => ⟨S1024x1, .f32⟩
  | 73 => ⟨S1024, .f32⟩
  | 74 => ⟨S1024x1, .i1⟩
  | 75 => ⟨S1024, .i1⟩
  | 76 => ⟨S1024, .i1⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S_, .f32⟩
  | 85 => ⟨S_, .f32⟩
  | 86 => ⟨S1024, .f32⟩
  | 87 => ⟨S1024, .f32⟩
  | 88 => ⟨S_, .f32⟩
  | 89 => ⟨S_, .f32⟩
  | 90 => ⟨S_, .f32⟩
  | 91 => ⟨S1024, .f32⟩
  | 92 => ⟨S_, .f32⟩
  | 93 => ⟨S_, .f32⟩
  | 94 => ⟨S_, .f32⟩
  | 95 => ⟨S1024, .f32⟩
  | 96 => ⟨S1024, .i1⟩
  | 97 => ⟨S1024x1, .f32⟩
  | 98 => ⟨S1024, .f32⟩
  | 99 => ⟨S1024x1, .i1⟩
  | 100 => ⟨S1024, .i1⟩
  | 101 => ⟨S1024, .i1⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S_, .f32⟩
  | 110 => ⟨S_, .f32⟩
  | 111 => ⟨S1024, .f32⟩
  | 112 => ⟨S1024, .f32⟩
  | 113 => ⟨S_, .f32⟩
  | 114 => ⟨S_, .f32⟩
  | 115 => ⟨S_, .f32⟩
  | 116 => ⟨S1024, .f32⟩
  | 117 => ⟨S_, .f32⟩
  | 118 => ⟨S_, .f32⟩
  | 119 => ⟨S_, .f32⟩
  | 120 => ⟨S1024, .f32⟩
  | 121 => ⟨S1024, .i1⟩
  | 122 => ⟨S1024x1, .f32⟩
  | 123 => ⟨S1024, .f32⟩
  | 124 => ⟨S1024x1, .i1⟩
  | 125 => ⟨S1024, .i1⟩
  | 126 => ⟨S1024, .i1⟩
  | 127 => ⟨S1024, .f32⟩
  | _ => ⟨S262144x512, .f32⟩

abbrev hbmTy0_1 (i : Nat) : BufTy := match i % 128 with
  | 0 => ⟨S_, .f32⟩
  | 1 => ⟨S1024, .f32⟩
  | 2 => ⟨S1024, .f32⟩
  | 3 => ⟨S_, .f32⟩
  | 4 => ⟨S1024, .f32⟩
  | 5 => ⟨S1024, .f32⟩
  | 6 => ⟨S_, .f32⟩
  | 7 => ⟨S_, .f32⟩
  | 8 => ⟨S1024, .f32⟩
  | 9 => ⟨S1024, .f32⟩
  | 10 => ⟨S_, .f32⟩
  | 11 => ⟨S_, .f32⟩
  | 12 => ⟨S_, .f32⟩
  | 13 => ⟨S1024, .f32⟩
  | 14 => ⟨S_, .f32⟩
  | 15 => ⟨S_, .f32⟩
  | 16 => ⟨S_, .f32⟩
  | 17 => ⟨S1024, .f32⟩
  | 18 => ⟨S1024, .i1⟩
  | 19 => ⟨S1024x1, .f32⟩
  | 20 => ⟨S1024, .f32⟩
  | 21 => ⟨S1024x1, .i1⟩
  | 22 => ⟨S1024, .i1⟩
  | 23 => ⟨S1024, .i1⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S_, .f32⟩
  | 32 => ⟨S_, .f32⟩
  | 33 => ⟨S1024, .f32⟩
  | 34 => ⟨S1024, .f32⟩
  | 35 => ⟨S_, .f32⟩
  | 36 => ⟨S_, .f32⟩
  | 37 => ⟨S_, .f32⟩
  | 38 => ⟨S1024, .f32⟩
  | 39 => ⟨S_, .f32⟩
  | 40 => ⟨S_, .f32⟩
  | 41 => ⟨S_, .f32⟩
  | 42 => ⟨S1024, .f32⟩
  | 43 => ⟨S1024, .i1⟩
  | 44 => ⟨S1024x1, .f32⟩
  | 45 => ⟨S1024, .f32⟩
  | 46 => ⟨S1024x1, .i1⟩
  | 47 => ⟨S1024, .i1⟩
  | 48 => ⟨S1024, .i1⟩
  | 49 => ⟨S1024, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S_, .f32⟩
  | 57 => ⟨S_, .f32⟩
  | 58 => ⟨S1024, .f32⟩
  | 59 => ⟨S1024, .f32⟩
  | 60 => ⟨S_, .f32⟩
  | 61 => ⟨S_, .f32⟩
  | 62 => ⟨S_, .f32⟩
  | 63 => ⟨S1024, .f32⟩
  | 64 => ⟨S_, .f32⟩
  | 65 => ⟨S_, .f32⟩
  | 66 => ⟨S_, .f32⟩
  | 67 => ⟨S1024, .f32⟩
  | 68 => ⟨S1024, .i1⟩
  | 69 => ⟨S1024x1, .f32⟩
  | 70 => ⟨S1024, .f32⟩
  | 71 => ⟨S1024x1, .i1⟩
  | 72 => ⟨S1024, .i1⟩
  | 73 => ⟨S1024, .i1⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S_, .f32⟩
  | 83 => ⟨S1024, .f32⟩
  | 84 => ⟨S1024, .f32⟩
  | 85 => ⟨S_, .f32⟩
  | 86 => ⟨S_, .f32⟩
  | 87 => ⟨S_, .f32⟩
  | 88 => ⟨S1024, .f32⟩
  | 89 => ⟨S_, .f32⟩
  | 90 => ⟨S_, .f32⟩
  | 91 => ⟨S_, .f32⟩
  | 92 => ⟨S1024, .f32⟩
  | 93 => ⟨S1024, .i1⟩
  | 94 => ⟨S1024x1, .f32⟩
  | 95 => ⟨S1024, .f32⟩
  | 96 => ⟨S1024x1, .i1⟩
  | 97 => ⟨S1024, .i1⟩
  | 98 => ⟨S1024, .i1⟩
  | 99 => ⟨S1024, .f32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | 106 => ⟨S_, .f32⟩
  | 107 => ⟨S_, .f32⟩
  | 108 => ⟨S1024, .f32⟩
  | 109 => ⟨S1024, .f32⟩
  | 110 => ⟨S_, .f32⟩
  | 111 => ⟨S_, .f32⟩
  | 112 => ⟨S_, .f32⟩
  | 113 => ⟨S1024, .f32⟩
  | 114 => ⟨S_, .f32⟩
  | 115 => ⟨S_, .f32⟩
  | 116 => ⟨S_, .f32⟩
  | 117 => ⟨S1024, .f32⟩
  | 118 => ⟨S1024, .i1⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | _ => ⟨S262144x512, .f32⟩

abbrev hbmTy (i : Nat) : BufTy := match i / 128 with
  | 0 => hbmTy0_0 i
  | 1 => hbmTy0_1 i
  | _ => ⟨S262144x512, .f32⟩

abbrev bufTy : (tb : Table) → Fin (tcTables nBuf tb) → BufTy
  | .hbm, ⟨i, _⟩ => hbmTy i
  | .local _ .vmem, ⟨0, _⟩ => ⟨S8192x512, .f32⟩
  | .local _ .vmem, ⟨1, _⟩ => ⟨S8192x512, .f32⟩
  | .local _ .vmem, ⟨2, _⟩ => ⟨S1x1x512, .f32⟩
  | .local _ .vmem, ⟨3, _⟩ => ⟨S1x1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | .local _ .vmem, ⟨7, _⟩ => ⟨S2048, .i32⟩
  | .local _ .vmem, ⟨8, _⟩ => ⟨S2048, .i32⟩
  | .local _ .vmem, ⟨9, _⟩ => ⟨S2048, .i32⟩
  | .local _ .vmem, ⟨10, _⟩ => ⟨S2048, .i32⟩
  | .local _ .vmem, ⟨11, _⟩ => ⟨S1x512, .f32⟩
  | .local _ .vmem, ⟨12, _⟩ => ⟨S1x1024x8, .f32⟩
  | .local _ .vmem, ⟨13, _⟩ => ⟨S1x1024x8, .f32⟩
  | .local _ .vmem, ⟨14, _⟩ => ⟨S1x1024x8, .f32⟩
  | .local _ .vmem, ⟨15, _⟩ => ⟨S1x1024x8, .f32⟩
  | .local _ .vmem, ⟨16, _⟩ => ⟨S1024x8, .f32⟩
  | .local _ .vmem, ⟨17, _⟩ => ⟨S1024x8, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_call3_v0 : Ref sig .tc := ⟨.hbm, 85, rfl⟩
abbrev main_call3_v1 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_cst_18 : Ref sig .tc := ⟨.hbm, 109, rfl⟩
abbrev main_call5_v0 : Ref sig .tc := ⟨.hbm, 110, rfl⟩
abbrev main_call5_v1 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_cst_23 : Ref sig .tc := ⟨.hbm, 134, rfl⟩
abbrev main_call7_v0 : Ref sig .tc := ⟨.hbm, 135, rfl⟩
abbrev main_call7_v1 : Ref sig .tc := ⟨.hbm, 136, rfl⟩
abbrev main_v95 : Ref sig .tc := ⟨.hbm, 137, rfl⟩
abbrev main_cst_24 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_25 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_26 : Ref sig .tc := ⟨.hbm, 153, rfl⟩
abbrev main_v109 : Ref sig .tc := ⟨.hbm, 154, rfl⟩
abbrev main_v110 : Ref sig .tc := ⟨.hbm, 155, rfl⟩
abbrev main_cst_27 : Ref sig .tc := ⟨.hbm, 156, rfl⟩
abbrev main_v111 : Ref sig .tc := ⟨.hbm, 157, rfl⟩
abbrev main_v112 : Ref sig .tc := ⟨.hbm, 158, rfl⟩
abbrev main_cst_28 : Ref sig .tc := ⟨.hbm, 159, rfl⟩
abbrev main_call9_v0 : Ref sig .tc := ⟨.hbm, 160, rfl⟩
abbrev main_call9_v1 : Ref sig .tc := ⟨.hbm, 161, rfl⟩
abbrev main_v113 : Ref sig .tc := ⟨.hbm, 162, rfl⟩
abbrev main_cst_29 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_30 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_31 : Ref sig .tc := ⟨.hbm, 178, rfl⟩
abbrev main_v127 : Ref sig .tc := ⟨.hbm, 179, rfl⟩
abbrev main_v128 : Ref sig .tc := ⟨.hbm, 180, rfl⟩
abbrev main_cst_32 : Ref sig .tc := ⟨.hbm, 181, rfl⟩
abbrev main_v129 : Ref sig .tc := ⟨.hbm, 182, rfl⟩
abbrev main_v130 : Ref sig .tc := ⟨.hbm, 183, rfl⟩
abbrev main_cst_33 : Ref sig .tc := ⟨.hbm, 184, rfl⟩
abbrev main_call11_v0 : Ref sig .tc := ⟨.hbm, 185, rfl⟩
abbrev main_call11_v1 : Ref sig .tc := ⟨.hbm, 186, rfl⟩
abbrev main_v131 : Ref sig .tc := ⟨.hbm, 187, rfl⟩
abbrev main_cst_34 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_35 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_36 : Ref sig .tc := ⟨.hbm, 203, rfl⟩
abbrev main_v145 : Ref sig .tc := ⟨.hbm, 204, rfl⟩
abbrev main_v146 : Ref sig .tc := ⟨.hbm, 205, rfl⟩
abbrev main_cst_37 : Ref sig .tc := ⟨.hbm, 206, rfl⟩
abbrev main_v147 : Ref sig .tc := ⟨.hbm, 207, rfl⟩
abbrev main_v148 : Ref sig .tc := ⟨.hbm, 208, rfl⟩
abbrev main_cst_38 : Ref sig .tc := ⟨.hbm, 209, rfl⟩
abbrev main_call13_v0 : Ref sig .tc := ⟨.hbm, 210, rfl⟩
abbrev main_call13_v1 : Ref sig .tc := ⟨.hbm, 211, rfl⟩
abbrev main_v149 : Ref sig .tc := ⟨.hbm, 212, rfl⟩
abbrev main_cst_39 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_40 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_41 : Ref sig .tc := ⟨.hbm, 228, rfl⟩
abbrev main_v163 : Ref sig .tc := ⟨.hbm, 229, rfl⟩
abbrev main_v164 : Ref sig .tc := ⟨.hbm, 230, rfl⟩
abbrev main_cst_42 : Ref sig .tc := ⟨.hbm, 231, rfl⟩
abbrev main_v165 : Ref sig .tc := ⟨.hbm, 232, rfl⟩
abbrev main_v166 : Ref sig .tc := ⟨.hbm, 233, rfl⟩
abbrev main_cst_43 : Ref sig .tc := ⟨.hbm, 234, rfl⟩
abbrev main_call15_v0 : Ref sig .tc := ⟨.hbm, 235, rfl⟩
abbrev main_call15_v1 : Ref sig .tc := ⟨.hbm, 236, rfl⟩
abbrev main_v167 : Ref sig .tc := ⟨.hbm, 237, rfl⟩
abbrev main_cst_44 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_45 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_cst_46 : Ref sig .tc := ⟨.hbm, 247, rfl⟩
abbrev main_v175 : Ref sig .tc := ⟨.hbm, 248, rfl⟩
abbrev main_cst_47 : Ref sig .tc := ⟨.hbm, 249, rfl⟩
abbrev main_v176 : Ref sig .tc := ⟨.hbm, 250, rfl⟩
abbrev main_v177 : Ref sig .tc := ⟨.hbm, 251, rfl⟩
abbrev main_cst_48 : Ref sig .tc := ⟨.hbm, 252, rfl⟩
abbrev main_call17_v0 : Ref sig .tc := ⟨.hbm, 253, rfl⟩
abbrev main_v178 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v52 : BitVec 1 := Scalar.cmpi .eq arg1 c63_i32
  let v53 : BitVec 32 := Scalar.extui v52
  let c0_i32_16 : BitVec 32 := 0#32
  let v54 : BitVec 1 := Scalar.cmpi .ne v53 c0_i32_16
  v54

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc1_transform_2 (i : grid1.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S8192x512_S8192x512_0_0 : ∀ a, (![0, 0] : Fin 2 → Nat) a + S8192x512.size a ≤ S8192x512.size a
  h_S8192x512 : 0 < S8192x512.numel
  reduces_S8192x512_S512 : S8192x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  slices_S2x1x512_S1x1x512_0_0_0 : S2x1x512.Slices ![0, 0, 0] S1x1x512
  slices_S2x1x512_S1x1x512_1_0_0 : S2x1x512.Slices ![1, 0, 0] S1x1x512
  bcast_S_S1x512 : S_.BroadcastsInDim S1x512 (![] : Fin 0 → Fin S1x512.rank)
  reducesTo_S1x512_S1_d1 : S1x512.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x512_0_1 : S1x1.BroadcastsInDim S1x512 (![0, 1] : Fin 2 → Fin S1x512.rank)
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048_S2048_0 : ∀ a, (![0] : Fin 1 → Nat) a + S2048.size a ≤ S2048.size a
  h_S2048 : 0 < S2048.numel
  iota_S2048x8_d1_w32 : S2048x8.Iotas .tc 32 [1]
  broadcasts_S2048x1_S2048x8 : S2048x1.Broadcasts S2048x8
  natLt_1_32 : 1 < 32
  bitsLt_bf16_f32 : FTy.bits .bf16 < FTy.bits .f32
  shapeCasts_S2048_S1x2048 : S2048.ShapeCasts S1x2048
  iota_S1024x2048_d0_w32 : S1024x2048.Iotas .tc 32 [0]
  shapeCasts_S1x2048_S1x2048 : S1x2048.ShapeCasts S1x2048
  broadcasts_S1x2048_S1024x2048 : S1x2048.Broadcasts S1024x2048
  concatenates_S2048x8_S2048x8_S2048x8_S2048x24_d1 : Shape.Concatenates [S2048x8, S2048x8, S2048x8] S2048x24 1
  slices_S1024x24_o0_0_S1024x8 : S1024x24.Slices ![0, 0] S1024x8
  slices_S1024x24_o0_8_S1024x8 : S1024x24.Slices ![0, 8] S1024x8
  slices_S1024x24_o0_16_S1024x8 : S1024x24.Slices ![0, 16] S1024x8
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  shapeCasts_S1024x8_S1x1024x8 : S1024x8.ShapeCasts S1x1024x8
  slices_S2x1024x8_S1x1024x8_0_0_0 : S2x1024x8.Slices ![0, 0, 0] S1x1024x8
  slices_S2x1024x8_S1x1024x8_1_0_0 : S2x1024x8.Slices ![1, 0, 0] S1x1024x8
  bcast_S_S1024x8 : S_.BroadcastsInDim S1024x8 (![] : Fin 0 → Fin S1024x8.rank)
  bcast_S_S1024 : S_.BroadcastsInDim S1024 (![] : Fin 0 → Fin S1024.rank)
  slices_S1024x8_S1024x1_0_0 : S1024x8.Slices ![0, 0] S1024x1
  shapeCasts_S1024x1_S1024 : S1024x1.ShapeCasts S1024
  reducesTo_S1024_S_d0 : S1024.ReducesTo [0] S_
  slices_S1024x8_S1024x1_0_1 : S1024x8.Slices ![0, 1] S1024x1
  slices_S1024x8_S1024x1_0_2 : S1024x8.Slices ![0, 2] S1024x1
  slices_S1024x8_S1024x1_0_3 : S1024x8.Slices ![0, 3] S1024x1
  slices_S1024x8_S1024x1_0_4 : S1024x8.Slices ![0, 4] S1024x1
  slices_S1024x8_S1024x1_0_5 : S1024x8.Slices ![0, 5] S1024x1
  slices_S1024x8_S1024x1_0_6 : S1024x8.Slices ![0, 6] S1024x1
  slices_S1024x8_S1024x1_0_7 : S1024x8.Slices ![0, 7] S1024x1
  dot_S1024x2048_S2048x24_S1024x24_1_0_0_1_n_n_wf : DotDims.WF S1024x2048 S2048x24 S1024x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S262144x512.size a
  hwx0_0 : ∀ i : grid0.Coords, EltTy.bits .f32 = 32 ∨ (Rect.block (s := S262144x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S262144x512.size a
  hwx1_0 : ∀ i : grid1.Coords, EltTy.bits .f32 = 32 ∨ (Rect.block (s := S262144x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S262144.size a
  hwx1_1 : ∀ i : grid1.Coords, EltTy.bits .i32 = 32 ∨ (Rect.block (s := S262144) S2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S262144.size a
  hwx1_2 : ∀ i : grid1.Coords, EltTy.bits .i32 = 32 ∨ (Rect.block (s := S262144) S2048.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x8.size a ≤ S2x1024x8.size a
  hwx1_4 : ∀ i : grid1.Coords, EltTy.bits .f32 = 32 ∨ (Rect.block (s := S2x1024x8) S1x1024x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x8.size a ≤ S2x1024x8.size a
  hwx1_5 : ∀ i : grid1.Coords, EltTy.bits .f32 = 32 ∨ (Rect.block (s := S2x1024x8) S1x1024x8.size (cc1_transform_5 i) (hinb1_5 i)).WholeWords (EltTy.packing .f32)

variable [Facts₀]

def dot_S1024x2048_S2048x24_S1024x24_1_0_0_1_n_n : DotDims S1024x2048 S2048x24 S1024x24 where
  lhsContracting := [1]
  rhsContracting := [0]
  lhsNonContracting := [0]
  rhsNonContracting := [1]
  lhsBatch := []
  rhsBatch := []
  wf := dot_S1024x2048_S2048x24_S1024x24_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S1x1024x8.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S1x1024x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S262144x512 : Shape := ⟨2, ![262144, 512]⟩
abbrev S262144 : Shape := ⟨1, ![262144]⟩
abbrev S_ : Shape := ⟨0, ![]⟩
abbrev S512 : Shape := ⟨1, ![512]⟩
abbrev S1x512 : Shape := ⟨2, ![1, 512]⟩
abbrev S1 : Shape := ⟨1, ![1]⟩
abbrev S1x1 : Shape := ⟨2, ![1, 1]⟩
abbrev S8192 : Shape := ⟨1, ![8192]⟩
abbrev S262144x1 : Shape := ⟨2, ![262144, 1]⟩
abbrev S1024x8 : Shape := ⟨2, ![1024, 8]⟩
abbrev S1024 : Shape := ⟨1, ![1024]⟩
abbrev S1024x1 : Shape := ⟨2, ![1024, 1]⟩

abbrev nBuf : Space → Nat
  | .hbm => 263
  | .vmem => 0
  | .smem => 0
  | _ => 0

abbrev hbmTy0_0 (i : Nat) : BufTy := match i % 128 with
  | 0 => ⟨S262144x512, .f32⟩
  | 1 => ⟨S262144, .i32⟩
  | 2 => ⟨S262144, .i32⟩
  | 3 => ⟨S_, .f32⟩
  | 4 => ⟨S512, .f32⟩
  | 5 => ⟨S1x512, .f32⟩
  | 6 => ⟨S_, .f32⟩
  | 7 => ⟨S1x512, .f32⟩
  | 8 => ⟨S1x512, .f32⟩
  | 9 => ⟨S1x512, .f32⟩
  | 10 => ⟨S_, .f32⟩
  | 11 => ⟨S1, .f32⟩
  | 12 => ⟨S1x1, .f32⟩
  | 13 => ⟨S1x1, .f32⟩
  | 14 => ⟨S_, .f32⟩
  | 15 => ⟨S1x1, .f32⟩
  | 16 => ⟨S1x1, .f32⟩
  | 17 => ⟨S1x512, .f32⟩
  | 18 => ⟨S1x512, .f32⟩
  | 19 => ⟨S262144x512, .f32⟩
  | 20 => ⟨S262144x512, .f32⟩
  | 21 => ⟨S_, .f32⟩
  | 22 => ⟨S262144, .f32⟩
  | 23 => ⟨S_, .f32⟩
  | 24 => ⟨S262144, .f32⟩
  | 25 => ⟨S262144, .f32⟩
  | 26 => ⟨S_, .i32⟩
  | 27 => ⟨S262144, .i32⟩
  | 28 => ⟨S262144, .i32⟩
  | 29 => ⟨S262144, .i32⟩
  | 30 => ⟨S_, .f32⟩
  | 31 => ⟨S8192, .f32⟩
  | 32 => ⟨S262144x1, .i32⟩
  | 33 => ⟨S8192, .f32⟩
  | 34 => ⟨S_, .f32⟩
  | 35 => ⟨S262144, .f32⟩
  | 36 => ⟨S_, .f32⟩
  | 37 => ⟨S8192, .f32⟩
  | 38 => ⟨S262144x1, .i32⟩
  | 39 => ⟨S8192, .f32⟩
  | 40 => ⟨S_, .f32⟩
  | 41 => ⟨S8192, .f32⟩
  | 42 => ⟨S8192, .f32⟩
  | 43 => ⟨S8192, .f32⟩
  | 44 => ⟨S1024x8, .f32⟩
  | 45 => ⟨S_, .f32⟩
  | 46 => ⟨S8192, .f32⟩
  | 47 => ⟨S8192, .i1⟩
  | 48 => ⟨S1024x8, .i1⟩
  | 49 => ⟨S_, .f32⟩
  | 50 => ⟨S1024, .f32⟩
  | 51 => ⟨S_, .i1⟩
  | 52 => ⟨S1024, .i1⟩
  | 53 => ⟨S1024x1, .f32⟩
  | 54 => ⟨S1024, .f32⟩
  | 55 => ⟨S1024x1, .i1⟩
  | 56 => ⟨S1024, .i1⟩
  | 57 => ⟨S1024, .i1⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S_, .f32⟩
  | 66 => ⟨S_, .f32⟩
  | 67 => ⟨S1024, .f32⟩
  | 68 => ⟨S1024, .f32⟩
  | 69 => ⟨S_, .f32⟩
  | 70 => ⟨S_, .f32⟩
  | 71 => ⟨S_, .f32⟩
  | 72 => ⟨S_, .f32⟩
  | 73 => ⟨S1024, .f32⟩
  | 74 => ⟨S_, .f32⟩
  | 75 => ⟨S_, .f32⟩
  | 76 => ⟨S_, .f32⟩
  | 77 => ⟨S_, .f32⟩
  | 78 => ⟨S1024, .f32⟩
  | 79 => ⟨S1024, .i1⟩
  | 80 => ⟨S1024x1, .f32⟩
  | 81 => ⟨S1024, .f32⟩
  | 82 => ⟨S1024x1, .i1⟩
  | 83 => ⟨S1024, .i1⟩
  | 84 => ⟨S1024, .i1⟩
  | 85 => ⟨S1024, .f32⟩
  | 86 => ⟨S_, .f32⟩
  | 87 => ⟨S1024, .f32⟩
  | 88 => ⟨S1024, .f32⟩
  | 89 => ⟨S_, .f32⟩
  | 90 => ⟨S1024, .f32⟩
  | 91 => ⟨S1024, .f32⟩
  | 92 => ⟨S_, .f32⟩
  | 93 => ⟨S_, .f32⟩
  | 94 => ⟨S1024, .f32⟩
  | 95 => ⟨S1024, .f32⟩
  | 96 => ⟨S_, .f32⟩
  | 97 => ⟨S_, .f32⟩
  | 98 => ⟨S_, .f32⟩
  | 99 => ⟨S1024, .f32⟩
  | 100 => ⟨S_, .f32⟩
  | 101 => ⟨S_, .f32⟩
  | 102 => ⟨S_, .f32⟩
  | 103 => ⟨S1024, .f32⟩
  | 104 => ⟨S1024, .i1⟩
  | 105 => ⟨S1024x1, .f32⟩
  | 106 => ⟨S1024, .f32⟩
  | 107 => ⟨S1024x1, .i1⟩
  | 108 => ⟨S1024, .i1⟩
  | 109 => ⟨S1024, .i1⟩
  | 110 => ⟨S1024, .f32⟩
  | 111 => ⟨S_, .f32⟩
  | 112 => ⟨S1024, .f32⟩
  | 113 => ⟨S1024, .f32⟩
  | 114 => ⟨S_, .f32⟩
  | 115 => ⟨S1024, .f32⟩
  | 116 => ⟨S1024, .f32⟩
  | 117 => ⟨S_, .f32⟩
  | 118 => ⟨S_, .f32⟩
  | 119 => ⟨S1024, .f32⟩
  | 120 => ⟨S1024, .f32⟩
  | 121 => ⟨S_, .f32⟩
  | 122 => ⟨S_, .f32⟩
  | 123 => ⟨S_, .f32⟩
  | 124 => ⟨S1024, .f32⟩
  | 125 => ⟨S_, .f32⟩
  | 126 => ⟨S_, .f32⟩
  | 127 => ⟨S_, .f32⟩
  | _ => ⟨S262144x512, .f32⟩

abbrev hbmTy0_1 (i : Nat) : BufTy := match i % 128 with
  | 0 => ⟨S1024, .f32⟩
  | 1 => ⟨S1024, .i1⟩
  | 2 => ⟨S1024x1, .f32⟩
  | 3 => ⟨S1024, .f32⟩
  | 4 => ⟨S1024x1, .i1⟩
  | 5 => ⟨S1024, .i1⟩
  | 6 => ⟨S1024, .i1⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S_, .f32⟩
  | 15 => ⟨S_, .f32⟩
  | 16 => ⟨S1024, .f32⟩
  | 17 => ⟨S1024, .f32⟩
  | 18 => ⟨S_, .f32⟩
  | 19 => ⟨S_, .f32⟩
  | 20 => ⟨S_, .f32⟩
  | 21 => ⟨S1024, .f32⟩
  | 22 => ⟨S_, .f32⟩
  | 23 => ⟨S_, .f32⟩
  | 24 => ⟨S_, .f32⟩
  | 25 => ⟨S1024, .f32⟩
  | 26 => ⟨S1024, .i1⟩
  | 27 => ⟨S1024x1, .f32⟩
  | 28 => ⟨S1024, .f32⟩
  | 29 => ⟨S1024x1, .i1⟩
  | 30 => ⟨S1024, .i1⟩
  | 31 => ⟨S1024, .i1⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S_, .f32⟩
  | 40 => ⟨S_, .f32⟩
  | 41 => ⟨S1024, .f32⟩
  | 42 => ⟨S1024, .f32⟩
  | 43 => ⟨S_, .f32⟩
  | 44 => ⟨S_, .f32⟩
  | 45 => ⟨S_, .f32⟩
  | 46 => ⟨S1024, .f32⟩
  | 47 => ⟨S_, .f32⟩
  | 48 => ⟨S_, .f32⟩
  | 49 => ⟨S_, .f32⟩
  | 50 => ⟨S1024, .f32⟩
  | 51 => ⟨S1024, .i1⟩
  | 52 => ⟨S1024x1, .f32⟩
  | 53 => ⟨S1024, .f32⟩
  | 54 => ⟨S1024x1, .i1⟩
  | 55 => ⟨S1024, .i1⟩
  | 56 => ⟨S1024, .i1⟩
  | 57 => ⟨S1024, .f32⟩
  | 58 => ⟨S_, .f32⟩
  | 59 => ⟨S1024, .f32⟩
  | 60 => ⟨S1024, .f32⟩
  | 61 => ⟨S_, .f32⟩
  | 62 => ⟨S1024, .f32⟩
  | 63 => ⟨S1024, .f32⟩
  | 64 => ⟨S_, .f32⟩
  | 65 => ⟨S_, .f32⟩
  | 66 => ⟨S1024, .f32⟩
  | 67 => ⟨S1024, .f32⟩
  | 68 => ⟨S_, .f32⟩
  | 69 => ⟨S_, .f32⟩
  | 70 => ⟨S_, .f32⟩
  | 71 => ⟨S1024, .f32⟩
  | 72 => ⟨S_, .f32⟩
  | 73 => ⟨S_, .f32⟩
  | 74 => ⟨S_, .f32⟩
  | 75 => ⟨S1024, .f32⟩
  | 76 => ⟨S1024, .i1⟩
  | 77 => ⟨S1024x1, .f32⟩
  | 78 => ⟨S1024, .f32⟩
  | 79 => ⟨S1024x1, .i1⟩
  | 80 => ⟨S1024, .i1⟩
  | 81 => ⟨S1024, .i1⟩
  | 82 => ⟨S1024, .f32⟩
  | 83 => ⟨S_, .f32⟩
  | 84 => ⟨S1024, .f32⟩
  | 85 => ⟨S1024, .f32⟩
  | 86 => ⟨S_, .f32⟩
  | 87 => ⟨S1024, .f32⟩
  | 88 => ⟨S1024, .f32⟩
  | 89 => ⟨S_, .f32⟩
  | 90 => ⟨S_, .f32⟩
  | 91 => ⟨S1024, .f32⟩
  | 92 => ⟨S1024, .f32⟩
  | 93 => ⟨S_, .f32⟩
  | 94 => ⟨S_, .f32⟩
  | 95 => ⟨S_, .f32⟩
  | 96 => ⟨S1024, .f32⟩
  | 97 => ⟨S_, .f32⟩
  | 98 => ⟨S_, .f32⟩
  | 99 => ⟨S_, .f32⟩
  | 100 => ⟨S1024, .f32⟩
  | 101 => ⟨S1024, .i1⟩
  | 102 => ⟨S1024x1, .f32⟩
  | 103 => ⟨S1024, .f32⟩
  | 104 => ⟨S1024x1, .i1⟩
  | 105 => ⟨S1024, .i1⟩
  | 106 => ⟨S1024, .i1⟩
  | 107 => ⟨S1024, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S_, .f32⟩
  | 115 => ⟨S_, .f32⟩
  | 116 => ⟨S1024, .f32⟩
  | 117 => ⟨S1024, .f32⟩
  | 118 => ⟨S_, .f32⟩
  | 119 => ⟨S_, .f32⟩
  | 120 => ⟨S_, .f32⟩
  | 121 => ⟨S1024, .f32⟩
  | 122 => ⟨S_, .f32⟩
  | 123 => ⟨S_, .f32⟩
  | 124 => ⟨S_, .f32⟩
  | 125 => ⟨S1024, .f32⟩
  | 126 => ⟨S1024, .i1⟩
  | 127 => ⟨S_, .f32⟩
  | _ => ⟨S262144x512, .f32⟩

abbrev hbmTy0_2 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S262144x512, .f32⟩

abbrev hbmTy (i : Nat) : BufTy := match i / 128 with
  | 0 => hbmTy0_0 i
  | 1 => hbmTy0_1 i
  | 2 => hbmTy0_2 i
  | _ => ⟨S262144x512, .f32⟩

abbrev bufTy : (tb : Table) → Fin (tcTables nBuf tb) → BufTy
  | .hbm, ⟨i, _⟩ => hbmTy i
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_call1_v0 : Ref sig .tc := ⟨.hbm, 66, rfl⟩
abbrev main_call1_v1 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_cst_16 : Ref sig .tc := ⟨.hbm, 74, rfl⟩
abbrev main_v47 : Ref sig .tc := ⟨.hbm, 75, rfl⟩
abbrev main_cst_17 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_v59 : Ref sig .tc := ⟨.hbm, 90, rfl⟩
abbrev main_v60 : Ref sig .tc := ⟨.hbm, 91, rfl⟩
abbrev main_cst_20 : Ref sig .tc := ⟨.hbm, 92, rfl⟩
abbrev main_call3_v0 : Ref sig .tc := ⟨.hbm, 93, rfl⟩
abbrev main_call3_v1 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_22 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_23 : Ref sig .tc := ⟨.hbm, 111, rfl⟩
abbrev main_v75 : Ref sig .tc := ⟨.hbm, 112, rfl⟩
abbrev main_v76 : Ref sig .tc := ⟨.hbm, 113, rfl⟩
abbrev main_cst_24 : Ref sig .tc := ⟨.hbm, 114, rfl⟩
abbrev main_v77 : Ref sig .tc := ⟨.hbm, 115, rfl⟩
abbrev main_v78 : Ref sig .tc := ⟨.hbm, 116, rfl⟩
abbrev main_cst_25 : Ref sig .tc := ⟨.hbm, 117, rfl⟩
abbrev main_call5_v0 : Ref sig .tc := ⟨.hbm, 118, rfl⟩
abbrev main_call5_v1 : Ref sig .tc := ⟨.hbm, 119, rfl⟩
abbrev main_v79 : Ref sig .tc := ⟨.hbm, 120, rfl⟩
abbrev main_cst_26 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_27 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_28 : Ref sig .tc := ⟨.hbm, 136, rfl⟩
abbrev main_v93 : Ref sig .tc := ⟨.hbm, 137, rfl⟩
abbrev main_v94 : Ref sig .tc := ⟨.hbm, 138, rfl⟩
abbrev main_cst_29 : Ref sig .tc := ⟨.hbm, 139, rfl⟩
abbrev main_v95 : Ref sig .tc := ⟨.hbm, 140, rfl⟩
abbrev main_v96 : Ref sig .tc := ⟨.hbm, 141, rfl⟩
abbrev main_cst_30 : Ref sig .tc := ⟨.hbm, 142, rfl⟩
abbrev main_call7_v0 : Ref sig .tc := ⟨.hbm, 143, rfl⟩
abbrev main_call7_v1 : Ref sig .tc := ⟨.hbm, 144, rfl⟩
abbrev main_v97 : Ref sig .tc := ⟨.hbm, 145, rfl⟩
abbrev main_cst_31 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_32 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_33 : Ref sig .tc := ⟨.hbm, 161, rfl⟩
abbrev main_v111 : Ref sig .tc := ⟨.hbm, 162, rfl⟩
abbrev main_v112 : Ref sig .tc := ⟨.hbm, 163, rfl⟩
abbrev main_cst_34 : Ref sig .tc := ⟨.hbm, 164, rfl⟩
abbrev main_v113 : Ref sig .tc := ⟨.hbm, 165, rfl⟩
abbrev main_v114 : Ref sig .tc := ⟨.hbm, 166, rfl⟩
abbrev main_cst_35 : Ref sig .tc := ⟨.hbm, 167, rfl⟩
abbrev main_call9_v0 : Ref sig .tc := ⟨.hbm, 168, rfl⟩
abbrev main_call9_v1 : Ref sig .tc := ⟨.hbm, 169, rfl⟩
abbrev main_v115 : Ref sig .tc := ⟨.hbm, 170, rfl⟩
abbrev main_cst_36 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_37 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_38 : Ref sig .tc := ⟨.hbm, 186, rfl⟩
abbrev main_v129 : Ref sig .tc := ⟨.hbm, 187, rfl⟩
abbrev main_v130 : Ref sig .tc := ⟨.hbm, 188, rfl⟩
abbrev main_cst_39 : Ref sig .tc := ⟨.hbm, 189, rfl⟩
abbrev main_v131 : Ref sig .tc := ⟨.hbm, 190, rfl⟩
abbrev main_v132 : Ref sig .tc := ⟨.hbm, 191, rfl⟩
abbrev main_cst_40 : Ref sig .tc := ⟨.hbm, 192, rfl⟩
abbrev main_call11_v0 : Ref sig .tc := ⟨.hbm, 193, rfl⟩
abbrev main_call11_v1 : Ref sig .tc := ⟨.hbm, 194, rfl⟩
abbrev main_v133 : Ref sig .tc := ⟨.hbm, 195, rfl⟩
abbrev main_cst_41 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_42 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_43 : Ref sig .tc := ⟨.hbm, 211, rfl⟩
abbrev main_v147 : Ref sig .tc := ⟨.hbm, 212, rfl⟩
abbrev main_v148 : Ref sig .tc := ⟨.hbm, 213, rfl⟩
abbrev main_cst_44 : Ref sig .tc := ⟨.hbm, 214, rfl⟩
abbrev main_v149 : Ref sig .tc := ⟨.hbm, 215, rfl⟩
abbrev main_v150 : Ref sig .tc := ⟨.hbm, 216, rfl⟩
abbrev main_cst_45 : Ref sig .tc := ⟨.hbm, 217, rfl⟩
abbrev main_call13_v0 : Ref sig .tc := ⟨.hbm, 218, rfl⟩
abbrev main_call13_v1 : Ref sig .tc := ⟨.hbm, 219, rfl⟩
abbrev main_v151 : Ref sig .tc := ⟨.hbm, 220, rfl⟩
abbrev main_cst_46 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_47 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_48 : Ref sig .tc := ⟨.hbm, 236, rfl⟩
abbrev main_v165 : Ref sig .tc := ⟨.hbm, 237, rfl⟩
abbrev main_v166 : Ref sig .tc := ⟨.hbm, 238, rfl⟩
abbrev main_cst_49 : Ref sig .tc := ⟨.hbm, 239, rfl⟩
abbrev main_v167 : Ref sig .tc := ⟨.hbm, 240, rfl⟩
abbrev main_v168 : Ref sig .tc := ⟨.hbm, 241, rfl⟩
abbrev main_cst_50 : Ref sig .tc := ⟨.hbm, 242, rfl⟩
abbrev main_call15_v0 : Ref sig .tc := ⟨.hbm, 243, rfl⟩
abbrev main_call15_v1 : Ref sig .tc := ⟨.hbm, 244, rfl⟩
abbrev main_v169 : Ref sig .tc := ⟨.hbm, 245, rfl⟩
abbrev main_cst_51 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_52 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_cst_53 : Ref sig .tc := ⟨.hbm, 255, rfl⟩
abbrev main_v177 : Ref sig .tc := ⟨.hbm, 256, rfl⟩
abbrev main_cst_54 : Ref sig .tc := ⟨.hbm, 257, rfl⟩
abbrev main_v178 : Ref sig .tc := ⟨.hbm, 258, rfl⟩
abbrev main_v179 : Ref sig .tc := ⟨.hbm, 259, rfl⟩
abbrev main_cst_55 : Ref sig .tc := ⟨.hbm, 260, rfl⟩
abbrev main_call17_v0 : Ref sig .tc := ⟨.hbm, 261, rfl⟩
abbrev main_v180 : Ref sig .tc := ⟨.hbm, 262, rfl⟩

abbrev nD : Nat := 1
abbrev τ : Topo := Topo.v7x

variable {F : FTy → Type} [FloatOps F]

class Facts₀ : Prop where
  reducesTo_S262144x512_S512_d0 : S262144x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  reducesTo_S1x512_S1_d1 : S1x512.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x512_0_1 : S1x1.BroadcastsInDim S1x512 (![0, 1] : Fin 2 → Fin S1x512.rank)
  bcast_S1x512_S262144x512_0_1 : S1x512.BroadcastsInDim S262144x512 (![0, 1] : Fin 2 → Fin S262144x512.rank)
  reducesTo_S262144x512_S262144_d1 : S262144x512.ReducesTo [1] S262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S1024x8 : S8192.ShapeCasts S1024x8
  bcast_S_S1024 : S_.BroadcastsInDim S1024 (![] : Fin 0 → Fin S1024.rank)
  slices_S1024x8_S1024x1_0_0 : S1024x8.Slices ![0, 0] S1024x1
  shapeCasts_S1024x1_S1024 : S1024x1.ShapeCasts S1024
  reducesTo_S1024_S_d0 : S1024.ReducesTo [0] S_
  slices_S1024x8_S1024x1_0_1 : S1024x8.Slices ![0, 1] S1024x1
  slices_S1024x8_S1024x1_0_2 : S1024x8.Slices ![0, 2] S1024x1
  slices_S1024x8_S1024x1_0_3 : S1024x8.Slices ![0, 3] S1024x1
  slices_S1024x8_S1024x1_0_4 : S1024x8.Slices ![0, 4] S1024x1
  slices_S1024x8_S1024x1_0_5 : S1024x8.Slices ![0, 5] S1024x1
  slices_S1024x8_S1024x1_0_6 : S1024x8.Slices ![0, 6] S1024x1
  slices_S1024x8_S1024x1_0_7 : S1024x8.Slices ![0, 7] S1024x1
  scatter_S8192_S262144x1_S262144_n_0_0_1_wf : ScatterDims.WF S8192 S262144x1 S262144 [] [0] [0] 1

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf

class Facts : Prop extends Facts₀ where

variable [Facts]
-- ==== Proof.KernelRegion0Runs.lean ====
import proofs.«421787_j43851616092489_3_alg».proof.Proof.Gen.Kernel.Launch
import proofs.«421787_j43851616092489_3_alg».proof.Proof.Gen.Kernel.Skeleton
import proofs.«421787_j43851616092489_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset (i : grid0.Coords) : Prop :=
  (Scalar.cmpi .ne (Scalar.extui (Scalar.cmpi .eq (BitVec.ofNat 32 (i 1).val) 0#32)) 0#32) = 1#1

theorem hcondReset : ∀ t : Fin cfg0.N, condReset (grid0.coords t) ↔ t.val % 16 = 0 :=
  (by decide +kernel : ∀ t : Fin grid0.N, condReset (grid0.coords t) ↔ t.val % 16 = 0)

abbrev condFlush (i : grid0.Coords) : Prop := k0_cond2 i = 1#1

theorem hcondFlush : ∀ t : Fin cfg0.N, condFlush (grid0.coords t) ↔ t.val % 16 = 15 :=
  (by decide +kernel : ∀ t : Fin grid0.N, condFlush (grid0.coords t) ↔ t.val % 16 = 15)

theorem liveIn : ∀ t : Fin cfg0.N, cfg0.idle 0 (grid0.coords t) = false := by decide +kernel

theorem idleOut : ∀ t : Fin cfg0.N, ¬condFlush (grid0.coords t) → cfg0.idle 1 (grid0.coords t) = true := by
  decide +kernel

theorem noFlushOut : ∀ t : Fin cfg0.N, ¬condFlush (grid0.coords t) → (cfg0.win 1).flush t = false := by
  decide +kernel

theorem liveOut : ∀ t : Fin cfg0.N, condFlush (grid0.coords t) → cfg0.idle 1 (grid0.coords t) = false := by
  decide +kernel

abbrev msIn (t : Fin cfg0.N) : Memref sig .tc .vmem S8192x512 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1x512 .f32 := win0_1.stage (cfg0.slots t 1)
abbrev hsOut (t : Fin cfg0.N) : (msOut t).IsWhole := hstage0_1 ((cfg0.slots t 1).cast nbuf0_1)

abbrev scM : Memref sig .tc .vmem S1x512 .f32 := Memref.whole cc0_scratch0

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA; rw [scopedRest_split]; simp only [scM, owns_whole]; try rfl

variable (c : Dev nD) (i : grid0.Coords) (arg2 : Memref sig .tc .vmem S8192x512 .f32) (harg2 : arg2.IsWhole) (arg3 : Memref sig .tc .vmem S1x1x512 .f32) (harg3 : arg3.IsWhole) (arg4 : Memref sig .tc .vmem S1x512 .f32) (harg4 : arg4.IsWhole)

set_option maxHeartbeats 1000000 in
noncomputable def runReset (hr : condReset i) (hf : ¬condFlush i) (x : Vec F S8192x512 .f32) :
    { LS : List (View.Piece (Elt F) S1x512 .f32) //
      ∀ (y : Vec F S1x1x512 .f32) (E : Set ℕ) (K : PUnit → sProp 𝕄),
        iprop(owns (c : Thread nD τ) arg2 fullShare x ∗ owns (c : Thread nD τ) arg3 fullShare y
            ∗ (∃ d, owns (c : Thread nD τ) arg4 fullShare d)
            ∗ (iprop(owns (c : Thread nD τ) arg2 fullShare x ∗ owns (c : Thread nD τ) arg3 fullShare y
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, fun y E K => ?run⟩
  case run =>
    simp only [cc0__sum_kernel_eq_skeleton]; unfold cc0__sum_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hr | exact hf)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
noncomputable def runMiddle (hr : ¬condReset i) (hf : ¬condFlush i) (x : Vec F S8192x512 .f32) (a : Vec F S1x512 .f32) :
    { LS : List (View.Piece (Elt F) S1x512 .f32) //
      ∀ (y : Vec F S1x1x512 .f32) (E : Set ℕ) (K : PUnit → sProp 𝕄),
        iprop(owns (c : Thread nD τ) arg2 fullShare x ∗ owns (c : Thread nD τ) arg3 fullShare y
            ∗ owns (c : Thread nD τ) arg4 fullShare a
            ∗ (iprop(owns (c : Thread nD τ) arg2 fullShare x ∗ owns (c : Thread nD τ) arg3 fullShare y
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, fun y E K => ?run⟩
  case run =>
    simp only [cc0__sum_kernel_eq_skeleton]; unfold cc0__sum_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hr | exact hf)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
noncomputable def runFlush (hr : ¬condReset i) (hf : condFlush i) (x : Vec F S8192x512 .f32) (a : Vec F S1x512 .f32) :
    Σ' (LO : List (View.Piece (Elt F) S1x1x512 .f32)), { LS : List (View.Piece (Elt F) S1x512 .f32) //
      ∀ (E : Set ℕ) (K : PUnit → sProp 𝕄),
        iprop(owns (c : Thread nD τ) arg2 fullShare x ∗ (∃ d, owns (c : Thread nD τ) arg3 fullShare d)
            ∗ owns (c : Thread nD τ) arg4 fullShare a
            ∗ (iprop(owns (c : Thread nD τ) arg2 fullShare x
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hr | exact hf)
    sl_step
    iapply Hk
    isplitl [H0]
    · iexists _; isplitr; · ipureintro; exact harg2.read_unread _
      iexact H0
    isplitl [H1]; · iexists _; iexact H1
    iexists _; iexact HS

end Cert.Kernel.Region0

end
-- ==== Proof.OwnsWrites.lean ====
import Idealize.ShloMosaic.Lib.Pipeline.FrameBody
import Idealize.ShloMosaic.Lib.Ring
import Idealize.ShloMosaic.Lib.Tactic

noncomputable section

namespace Cert

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

/-- A buffer whose writes read back as `X` over any earlier contents is owned at `X`. -/
theorem owns_writes (c : Dev nD) {sp : Space} {sh : Shape} {e : EltTy} (m : Memref sig .tc sp sh e)
    (L : List (View.Piece Val sh e)) (X : sh.Idx → Val e) (h : ∀ f, m.view.read Val (m.view.writes Val f L) = X) :
    (iprop(∃ f, m.view.loc (c : Thread nD τ) ↦[m.view.set]{fullShare} m.view.writes Val f L) : sProp (MT nD τ sig Ix Val Name U Lvl))
      ⊢ owns (c : Thread nD τ) m fullShare X := by
  unfold owns
  iintro ⟨%f, H⟩
  iexists _
  isplitr
  · ipureintro; exact h f
  iexact H

end Cert

end
-- ==== Proof.KernelRegion0.lean ====
import proofs.«421787_j43851616092489_3_alg».proof.Proof.KernelRegion0Runs
import proofs.«421787_j43851616092489_3_alg».proof.Proof.OwnsWrites
import Idealize.ShloMosaic.Lib.Pipeline.Value

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by funext a; fin_cases a <;> rfl
theorem zeros3 : (![0, 0, 0] : Fin 3 → ℕ) = fun _ => 0 := by funext a; fin_cases a <;> rfl

section
variable (c : Dev nD) (i : grid0.Coords) (arg2 : Memref sig .tc .vmem S8192x512 .f32) (harg2 : arg2.IsWhole) (arg3 : Memref sig .tc .vmem S1x1x512 .f32) (harg3 : arg3.IsWhole) (arg4 : Memref sig .tc .vmem S1x512 .f32) (harg4 : arg4.IsWhole) (x : Vec F S8192x512 .f32) (a : Vec F S1x512 .f32)

theorem acc_reset (hr : condReset i) (hf : ¬condFlush i) (f : arg4.view.ty.Contents (Elt F)) :
    arg4.view.read (Elt F) (arg4.view.writes (Elt F) f (runReset c i arg2 harg2 arg3 harg3 arg4 harg4 hr hf x).1) = k0_pay2 (k0_pay1 (F := F)) x := by
  rw [View.read_writes_eq_canon _ _ _ (View.cover_of_tiledL (runReset c i arg2 harg2 arg3 harg3 arg4 harg4 hr hf x).1 S1x512.size (by sl_kernel_rfl))]
  unfold runReset; dsimp only; sl_unfold_words
  rw [View.canon_cons_unit_zero (S := S1x512) zeros2, View.readCov_unit_zero (S := S1x512) _ zeros2]
  simp only [View.readAt_eq_ld, harg2.read_unread, View.ld_unit_zero (S := S8192x512) zeros2]

theorem acc_middle (hr : ¬condReset i) (hf : ¬condFlush i) (f : arg4.view.ty.Contents (Elt F)) :
    arg4.view.read (Elt F) (arg4.view.writes (Elt F) f (runMiddle c i arg2 harg2 arg3 harg3 arg4 harg4 hr hf x a).1) = k0_pay2 a x := by
  rw [View.read_writes_eq_canon _ _ _ (View.cover_of_tiledL (runMiddle c i arg2 harg2 arg3 harg3 arg4 harg4 hr hf x a).1 S1x512.size (by sl_kernel_rfl))]
  unfold runMiddle; dsimp only; sl_unfold_words
  rw [View.canon_unit_zero (S := S1x512) zeros2]
  simp only [View.readAt_eq_ld, harg4.read_unread, harg2.read_unread, View.ld_unit_zero (S := S1x512) zeros2,
    View.ld_unit_zero (S := S8192x512) zeros2]

theorem acc_flush (hr : ¬condReset i) (hf : condFlush i) (f : arg4.view.ty.Contents (Elt F)) :
    arg4.view.read (Elt F) (arg4.view.writes (Elt F) f (runFlush c i arg2 harg2 arg3 harg3 arg4 harg4 hr hf x a).2.1) = k0_pay2 a x := by
  rw [View.read_writes_eq_canon _ _ _ (View.cover_of_tiledL (runFlush c i arg2 harg2 arg3 harg3 arg4 harg4 hr hf x a).2.1 S1x512.size (by sl_kernel_rfl))]
  unfold runFlush; dsimp only; sl_unfold_words
  rw [View.canon_unit_zero (S := S1x512) zeros2]
  simp only [View.readAt_eq_ld, harg4.read_unread, harg2.read_unread, View.ld_unit_zero (S := S1x512) zeros2,
    View.ld_unit_zero (S := S8192x512) zeros2]

theorem out_flush (hr : ¬condReset i) (hf : condFlush i) (f : arg3.view.ty.Contents (Elt F)) :
    arg3.view.read (Elt F) (arg3.view.writes (Elt F) f (runFlush c i arg2 harg2 arg3 harg3 arg4 harg4 hr hf x a).1) = k0_pay3 (k0_pay2 a x) := by
  rw [View.read_writes_eq_canon _ _ _ (View.cover_of_tiledL (runFlush c i arg2 harg2 arg3 harg3 arg4 harg4 hr hf x a).1 S1x1x512.size (by sl_kernel_rfl))]
  unfold runFlush; dsimp only; sl_unfold_words
  rw [View.canon_unit_zero (S := S1x1x512) zeros3, View.readCov_unit_zero (S := S1x512) _ zeros2]
  simp only [View.readAt_eq_ld, harg4.read_unread, harg2.read_unread, View.ld_unit_zero (S := S1x512) zeros2,
    View.ld_unit_zero (S := S8192x512) zeros2]

end

abbrev Entry (F : FTy → Type) : Type := (c : Dev nD) → (b : Ref sig .tc) → Buf (Elt F) ((c : Thread nD τ).loc b)

def iblk (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem notFlush_of_reset (t : Fin cfg0.N) (h : t.val % 16 = 0) : ¬condFlush (grid0.coords t) := fun hc => by
  have := (hcondFlush t).mp hc; omega
theorem notReset_of (t : Fin cfg0.N) (h : ¬t.val % 16 = 0) : ¬condReset (grid0.coords t) := fun hc => h ((hcondReset t).mp hc)
theorem notFlush_of (t : Fin cfg0.N) (h : ¬t.val % 16 = 15) : ¬condFlush (grid0.coords t) := fun hc => h ((hcondFlush t).mp hc)

/-- The running column sums after point n: the block's sums added to zero where n mod 16 = 0, else to what point n - 1 left. -/
def accAt (V : Entry F) (c : Dev nD) : (n : ℕ) → n < cfg0.N → Vec F S1x512 .f32
  | 0, hn => k0_pay2 (k0_pay1 (F := F)) (iblk V c 0 ⟨0, hn⟩)
  | n + 1, hn =>
    if (n + 1) % 16 = 0 then k0_pay2 (k0_pay1 (F := F)) (iblk V c 0 ⟨n + 1, hn⟩)
    else k0_pay2 (accAt V c n (Nat.lt_of_succ_lt hn)) (iblk V c 0 ⟨n + 1, hn⟩)

def outAt (V : Entry F) (c : Dev nD) (n : ℕ) (hn : n < cfg0.N) : Vec F S1x1x512 .f32 := k0_pay3 (accAt V c n hn)

theorem accAt_reset (V : Entry F) (c : Dev nD) (t : Fin cfg0.N) (h : t.val % 16 = 0) :
    accAt V c t.val t.isLt = k0_pay2 (k0_pay1 (F := F)) (iblk V c 0 t) := by
  obtain ⟨n, hn⟩ := t
  cases n with
  | zero => rfl
  | succ n => exact (if_pos h).trans rfl

theorem accAt_step (V : Entry F) (c : Dev nD) (t : Fin cfg0.N) (h : ¬ t.val % 16 = 0) :
    accAt V c t.val t.isLt = k0_pay2 (accAt V c (t.val - 1) (Nat.lt_of_le_of_lt (Nat.sub_le _ _) t.isLt)) (iblk V c 0 t) := by
  obtain ⟨n, hn⟩ := t
  cases n with
  | zero => exact absurd (Nat.zero_mod _) h
  | succ n => exact (if_neg h).trans rfl

theorem outAt_last (V : Entry F) (c : Dev nD) (t : Fin cfg0.N) (h : t.val % 16 = 15) :
    outAt V c t.val t.isLt = k0_pay3 (accAt V c t.val t.isLt) := rfl

def PhiS (V : Entry F) (c : Dev nD) : (n : ℕ) → n ≤ cfg0.N → sProp 𝕄
  | 0, _ => Pipeline.ΦA spec0 c
  | n + 1, hn => iprop(iprop(owns (c : Thread nD τ) scM fullShare (accAt V c n hn) ∗ others (F := F) c) ∗ (∃ r, prngReg c r))

theorem PhiS_zero (V : Entry F) (c : Dev nD) (n : ℕ) (h : n ≤ cfg0.N) (hz : n = 0) : PhiS V c n h = Pipeline.ΦA spec0 c := by
  subst hz; rfl

theorem PhiS_succ (V : Entry F) (c : Dev nD) (n : ℕ) (hn : n < cfg0.N) :
    PhiS V c (n + 1) hn = iprop(iprop(owns (c : Thread nD τ) scM fullShare (accAt V c n hn) ∗ others (F := F) c) ∗ (∃ r, prngReg c r)) := rfl

theorem PhiS_pos (V : Entry F) (c : Dev nD) (n : ℕ) (h : n ≤ cfg0.N) (hz : n ≠ 0) :
    PhiS V c n h = iprop(iprop(owns (c : Thread nD τ) scM fullShare (accAt V c (n - 1) (by omega)) ∗ others (F := F) c) ∗ (∃ r, prngReg c r)) := by
  cases n with
  | zero => exact absurd rfl hz
  | succ n => rfl

theorem PhiS_forget (V : Entry F) (c : Dev nD) (n : ℕ) (h : n ≤ cfg0.N) :
    PhiS V c n h ⊢ iprop(iprop((∃ d, owns (c : Thread nD τ) scM fullShare d) ∗ others (F := F) c) ∗ (∃ r, prngReg c r)) := by
  cases n with
  | zero => rw [PhiS_zero V c 0 h rfl, PhiA_eq]
  | succ n =>
    rw [PhiS_succ]
    iintro ⟨⟨HS, Hr⟩, Hg⟩
    iframe Hr Hg
    iexists _; iexact HS

def dat (V : Entry F) (c : Dev nD) : Dat τ (Elt F) Unit ℕ (UR sig nD τ) ℕ cfg0 c where
  A w := V c (Pipeline.arrRef spec0 w)
  after w t := match w with
    | ⟨0, _⟩ => iblk V c 0 t
    | ⟨1, _⟩ => outAt V c t.val t.isLt
  Φ t := PhiS V c t.val (Nat.le_of_lt_succ t.isLt)
  q _ := fullShare
  owed _ := 0

theorem A_eq (V : Entry F) (c : Dev nD) (w : Fin cfg0.W) : (dat V c).A w = V c (Pipeline.arrRef spec0 w) := by dsimp only [dat]
theorem after_0 (V : Entry F) (c : Dev nD) (t : Fin cfg0.N) : (dat V c).after 0 t = iblk V c 0 t := by dsimp only [dat]
theorem after_1 (V : Entry F) (c : Dev nD) (t : Fin cfg0.N) : (dat V c).after 1 t = outAt V c t.val t.isLt := by dsimp only [dat]

theorem PhiS_castSucc (V : Entry F) (c : Dev nD) (t : Fin cfg0.N) :
    (dat V c).Φ t.castSucc = PhiS V c t.val (Nat.le_of_lt t.isLt) := by
  dsimp only [dat]; simp only [Fin.coe_castSucc]

theorem before_in (V : Entry F) (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem leaves_in (V : Entry F) (c : Dev nD) (t : Fin cfg0.N) :
    (dat V c).leavesExact 0 t = owns (c : Thread nD τ) (msIn t) fullShare (iblk V c 0 t) := by
  rw [show (dat V c).leavesExact 0 t = owns (c : Thread nD τ) (msIn t) fullShare ((dat V c).after 0 t) from by
    unfold Dat.leavesExact; rw [liveIn t], after_0]

theorem leaves_out (V : Entry F) (c : Dev nD) (t : Fin cfg0.N) (hf : condFlush (grid0.coords t)) :
    (dat V c).leavesExact 1 t = owns (c : Thread nD τ) (msOut t) fullShare (outAt V c t.val t.isLt) := by
  rw [show (dat V c).leavesExact 1 t = owns (c : Thread nD τ) (msOut t) fullShare ((dat V c).after 1 t) from by
    unfold Dat.leavesExact; rw [liveOut t hf], after_1]

def bodyPre (V : Entry F) (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

def bodyPost (V : Entry F) (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- Each case's run takes the running sums at what the point before left and leaves them at what this point adds. -/
theorem sound_body (V : Entry F) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ, PhiS_castSucc, leaves_in]
  by_cases h0 : t.val % 16 = 0
  · have hr : condReset (grid0.coords t) := (hcondReset t).mpr h0
    have hf : ¬condFlush (grid0.coords t) := notFlush_of_reset t h0
    rw [Dat.leavesExact_idle (dat V c) 1 t (idleOut t hf) (noFlushOut t hf)]
    refine (sep_mono_left (PhiS_forget V c _ _)).trans ?_
    iintro ⟨⟨⟨HS, Hr⟩, Hg⟩, Ho, ⟨%d0, H0⟩, ⟨%d1, H1⟩⟩
    iapply ((runReset c (grid0.coords t) (msIn t) (hsIn t) (msOut t) (hsOut t) scM (Memref.isWhole_whole _) hr hf (iblk V c 0 t)).2 _ Set.univ _)
    iframe H0 H1 HS
    iintro ⟨H0, H1, HS⟩
    ihave HS := (owns_writes c scM _ _ fun f => (acc_reset c (grid0.coords t) (msIn t) (hsIn t) (msOut t) (hsOut t) scM (Memref.isWhole_whole _) (iblk V c 0 t) hr hf f).trans (accAt_reset V c t h0).symm) $$ HS
    iframe HS Hr Hg Ho H0
    iexists _; iexact H1
  · have hr : ¬condReset (grid0.coords t) := notReset_of t h0
    rw [PhiS_pos V c _ _ (fun e => h0 (by rw [e]))]
    by_cases h1 : t.val % 16 = 15
    · have hf : condFlush (grid0.coords t) := (hcondFlush t).mpr h1
      rw [leaves_out V c t hf]
      unfold outAt
      iintro ⟨⟨⟨HS, Hr⟩, Hg⟩, Ho, ⟨%d0, H0⟩, ⟨%d1, H1⟩⟩
      iapply ((runFlush c (grid0.coords t) (msIn t) (hsIn t) (msOut t) (hsOut t) scM (Memref.isWhole_whole _) hr hf (iblk V c 0 t) (accAt V c (t.val - 1) (Nat.lt_of_le_of_lt (Nat.sub_le _ _) t.isLt))).2.2 Set.univ _)
      iframe H0 HS
      isplitl [H1]; · iexists _; iexact H1
      iintro ⟨H0, H1, HS⟩
      ihave HS := (owns_writes c scM _ _ fun f => (acc_flush c (grid0.coords t) (msIn t) (hsIn t) (msOut t) (hsOut t) scM (Memref.isWhole_whole _) (iblk V c 0 t) (accAt V c (t.val - 1) (Nat.lt_of_le_of_lt (Nat.sub_le _ _) t.isLt)) hr hf f).trans (accAt_step V c t h0).symm) $$ HS
      ihave H1 := (owns_writes c (msOut t) _ _ fun f => (out_flush c (grid0.coords t) (msIn t) (hsIn t) (msOut t) (hsOut t) scM (Memref.isWhole_whole _) (iblk V c 0 t) (accAt V c (t.val - 1) (Nat.lt_of_le_of_lt (Nat.sub_le _ _) t.isLt)) hr hf f).trans (congrArg k0_pay3 (accAt_step V c t h0).symm)) $$ H1
      iframe
    · have hf : ¬condFlush (grid0.coords t) := notFlush_of t h1
      rw [Dat.leavesExact_idle (dat V c) 1 t (idleOut t hf) (noFlushOut t hf)]
      iintro ⟨⟨⟨HS, Hr⟩, Hg⟩, Ho, ⟨%d0, H0⟩, ⟨%d1, H1⟩⟩
      iapply ((runMiddle c (grid0.coords t) (msIn t) (hsIn t) (msOut t) (hsOut t) scM (Memref.isWhole_whole _) hr hf (iblk V c 0 t) (accAt V c (t.val - 1) (Nat.lt_of_le_of_lt (Nat.sub_le _ _) t.isLt))).2 _ Set.univ _)
      iframe H0 H1 HS
      iintro ⟨H0, H1, HS⟩
      ihave HS := (owns_writes c scM _ _ fun f => (acc_middle c (grid0.coords t) (msIn t) (hsIn t) (msOut t) (hsOut t) scM (Memref.isWhole_whole _) (iblk V c 0 t) (accAt V c (t.val - 1) (Nat.lt_of_le_of_lt (Nat.sub_le _ _) t.isLt)) hr hf f).trans (accAt_step V c t h0).symm) $$ HS
      iframe HS Hr Hg Ho H0
      iexists _; iexact H1

theorem body_obligation (V : Entry F) (c : Dev nD) : BodyObligation (dat (F := F) V c) (defs₀ (F := F)) Variants.none () Set.univ := fun t => by
  rw [bigSep_W0, bigSep_W0]
  exact sound_body V c t

theorem hin (V : Entry F) (c : Dev nD) : Pipeline.ΦA spec0 c ⊢ (dat V c).Φ 0 := by
  rw [show (dat V c).Φ 0 = PhiS V c 0 (Nat.zero_le _) from rfl, PhiS_zero V c 0 _ rfl]

theorem hout (V : Entry F) (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA_eq]
  exact PhiS_forget V c _ _

end Cert.Kernel.Region0

end
-- ==== Proof.KernelRegion1Runs.lean ====
import proofs.«421787_j43851616092489_3_alg».proof.Proof.Gen.Kernel.Launch
import proofs.«421787_j43851616092489_3_alg».proof.Proof.Gen.Kernel.Skeleton
import proofs.«421787_j43851616092489_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 64 = 0 :=
  (by decide +kernel : ∀ t : Fin grid1.N, cond1_0 (grid1.coords t) ↔ t.val % 64 = 0)

abbrev cond1_1 (i : grid1.Coords) : Prop := k1_cond2 i = 1#1

theorem hcond1_1 : ∀ t : Fin cfg1.N, cond1_1 (grid1.coords t) ↔ t.val % 64 = 63 :=
  (by decide +kernel : ∀ t : Fin grid1.N, cond1_1 (grid1.coords t) ↔ t.val % 64 = 63)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel

theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x8 .f32 := win1_5.stage (cfg1.slots t 5)
abbrev hs1_5 (t : Fin cfg1.N) : (ms1_5 t).IsWhole := hstage1_5 ((cfg1.slots t 5).cast nbuf1_5)

abbrev scM1_0 : Memref sig .tc .vmem S1024x8 .f32 := Memref.whole cc1_scratch0
abbrev scM1_1 : Memref sig .tc .vmem S1024x8 .f32 := Memref.whole cc1_scratch1

/-- The invariant's shape: what the region holds beside its windows, its two tables as `P0` and `P1` say. -/
def Held (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ P0 ∗ P1) ∗ (∃ r, prngReg c r))

theorem PhiA1_eq (c : Dev nD) :
    (Pipeline.ΦA spec1 c : sProp 𝕄) = Held c iprop(∃ d, owns (c : Thread nD τ) scM1_0 fullShare d) iprop(∃ d, owns (c : Thread nD τ) scM1_1 fullShare d) := by
  unfold Pipeline.ΦA Held; rw [scopedRest1_eq]; simp only [scM1_0, scM1_1, owns_whole]; try rfl

variable (c : Dev nD) (i : grid1.Coords) (arg2 : Memref sig .tc .vmem S2048x512 .f32) (harg2 : arg2.IsWhole) (arg3 : Memref sig .tc .vmem S2048 .i32) (harg3 : arg3.IsWhole) (arg4 : Memref sig .tc .vmem S2048 .i32) (harg4 : arg4.IsWhole) (arg5 : Memref sig .tc .vmem S1x512 .f32) (harg5 : arg5.IsWhole) (arg6 : Memref sig .tc .vmem S1x1024x8 .f32) (harg6 : arg6.IsWhole) (arg7 : Memref sig .tc .vmem S1x1024x8 .f32) (harg7 : arg7.IsWhole) (arg8 : Memref sig .tc .vmem S1024x8 .f32) (harg8 : arg8.IsWhole) (arg9 : Memref sig .tc .vmem S1024x8 .f32) (harg9 : arg9.IsWhole)

set_option maxHeartbeats 1000000 in
noncomputable def kernelRun1_A (hc0 : cond1_0 i) (hc1 : ¬cond1_1 i)
    (x0 : Vec F S2048x512 .f32) (x1 : Vec F S2048 .i32) (x2 : Vec F S2048 .i32) (x3 : Vec F S1x512 .f32) :
    Σ' (LS0 : List (View.Piece (Elt F) S1024x8 .f32)), { LS1 : List (View.Piece (Elt F) S1024x8 .f32) //
      ∀ (xi4 xi5 : Vec F S1x1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, fun xi4 xi5 E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

set_option maxHeartbeats 1000000 in
noncomputable def kernelRun1_B (hc0 : ¬cond1_0 i) (hc1 : ¬cond1_1 i)
    (x0 : Vec F S2048x512 .f32) (x1 : Vec F S2048 .i32) (x2 : Vec F S2048 .i32) (x3 : Vec F S1x512 .f32) (xs0 xs1 : Vec F S1024x8 .f32) :
    Σ' (LS0 : List (View.Piece (Elt F) S1024x8 .f32)), { LS1 : List (View.Piece (Elt F) S1024x8 .f32) //
      ∀ (xi4 xi5 : Vec F S1x1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, fun xi4 xi5 E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

set_option maxHeartbeats 1000000 in
noncomputable def kernelRun1_C (hc0 : ¬cond1_0 i) (hc1 : cond1_1 i)
    (x0 : Vec F S2048x512 .f32) (x1 : Vec F S2048 .i32) (x2 : Vec F S2048 .i32) (x3 : Vec F S1x512 .f32) (xs0 xs1 : Vec F S1024x8 .f32) :
    Σ' (L4 : List (View.Piece (Elt F) S1x1024x8 .f32)) (L5 : List (View.Piece (Elt F) S1x1024x8 .f32)) (LS0 : List (View.Piece (Elt F) S1024x8 .f32)), { LS1 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, ?_, ?_, fun E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; iexact HS0
    iexists _; iexact HS1

end Cert.Kernel.Region1

end
-- ==== Proof.KernelRegion1.lean ====
import proofs.«421787_j43851616092489_3_alg».proof.Proof.KernelRegion1Runs
import proofs.«421787_j43851616092489_3_alg».proof.Proof.OwnsWrites
import Idealize.ShloMosaic.Lib.Pipeline.Value

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

section
variable (c : Dev nD) (i : grid1.Coords) (arg2 : Memref sig .tc .vmem S2048x512 .f32) (harg2 : arg2.IsWhole) (arg3 : Memref sig .tc .vmem S2048 .i32) (harg3 : arg3.IsWhole) (arg4 : Memref sig .tc .vmem S2048 .i32) (harg4 : arg4.IsWhole) (arg5 : Memref sig .tc .vmem S1x512 .f32) (harg5 : arg5.IsWhole) (arg6 : Memref sig .tc .vmem S1x1024x8 .f32) (harg6 : arg6.IsWhole) (arg7 : Memref sig .tc .vmem S1x1024x8 .f32) (harg7 : arg7.IsWhole) (arg8 : Memref sig .tc .vmem S1024x8 .f32) (harg8 : arg8.IsWhole) (arg9 : Memref sig .tc .vmem S1024x8 .f32) (harg9 : arg9.IsWhole)
  (x0 : Vec F S2048x512 .f32) (x1 x2 : Vec F S2048 .i32) (x3 : Vec F S1x512 .f32) (xs0 xs1 : Vec F S1024x8 .f32)

theorem cnt_A (hc0 : cond1_0 i) (hc1 : ¬cond1_1 i) (f : arg8.view.ty.Contents (Elt F)) :
    arg8.view.read (Elt F) (arg8.view.writes (Elt F) f (kernelRun1_A c i arg2 harg2 arg3 harg3 arg4 harg4 arg5 harg5 arg6 harg6 arg7 harg7 arg8 harg8 arg9 harg9 hc0 hc1 x0 x1 x2 x3).1) = k1_pay1 (k1_pay9 x3 x0 x2 x1 (k1_pay5 (F := F))) := by
  rw [View.read_writes_eq_canon _ _ _ (View.cover_of_tiledL (kernelRun1_A c i arg2 harg2 arg3 harg3 arg4 harg4 arg5 harg5 arg6 harg6 arg7 harg7 arg8 harg8 arg9 harg9 hc0 hc1 x0 x1 x2 x3).1 S1024x8.size (by sl_kernel_rfl))]
  unfold kernelRun1_A; dsimp only; sl_unfold_words
  rw [View.canon_cons_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_A (hc0 : cond1_0 i) (hc1 : ¬cond1_1 i) (f : arg9.view.ty.Contents (Elt F)) :
    arg9.view.read (Elt F) (arg9.view.writes (Elt F) f (kernelRun1_A c i arg2 harg2 arg3 harg3 arg4 harg4 arg5 harg5 arg6 harg6 arg7 harg7 arg8 harg8 arg9 harg9 hc0 hc1 x0 x1 x2 x3).2.1) = k1_pay2 (k1_pay8 x3 x0 x2 x1) (k1_pay6 (F := F)) := by
  rw [View.read_writes_eq_canon _ _ _ (View.cover_of_tiledL (kernelRun1_A c i arg2 harg2 arg3 harg3 arg4 harg4 arg5 harg5 arg6 harg6 arg7 harg7 arg8 harg8 arg9 harg9 hc0 hc1 x0 x1 x2 x3).2.1 S1024x8.size (by sl_kernel_rfl))]
  unfold kernelRun1_A; dsimp only; sl_unfold_words
  rw [View.canon_cons_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem cnt_B (hc0 : ¬cond1_0 i) (hc1 : ¬cond1_1 i) (f : arg8.view.ty.Contents (Elt F)) :
    arg8.view.read (Elt F) (arg8.view.writes (Elt F) f (kernelRun1_B c i arg2 harg2 arg3 harg3 arg4 harg4 arg5 harg5 arg6 harg6 arg7 harg7 arg8 harg8 arg9 harg9 hc0 hc1 x0 x1 x2 x3 xs0 xs1).1) = k1_pay1 (k1_pay9 x3 x0 x2 x1 xs0) := by
  rw [View.read_writes_eq_canon _ _ _ (View.cover_of_tiledL (kernelRun1_B c i arg2 harg2 arg3 harg3 arg4 harg4 arg5 harg5 arg6 harg6 arg7 harg7 arg8 harg8 arg9 harg9 hc0 hc1 x0 x1 x2 x3 xs0 xs1).1 S1024x8.size (by sl_kernel_rfl))]
  unfold kernelRun1_B; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_B (hc0 : ¬cond1_0 i) (hc1 : ¬cond1_1 i) (f : arg9.view.ty.Contents (Elt F)) :
    arg9.view.read (Elt F) (arg9.view.writes (Elt F) f (kernelRun1_B c i arg2 harg2 arg3 harg3 arg4 harg4 arg5 harg5 arg6 harg6 arg7 harg7 arg8 harg8 arg9 harg9 hc0 hc1 x0 x1 x2 x3 xs0 xs1).2.1) = k1_pay2 (k1_pay8 x3 x0 x2 x1) xs1 := by
  rw [View.read_writes_eq_canon _ _ _ (View.cover_of_tiledL (kernelRun1_B c i arg2 harg2 arg3 harg3 arg4 harg4 arg5 harg5 arg6 harg6 arg7 harg7 arg8 harg8 arg9 harg9 hc0 hc1 x0 x1 x2 x3 xs0 xs1).2.1 S1024x8.size (by sl_kernel_rfl))]
  unfold kernelRun1_B; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem cnt_C (hc0 : ¬cond1_0 i) (hc1 : cond1_1 i) (f : arg8.view.ty.Contents (Elt F)) :
    arg8.view.read (Elt F) (arg8.view.writes (Elt F) f (kernelRun1_C c i arg2 harg2 arg3 harg3 arg4 harg4 arg5 harg5 arg6 harg6 arg7 harg7 arg8 harg8 arg9 harg9 hc0 hc1 x0 x1 x2 x3 xs0 xs1).2.2.1) = k1_pay1 (k1_pay9 x3 x0 x2 x1 xs0) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.2.1 S1024x8.size (by sl_kernel_rfl))]
  unfold kernelRun1_C; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_C (hc0 : ¬cond1_0 i) (hc1 : cond1_1 i) (f : arg9.view.ty.Contents (Elt F)) :
    arg9.view.read (Elt F) (arg9.view.writes (Elt F) f (kernelRun1_C c i arg2 harg2 arg3 harg3 arg4 harg4 arg5 harg5 arg6 harg6 arg7 harg7 arg8 harg8 arg9 harg9 hc0 hc1 x0 x1 x2 x3 xs0 xs1).2.2.2.1) = k1_pay2 (k1_pay8 x3 x0 x2 x1) xs1 := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.2.2.1 S1024x8.size (by sl_kernel_rfl))]
  unfold kernelRun1_C; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem out4_C (hc0 : ¬cond1_0 i) (hc1 : cond1_1 i) (f : arg6.view.ty.Contents (Elt F)) :
    arg6.view.read (Elt F) (arg6.view.writes (Elt F) f (kernelRun1_C c i arg2 harg2 arg3 harg3 arg4 harg4 arg5 harg5 arg6 harg6 arg7 harg7 arg8 harg8 arg9 harg9 hc0 hc1 x0 x1 x2 x3 xs0 xs1).1) = k1_pay3 (k1_pay1 (k1_pay9 x3 x0 x2 x1 xs0)) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).1 S1x1024x8.size (by sl_kernel_rfl))]
  unfold kernelRun1_C; dsimp only; sl_unfold_words
  rw [View.canon_unit_zero (S := S1x1024x8) hz3]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem out5_C (hc0 : ¬cond1_0 i) (hc1 : cond1_1 i) (f : arg7.view.ty.Contents (Elt F)) :
    arg7.view.read (Elt F) (arg7.view.writes (Elt F) f (kernelRun1_C c i arg2 harg2 arg3 harg3 arg4 harg4 arg5 harg5 arg6 harg6 arg7 harg7 arg8 harg8 arg9 harg9 hc0 hc1 x0 x1 x2 x3 xs0 xs1).2.1) = k1_pay4 (k1_pay2 (k1_pay8 x3 x0 x2 x1) xs1) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.1 S1x1024x8.size (by sl_kernel_rfl))]
  unfold kernelRun1_C; dsimp only; sl_unfold_words
  rw [View.canon_unit_zero (S := S1x1024x8) hz3]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

end

abbrev Entry (F : FTy → Type) : Type := (c : Dev nD) → (b : Ref sig .tc) → Buf (Elt F) ((c : Thread nD τ).loc b)

def iblk (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev embBlk (V : Entry F) (c : Dev nD) (t : Fin cfg1.N) : Vec F S2048x512 .f32 := iblk V c 0 t
abbrev compBlk (V : Entry F) (c : Dev nD) (t : Fin cfg1.N) : Vec F S2048 .i32 := iblk V c 1 t
abbrev doseBlk (V : Entry F) (c : Dev nD) (t : Fin cfg1.N) : Vec F S2048 .i32 := iblk V c 2 t
abbrev dirBlk (V : Entry F) (c : Dev nD) (t : Fin cfg1.N) : Vec F S1x512 .f32 := iblk V c 3 t

def cntAt (V : Entry F) (c : Dev nD) : (n : ℕ) → n < cfg1.N → Vec F S1024x8 .f32
  | 0, hn => k1_pay1 (k1_pay9 (dirBlk V c ⟨0, hn⟩) (embBlk V c ⟨0, hn⟩) (doseBlk V c ⟨0, hn⟩) (compBlk V c ⟨0, hn⟩) (k1_pay5 (F := F)))
  | n + 1, hn =>
    if (n + 1) % 64 = 0 then k1_pay1 (k1_pay9 (dirBlk V c ⟨n + 1, hn⟩) (embBlk V c ⟨n + 1, hn⟩) (doseBlk V c ⟨n + 1, hn⟩) (compBlk V c ⟨n + 1, hn⟩) (k1_pay5 (F := F)))
    else k1_pay1 (k1_pay9 (dirBlk V c ⟨n + 1, hn⟩) (embBlk V c ⟨n + 1, hn⟩) (doseBlk V c ⟨n + 1, hn⟩) (compBlk V c ⟨n + 1, hn⟩) (cntAt V c n (Nat.lt_of_succ_lt hn)))

def totAt (V : Entry F) (c : Dev nD) : (n : ℕ) → n < cfg1.N → Vec F S1024x8 .f32
  | 0, hn => k1_pay2 (k1_pay8 (dirBlk V c ⟨0, hn⟩) (embBlk V c ⟨0, hn⟩) (doseBlk V c ⟨0, hn⟩) (compBlk V c ⟨0, hn⟩)) (k1_pay6 (F := F))
  | n + 1, hn =>
    if (n + 1) % 64 = 0 then k1_pay2 (k1_pay8 (dirBlk V c ⟨n + 1, hn⟩) (embBlk V c ⟨n + 1, hn⟩) (doseBlk V c ⟨n + 1, hn⟩) (compBlk V c ⟨n + 1, hn⟩)) (k1_pay6 (F := F))
    else k1_pay2 (k1_pay8 (dirBlk V c ⟨n + 1, hn⟩) (embBlk V c ⟨n + 1, hn⟩) (doseBlk V c ⟨n + 1, hn⟩) (compBlk V c ⟨n + 1, hn⟩)) (totAt V c n (Nat.lt_of_succ_lt hn))

def out4At (V : Entry F) (c : Dev nD) : (n : ℕ) → n < cfg1.N → Vec F S1x1024x8 .f32 :=
  fun n hn => k1_pay3 (cntAt V c n hn)

def out5At (V : Entry F) (c : Dev nD) : (n : ℕ) → n < cfg1.N → Vec F S1x1024x8 .f32 :=
  fun n hn => k1_pay4 (totAt V c n hn)

theorem cntAt_reset (V : Entry F) (c : Dev nD) (t : Fin cfg1.N) (h : t.val % 64 = 0) :
    cntAt V c t.val t.isLt = k1_pay1 (k1_pay9 (dirBlk V c t) (embBlk V c t) (doseBlk V c t) (compBlk V c t) (k1_pay5 (F := F))) := by
  obtain ⟨n, hn⟩ := t
  cases n with
  | zero => rfl
  | succ n => exact (if_pos h).trans rfl
theorem cntAt_step (V : Entry F) (c : Dev nD) (t : Fin cfg1.N) (h : ¬ t.val % 64 = 0) :
    cntAt V c t.val t.isLt = k1_pay1 (k1_pay9 (dirBlk V c t) (embBlk V c t) (doseBlk V c t) (compBlk V c t)
      (cntAt V c (t.val - 1) (Nat.lt_of_le_of_lt (Nat.sub_le _ _) t.isLt))) := by
  obtain ⟨n, hn⟩ := t
  cases n with
  | zero => exact absurd (Nat.zero_mod _) h
  | succ n => exact (if_neg h).trans rfl
theorem totAt_reset (V : Entry F) (c : Dev nD) (t : Fin cfg1.N) (h : t.val % 64 = 0) :
    totAt V c t.val t.isLt = k1_pay2 (k1_pay8 (dirBlk V c t) (embBlk V c t) (doseBlk V c t) (compBlk V c t)) (k1_pay6 (F := F)) := by
  obtain ⟨n, hn⟩ := t
  cases n with
  | zero => rfl
  | succ n => exact (if_pos h).trans rfl
theorem totAt_step (V : Entry F) (c : Dev nD) (t : Fin cfg1.N) (h : ¬ t.val % 64 = 0) :
    totAt V c t.val t.isLt = k1_pay2 (k1_pay8 (dirBlk V c t) (embBlk V c t) (doseBlk V c t) (compBlk V c t))
      (totAt V c (t.val - 1) (Nat.lt_of_le_of_lt (Nat.sub_le _ _) t.isLt)) := by
  obtain ⟨n, hn⟩ := t
  cases n with
  | zero => exact absurd (Nat.zero_mod _) h
  | succ n => exact (if_neg h).trans rfl
/-- Before point 0 what the region is entered with; before point n + 1 the same with the tables at what point n left. -/
def PhiS (V : Entry F) (c : Dev nD) : (n : ℕ) → n ≤ cfg1.N → sProp 𝕄
  | 0, _ => Pipeline.ΦA spec1 c
  | n + 1, hn => Held c (owns (c : Thread nD τ) scM1_0 fullShare (cntAt V c n hn)) (owns (c : Thread nD τ) scM1_1 fullShare (totAt V c n hn))

theorem PhiS_zero (V : Entry F) (c : Dev nD) (n : ℕ) (h : n ≤ cfg1.N) (hz : n = 0) : PhiS V c n h = Pipeline.ΦA spec1 c := by
  subst hz; rfl

theorem PhiS_succ (V : Entry F) (c : Dev nD) (n : ℕ) (hn : n < cfg1.N) :
    PhiS V c (n + 1) hn = Held c (owns (c : Thread nD τ) scM1_0 fullShare (cntAt V c n hn)) (owns (c : Thread nD τ) scM1_1 fullShare (totAt V c n hn)) := rfl

theorem PhiS_pos (V : Entry F) (c : Dev nD) (n : ℕ) (h : n ≤ cfg1.N) (hz : n ≠ 0) :
    PhiS V c n h = Held c (owns (c : Thread nD τ) scM1_0 fullShare (cntAt V c (n - 1) (by omega))) (owns (c : Thread nD τ) scM1_1 fullShare (totAt V c (n - 1) (by omega))) := by
  cases n with
  | zero => exact absurd rfl hz
  | succ n => rfl

/-- At any point the invariant gives back what the region was entered with: what the tables hold is forgotten. -/
theorem PhiS_forget (V : Entry F) (c : Dev nD) (n : ℕ) (h : n ≤ cfg1.N) :
    PhiS V c n h ⊢ Held c iprop(∃ d, owns (c : Thread nD τ) scM1_0 fullShare d) iprop(∃ d, owns (c : Thread nD τ) scM1_1 fullShare d) := by
  cases n with
  | zero => rw [PhiS_zero V c 0 h rfl, PhiA1_eq]
  | succ n =>
    rw [PhiS_succ]; unfold Held
    iintro ⟨⟨HR0, HR1, HR2, HR3, HR4, HS0, HS1⟩, Hg⟩
    iframe HR0 HR1 HR2 HR3 HR4 Hg
    isplitl [HS0]; · iexists _; iexact HS0
    iexists _; iexact HS1

def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4At V c t.val t.isLt
    | ⟨5, _⟩ => out5At V c t.val t.isLt
  Φ t := PhiS V c t.val (Nat.le_of_lt_succ t.isLt)
  q _ := fullShare
  owed _ := 0

theorem A_eq (V : Entry F) (c : Dev nD) (w : Fin cfg1.W) : (dat V c).A w = V c (Pipeline.arrRef spec1 w) := by
  dsimp only [dat]

theorem PhiS_castSucc (V : Entry F) (c : Dev nD) (t : Fin cfg1.N) :
    (dat V c).Φ t.castSucc = PhiS V c t.val (Nat.le_of_lt t.isLt) := by
  dsimp only [dat]; simp only [Fin.coe_castSucc]

theorem after_0 (V : Entry F) (c : Dev nD) (t : Fin cfg1.N) : (dat V c).after 0 t = iblk V c 0 t := by dsimp only [dat]
theorem after_1 (V : Entry F) (c : Dev nD) (t : Fin cfg1.N) : (dat V c).after 1 t = iblk V c 1 t := by dsimp only [dat]
theorem after_2 (V : Entry F) (c : Dev nD) (t : Fin cfg1.N) : (dat V c).after 2 t = iblk V c 2 t := by dsimp only [dat]
theorem after_3 (V : Entry F) (c : Dev nD) (t : Fin cfg1.N) : (dat V c).after 3 t = iblk V c 3 t := by dsimp only [dat]
theorem after_4 (V : Entry F) (c : Dev nD) (t : Fin cfg1.N) : (dat V c).after 4 t = out4At V c t.val t.isLt := by dsimp only [dat]
theorem after_5 (V : Entry F) (c : Dev nD) (t : Fin cfg1.N) : (dat V c).after 5 t = out5At V c t.val t.isLt := by dsimp only [dat]

theorem before_0 (V : Entry F) (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (V : Entry F) (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (V : Entry F) (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (V : Entry F) (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

def bodyPre (V : Entry F) (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

def bodyPost (V : Entry F) (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- Each case's run takes the tables at what the point before left and leaves them at what this point adds. -/
theorem sound_body (V : Entry F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ, PhiS_castSucc V c t]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  by_cases h0 : t.val % 64 = 0
  · have hc0 : cond1_0 (grid1.coords t) := (hcond1_0 t).mpr h0
    have hc1 : ¬cond1_1 (grid1.coords t) := fun h => absurd ((hcond1_1 t).mp h) (by omega)
    rw [Dat.leavesExact_idle (dat V c) 4 t (idleAt1_4 t hc1) (noFlush1_4 t hc1), Dat.leavesExact_idle (dat V c) 5 t (idleAt1_5 t hc1) (noFlush1_5 t hc1)]
    refine (sep_mono_left (PhiS_forget V c _ _)).trans ?_
    unfold Held
    iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t)).2.2 _ _ Set.univ _)
    iframe H0 H1 H2 H3 H4 H5 HS0 HS1
    iintro ⟨H0, H1, H2, H3, H4, H5, HS0, HS1⟩
    ihave HS0 := (owns_writes c scM1_0 _ _ fun f => (cnt_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) hc0 hc1 f).trans (cntAt_reset V c t h0).symm) $$ HS0
    ihave HS1 := (owns_writes c scM1_1 _ _ fun f => (tot_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) hc0 hc1 f).trans (totAt_reset V c t h0).symm) $$ HS1
    iframe HR0 HR1 HR2 HR3 HR4 HS0 HS1 Hg Ho H0 H1 H2 H3
    isplitl [H4]; · iexists _; iexact H4
    iexists _; iexact H5
  · have hc0 : ¬cond1_0 (grid1.coords t) := fun h => h0 ((hcond1_0 t).mp h)
    rw [PhiS_pos V c _ _ (fun e => h0 (by rw [e]))]
    unfold Held
    by_cases h1 : t.val % 64 = 63
    · have hc1 : cond1_1 (grid1.coords t) := (hcond1_1 t).mpr h1
      rw [show (dat V c).leavesExact 4 t = owns (c : Thread nD τ) (ms1_4 t) fullShare ((dat V c).after 4 t) from by
        unfold Dat.leavesExact; rw [liveAt1_4 t hc1], after_4]
      rw [show (dat V c).leavesExact 5 t = owns (c : Thread nD τ) (ms1_5 t) fullShare ((dat V c).after 5 t) from by
        unfold Dat.leavesExact; rw [liveAt1_5 t hc1], after_5]
      unfold out4At out5At
      iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt))).2.2.2.2 Set.univ _)
      iframe H0 H1 H2 H3 HS0 HS1
      isplitl [H4]; · iexists _; iexact H4
      isplitl [H5]; · iexists _; iexact H5
      iintro ⟨H0, H1, H2, H3, H4, H5, HS0, HS1⟩
      ihave HS0 := (owns_writes c scM1_0 _ _ fun f => (cnt_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (cntAt_step V c t h0).symm) $$ HS0
      ihave HS1 := (owns_writes c scM1_1 _ _ fun f => (tot_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (totAt_step V c t h0).symm) $$ HS1
      ihave H4 := (owns_writes c (ms1_4 t) _ _ fun f => (out4_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (congrArg k1_pay3 (cntAt_step V c t h0).symm)) $$ H4
      ihave H5 := (owns_writes c (ms1_5 t) _ _ fun f => (out5_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (congrArg k1_pay4 (totAt_step V c t h0).symm)) $$ H5
      iframe
    · have hc1 : ¬cond1_1 (grid1.coords t) := fun h => h1 ((hcond1_1 t).mp h)
      rw [Dat.leavesExact_idle (dat V c) 4 t (idleAt1_4 t hc1) (noFlush1_4 t hc1), Dat.leavesExact_idle (dat V c) 5 t (idleAt1_5 t hc1) (noFlush1_5 t hc1)]
      iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt))).2.2 _ _ Set.univ _)
      iframe H0 H1 H2 H3 H4 H5 HS0 HS1
      iintro ⟨H0, H1, H2, H3, H4, H5, HS0, HS1⟩
      ihave HS0 := (owns_writes c scM1_0 _ _ fun f => (cnt_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (cntAt_step V c t h0).symm) $$ HS0
      ihave HS1 := (owns_writes c scM1_1 _ _ fun f => (tot_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (totAt_step V c t h0).symm) $$ HS1
      iframe HR0 HR1 HR2 HR3 HR4 HS0 HS1 Hg Ho H0 H1 H2 H3
      isplitl [H4]; · iexists _; iexact H4
      iexists _; iexact H5

theorem body_obligation (V : Entry F) (c : Dev nD) : BodyObligation (dat (F := F) V c) (defs₀ (F := F)) Variants.none () Set.univ := fun t => by
  rw [bigSep_W1, bigSep_W1]
  exact sound_body V c t

theorem hin (V : Entry F) (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (V : Entry F) (c : Dev nD) : (dat V c).Φ (Fin.last cfg1.N) ⊢ Pipeline.ΦA spec1 c := by
  rw [PhiA1_eq, show (dat V c).Φ (Fin.last cfg1.N) = PhiS V c (Fin.last cfg1.N).val (Nat.le_of_lt_succ (Fin.last cfg1.N).isLt) from rfl]
  exact PhiS_forget V c _ _

end Cert.Kernel.Region1

end
-- ==== Proof.KernelSegs.lean ====
import proofs.«421787_j43851616092489_3_alg».proof.Proof.KernelRegionsP
import proofs.«421787_j43851616092489_3_alg».proof.Proof.KernelRegion0
import proofs.«421787_j43851616092489_3_alg».proof.Proof.KernelRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev OutsAt (F : FTy → Type) : Type := (r : Ref sig .tc) → (c : Dev nD) → Buf (Elt F) ((c : Thread nD τ).loc r)

def base : OutsAt F := fun r c => m ((c : Thread nD τ).loc r)

def entry0 : Region0.Entry F := fun c b => GenP.V0 m c (Proc.devRef .tc b)

def res0 (c : Dev nD) : Buf (Elt F) ((c : Thread nD τ).loc main_v0) := (Region0.dat (entry0 m) c).arrAt 1 cfg0.N

def outs0 : GenP.Outs (F := F) := fun _ => Function.update (base m) main_v0 (res0 m)

def entry1 : Region1.Entry F := fun c b => GenP.V4 m (outs0 m) c (Proc.devRef .tc b)

def res1_0 (c : Dev nD) : Buf (Elt F) ((c : Thread nD τ).loc main_v13_0) := (Region1.dat (entry1 m) c).arrAt 4 cfg1.N
def res1_1 (c : Dev nD) : Buf (Elt F) ((c : Thread nD τ).loc main_v13_1) := (Region1.dat (entry1 m) c).arrAt 5 cfg1.N

def outs : GenP.Outs (F := F) := fun J =>
  Function.update (Function.update (outs0 m J) main_v13_0 (res1_0 m)) main_v13_1 (res1_1 m)

theorem v0_ne_v13_0 : (main_v0 : Ref sig .tc) ≠ main_v13_0 := by decide
theorem v0_ne_v13_1 : (main_v0 : Ref sig .tc) ≠ main_v13_1 := by decide
theorem v13_0_ne_v13_1 : (main_v13_0 : Ref sig .tc) ≠ main_v13_1 := by decide

theorem outs_v0 (c : Dev nD) : outs m 1 main_v0 c = (Region0.dat (entry0 m) c).arrAt 1 cfg0.N := by
  unfold outs outs0
  rw [Function.update_of_ne v0_ne_v13_1, Function.update_of_ne v0_ne_v13_0, Function.update_self]
  rfl

theorem outs_v0_eq (J : ℕ) : outs m J main_v0 = outs0 m J main_v0 := by
  unfold outs
  rw [Function.update_of_ne v0_ne_v13_1, Function.update_of_ne v0_ne_v13_0]

theorem outs_v13_0 (c : Dev nD) : outs m 5 main_v13_0 c = (Region1.dat (entry1 m) c).arrAt 4 cfg1.N := by
  unfold outs
  rw [Function.update_of_ne v13_0_ne_v13_1, Function.update_self]
  rfl

theorem outs_v13_1 (c : Dev nD) : outs m 5 main_v13_1 c = (Region1.dat (entry1 m) c).arrAt 5 cfg1.N := by
  unfold outs
  rw [Function.update_self]
  rfl

theorem V1_eq (c : Dev nD) : GenP.V1 m (outs m) c = GenP.V1 m (outs0 m) c := by
  show Function.update (GenP.V0 m c) main_v0 (outs m 1 main_v0 c) = Function.update (GenP.V0 m c) main_v0 (outs0 m 1 main_v0 c)
  rw [outs_v0_eq]
theorem V4_eq (c : Dev nD) : GenP.V4 m (outs m) c = GenP.V4 m (outs0 m) c := by
  show StableHlo.after hostOps1_2 (StableHlo.after hostOps1_1 (StableHlo.after hostOps1 (GenP.V1 m (outs m) c)))
    = StableHlo.after hostOps1_2 (StableHlo.after hostOps1_1 (StableHlo.after hostOps1 (GenP.V1 m (outs0 m) c)))
  rw [V1_eq]

theorem entry1_eq : entry1 m = fun c b => GenP.V4 m (outs m) c (Proc.devRef .tc b) := by
  funext c b
  unfold entry1
  rw [V4_eq]

def pdats : (p : Fin 2) → (c : Dev nD) → Dat τ (Elt F) Unit ℕ (UR sig nD τ) ℕ (cfgs p) c
  | ⟨0, _⟩ => fun c => Region0.dat (entry0 m) c
  | ⟨1, _⟩ => fun c => Region1.dat (entry1 m) c

abbrev 𝒱₀ : Variants := Variants.none

abbrev L : GSem nD τ sig → Finset Unit := fun _ => ∅
abbrev lv : GSem nD τ sig → Unit → ℕ := fun _ _ => 0

abbrev E (_ : Fin 3) (c : Dev nD) : sProp 𝕄 :=
  iprop((∃ r, prngReg c r) ∗ ∃ W, owes (c : Thread nD τ) (0 : CellTallies nD τ sig Unit) W)

def exit0 : Region0.Entry F := fun c b => GenP.V1 m (outs m) c (Proc.devRef .tc b)
def exit1 : Region1.Entry F := fun c b => GenP.V5 m (outs m) c (Proc.devRef .tc b)

theorem bufs_entry0 (c : Dev nD) :
    (unscopedBufs (Ix := Unit) (Name := ℕ) (U := UR sig nD τ) (Lvl := ℕ) c (entry0 m c) : sProp 𝕄)
      = StableHlo.held (c : Thread nD τ) (Pipeline.ucRefs τ sig) (GenP.V0 m c) :=
  Pipeline.unscopedBufs_held c (GenP.V0 m c)
theorem bufs_exit0 (c : Dev nD) :
    (unscopedBufs (Ix := Unit) (Name := ℕ) (U := UR sig nD τ) (Lvl := ℕ) c (exit0 m c) : sProp 𝕄)
      = StableHlo.held (c : Thread nD τ) (Pipeline.ucRefs τ sig) (GenP.V1 m (outs m) c) :=
  Pipeline.unscopedBufs_held c (GenP.V1 m (outs m) c)
theorem bufs_entry1 (c : Dev nD) :
    (unscopedBufs (Ix := Unit) (Name := ℕ) (U := UR sig nD τ) (Lvl := ℕ) c (entry1 m c) : sProp 𝕄)
      = StableHlo.held (c : Thread nD τ) (Pipeline.ucRefs τ sig) (GenP.V4 m (outs m) c) := by
  rw [V4_eq]; exact Pipeline.unscopedBufs_held c (GenP.V4 m (outs0 m) c)
theorem bufs_exit1 (c : Dev nD) :
    (unscopedBufs (Ix := Unit) (Name := ℕ) (U := UR sig nD τ) (Lvl := ℕ) c (exit1 m c) : sProp 𝕄)
      = StableHlo.held (c : Thread nD τ) (Pipeline.ucRefs τ sig) (GenP.V5 m (outs m) c) :=
  Pipeline.unscopedBufs_held c (GenP.V5 m (outs m) c)

theorem hF0 (c : Dev nD) : ∀ w : Fin 2, (Region0.dat (entry0 m) c).arrAt w cfg0.N = exit0 m c (Pipeline.arrRef spec0 w)
  | ⟨0, _⟩ => ((Region0.dat (entry0 m) c).arrAt_in 0 rfl _).trans ((Region0.A_eq (entry0 m) c 0).trans
      (GenP.V1_of m (outs m) c main_arg0 (by decide)).symm)
  | ⟨1, _⟩ => ((outs_v0 m c).symm.trans (Function.update_self (β := fun b : DevRef τ sig => Buf (Elt F) ((c : Thread nD τ).1, b)) _ _ _).symm)

theorem hrest0 (c : Dev nD) : ∀ b, b ∉ Finset.univ.image (Pipeline.arrRef spec0) → exit0 m c b = entry0 m c b :=
  fun b hb => GenP.V1_of m (outs m) c b fun h =>
    hb (Finset.mem_image.mpr ⟨1, Finset.mem_univ _, (List.mem_singleton.mp h).symm⟩)

theorem dev_v13_0_ne_v13_1 : (Proc.devRef .tc main_v13_0 : DevRef τ sig) ≠ Proc.devRef .tc main_v13_1 :=
  StableHlo.devRef_ne_of_ne (by decide)

theorem exit1_of (c : Dev nD) (b : Ref sig .tc) (h : b ∉ ([main_v13_0, main_v13_1] : List (Ref sig .tc))) :
    exit1 m c b = entry1 m c b :=
  (GenP.V5_of m (outs m) c b h).trans (congrFun (V4_eq m c) (Proc.devRef .tc b))

theorem hF1 (c : Dev nD) : ∀ w : Fin 6, (Region1.dat (entry1 m) c).arrAt w cfg1.N = exit1 m c (Pipeline.arrRef spec1 w)
  | ⟨0, _⟩ => ((Region1.dat (entry1 m) c).arrAt_in 0 rfl _).trans ((Region1.A_eq (entry1 m) c 0).trans
      (exit1_of m c main_arg0 (by decide)).symm)
  | ⟨1, _⟩ => ((Region1.dat (entry1 m) c).arrAt_in 1 rfl _).trans ((Region1.A_eq (entry1 m) c 1).trans
      (exit1_of m c main_arg1 (by decide)).symm)
  | ⟨2, _⟩ => ((Region1.dat (entry1 m) c).arrAt_in 2 rfl _).trans ((Region1.A_eq (entry1 m) c 2).trans
      (exit1_of m c main_arg2 (by decide)).symm)
  | ⟨3, _⟩ => ((Region1.dat (entry1 m) c).arrAt_in 3 rfl _).trans ((Region1.A_eq (entry1 m) c 3).trans
      (exit1_of m c main_v12 (by decide)).symm)
  | ⟨4, _⟩ => (outs_v13_0 m c).symm.trans
      ((Function.update_self (β := fun b : DevRef τ sig => Buf (Elt F) ((c : Thread nD τ).1, b)) _ _ _).symm.trans
        (Function.update_of_ne (β := fun b : DevRef τ sig => Buf (Elt F) ((c : Thread nD τ).1, b)) dev_v13_0_ne_v13_1 _ _).symm)
  | ⟨5, _⟩ => (outs_v13_1 m c).symm.trans
      (Function.update_self (β := fun b : DevRef τ sig => Buf (Elt F) ((c : Thread nD τ).1, b)) _ _ _).symm

theorem hrest1 (c : Dev nD) : ∀ b, b ∉ Finset.univ.image (Pipeline.arrRef spec1) → exit1 m c b = entry1 m c b :=
  fun b hb => exit1_of m c b fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩)

set_option backward.isDefEq.respectTransparency.types false in
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (entry0 m) c).loose
  hwaits := Pipeline.hwaits_of_owed_zero _ _ _ _ L lv 0 fun _ _ => rfl
  pre c := iprop(StableHlo.held (c : Thread nD τ) (Pipeline.ucRefs τ sig) (GenP.V0 m c) ∗ E 0 c)
  post c := iprop(StableHlo.held (c : Thread nD τ) (Pipeline.ucRefs τ sig) (GenP.V1 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (entry0 m c) fun w => Region0.A_eq (entry0 m) c w
    rw [bufs_entry0] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (entry0 m) c)
    unfold Pipeline.ΦA
    iintro ⟨Hp, -, Hr⟩
    isplitl [Hr]; · iexact Hr
    iexact Hp
  hout c := by
    rw [Pipeline.ownSems0_none]
    refine BIBase.Entails.trans (Region0.hout (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [bufs_exit0] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (entry1 m) c).loose
  hwaits := Pipeline.hwaits_of_owed_zero _ _ _ _ L lv 1 fun _ _ => rfl
  pre c := iprop(StableHlo.held (c : Thread nD τ) (Pipeline.ucRefs τ sig) (GenP.V4 m (outs m) c) ∗ E 1 c)
  post c := iprop(StableHlo.held (c : Thread nD τ) (Pipeline.ucRefs τ sig) (GenP.V5 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (entry1 m c) fun w => Region1.A_eq (entry1 m) c w
    rw [bufs_entry1] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (entry1 m) c)
    unfold Pipeline.ΦA
    iintro ⟨Hp, -, Hr⟩
    isplitl [Hr]; · iexact Hr
    iexact Hp
  hout c := by
    rw [Pipeline.ownSems0_none]
    refine BIBase.Entails.trans (Region1.hout (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [bufs_exit1] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) :
    iprop(StableHlo.held (c : Thread nD τ) (Pipeline.ucRefs τ sig) (GenP.V0 m c) ∗ E 0 c) ⊢ (reg0 m).pre c := .rfl
theorem hpost0 (c : Dev nD) :
    (reg0 m).post c ⊢ iprop(StableHlo.held (c : Thread nD τ) (Pipeline.ucRefs τ sig) (GenP.V1 m (outs m) c) ∗ E 1 c) := .rfl
theorem hpre1 (c : Dev nD) :
    iprop(StableHlo.held (c : Thread nD τ) (Pipeline.ucRefs τ sig) (GenP.V4 m (outs m) c) ∗ E 1 c) ⊢ (reg1 m).pre c := .rfl
theorem hpost1 (c : Dev nD) :
    (reg1 m).post c ⊢ iprop(StableHlo.held (c : Thread nD τ) (Pipeline.ucRefs τ sig) (GenP.V5 m (outs m) c) ∗ E 2 c) := .rfl

set_option backward.isDefEq.respectTransparency.types false in
/-- The program's frame: the conditional frame of its host side at the two regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (hpre0 m) (hpost0 m) (reg1 m) (hpre1 m) (hpost1 m)

end Cert.Kernel.Run

end
-- ==== Proof.KernelIdealRegion0Runs.lean ====
import proofs.«421787_j43851616092489_3_alg».proof.Proof.Gen.KernelIdeal.Launch
import proofs.«421787_j43851616092489_3_alg».proof.Proof.Gen.KernelIdeal.Skeleton
import proofs.«421787_j43851616092489_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset (i : grid0.Coords) : Prop :=
  (Scalar.cmpi .ne (Scalar.extui (Scalar.cmpi .eq (BitVec.ofNat 32 (i 1).val) 0#32)) 0#32) = 1#1

theorem hcondReset : ∀ t : Fin cfg0.N, condReset (grid0.coords t) ↔ t.val % 16 = 0 :=
  (by decide +kernel : ∀ t : Fin grid0.N, condReset (grid0.coords t) ↔ t.val % 16 = 0)

abbrev condFlush (i : grid0.Coords) : Prop := k0_cond2 i = 1#1

theorem hcondFlush : ∀ t : Fin cfg0.N, condFlush (grid0.coords t) ↔ t.val % 16 = 15 :=
  (by decide +kernel : ∀ t : Fin grid0.N, condFlush (grid0.coords t) ↔ t.val % 16 = 15)

theorem liveIn : ∀ t : Fin cfg0.N, cfg0.idle 0 (grid0.coords t) = false := by decide +kernel

theorem idleOut : ∀ t : Fin cfg0.N, ¬condFlush (grid0.coords t) → cfg0.idle 1 (grid0.coords t) = true := by
  decide +kernel

theorem noFlushOut : ∀ t : Fin cfg0.N, ¬condFlush (grid0.coords t) → (cfg0.win 1).flush t = false := by
  decide +kernel

theorem liveOut : ∀ t : Fin cfg0.N, condFlush (grid0.coords t) → cfg0.idle 1 (grid0.coords t) = false := by
  decide +kernel

abbrev msIn (t : Fin cfg0.N) : Memref sig .tc .vmem S8192x512 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1x512 .f32 := win0_1.stage (cfg0.slots t 1)
abbrev hsOut (t : Fin cfg0.N) : (msOut t).IsWhole := hstage0_1 ((cfg0.slots t 1).cast nbuf0_1)

abbrev scM : Memref sig .tc .vmem S1x512 .f32 := Memref.whole cc0_scratch0

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA; rw [scopedRest_split]; simp only [scM, owns_whole]; try rfl

variable (c : Dev nD) (i : grid0.Coords) (arg2 : Memref sig .tc .vmem S8192x512 .f32) (harg2 : arg2.IsWhole) (arg3 : Memref sig .tc .vmem S1x1x512 .f32) (harg3 : arg3.IsWhole) (arg4 : Memref sig .tc .vmem S1x512 .f32) (harg4 : arg4.IsWhole)

set_option maxHeartbeats 1000000 in
noncomputable def runReset (hr : condReset i) (hf : ¬condFlush i) (x : Vec F S8192x512 .f32) :
    { LS : List (View.Piece (Elt F) S1x512 .f32) //
      ∀ (y : Vec F S1x1x512 .f32) (E : Set ℕ) (K : PUnit → sProp 𝕄),
        iprop(owns (c : Thread nD τ) arg2 fullShare x ∗ owns (c : Thread nD τ) arg3 fullShare y
            ∗ (∃ d, owns (c : Thread nD τ) arg4 fullShare d)
            ∗ (iprop(owns (c : Thread nD τ) arg2 fullShare x ∗ owns (c : Thread nD τ) arg3 fullShare y
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, fun y E K => ?run⟩
  case run =>
    simp only [cc0__sum_kernel_eq_skeleton]; unfold cc0__sum_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hr | exact hf)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
noncomputable def runMiddle (hr : ¬condReset i) (hf : ¬condFlush i) (x : Vec F S8192x512 .f32) (a : Vec F S1x512 .f32) :
    { LS : List (View.Piece (Elt F) S1x512 .f32) //
      ∀ (y : Vec F S1x1x512 .f32) (E : Set ℕ) (K : PUnit → sProp 𝕄),
        iprop(owns (c : Thread nD τ) arg2 fullShare x ∗ owns (c : Thread nD τ) arg3 fullShare y
            ∗ owns (c : Thread nD τ) arg4 fullShare a
            ∗ (iprop(owns (c : Thread nD τ) arg2 fullShare x ∗ owns (c : Thread nD τ) arg3 fullShare y
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, fun y E K => ?run⟩
  case run =>
    simp only [cc0__sum_kernel_eq_skeleton]; unfold cc0__sum_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hr | exact hf)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
noncomputable def runFlush (hr : ¬condReset i) (hf : condFlush i) (x : Vec F S8192x512 .f32) (a : Vec F S1x512 .f32) :
    Σ' (LO : List (View.Piece (Elt F) S1x1x512 .f32)), { LS : List (View.Piece (Elt F) S1x512 .f32) //
      ∀ (E : Set ℕ) (K : PUnit → sProp 𝕄),
        iprop(owns (c : Thread nD τ) arg2 fullShare x ∗ (∃ d, owns (c : Thread nD τ) arg3 fullShare d)
            ∗ owns (c : Thread nD τ) arg4 fullShare a
            ∗ (iprop(owns (c : Thread nD τ) arg2 fullShare x
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_kernel i arg2 harg2 arg3 harg3 arg4 harg4) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hr | exact hf)
    sl_step
    iapply Hk
    isplitl [H0]
    · iexists _; isplitr; · ipureintro; exact harg2.read_unread _
      iexact H0
    isplitl [H1]; · iexists _; iexact H1
    iexists _; iexact HS

end Cert.KernelIdeal.Region0

end
-- ==== Proof.KernelIdealRegion0.lean ====
import proofs.«421787_j43851616092489_3_alg».proof.Proof.KernelIdealRegion0Runs
import proofs.«421787_j43851616092489_3_alg».proof.Proof.OwnsWrites
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by funext a; fin_cases a <;> rfl
theorem zeros3 : (![0, 0, 0] : Fin 3 → ℕ) = fun _ => 0 := by funext a; fin_cases a <;> rfl

section
variable (c : Dev nD) (i : grid0.Coords) (arg2 : Memref sig .tc .vmem S8192x512 .f32) (harg2 : arg2.IsWhole) (arg3 : Memref sig .tc .vmem S1x1x512 .f32) (harg3 : arg3.IsWhole) (arg4 : Memref sig .tc .vmem S1x512 .f32) (harg4 : arg4.IsWhole) (x : Vec F S8192x512 .f32) (a : Vec F S1x512 .f32)

theorem acc_reset (hr : condReset i) (hf : ¬condFlush i) (f : arg4.view.ty.Contents (Elt F)) :
    arg4.view.read (Elt F) (arg4.view.writes (Elt F) f (runReset c i arg2 harg2 arg3 harg3 arg4 harg4 hr hf x).1) = k0_pay2 (k0_pay1 (F := F)) x := by
  rw [View.read_writes_eq_canon _ _ _ (View.cover_of_tiledL (runReset c i arg2 harg2 arg3 harg3 arg4 harg4 hr hf x).1 S1x512.size (by sl_kernel_rfl))]
  unfold runReset; dsimp only; sl_unfold_words
  rw [View.canon_cons_unit_zero (S := S1x512) zeros2, View.readCov_unit_zero (S := S1x512) _ zeros2]
  simp only [View.readAt_eq_ld, harg2.read_unread, View.ld_unit_zero (S := S8192x512) zeros2]

theorem acc_middle (hr : ¬condReset i) (hf : ¬condFlush i) (f : arg4.view.ty.Contents (Elt F)) :
    arg4.view.read (Elt F) (arg4.view.writes (Elt F) f (runMiddle c i arg2 harg2 arg3 harg3 arg4 harg4 hr hf x a).1) = k0_pay2 a x := by
  rw [View.read_writes_eq_canon _ _ _ (View.cover_of_tiledL (runMiddle c i arg2 harg2 arg3 harg3 arg4 harg4 hr hf x a).1 S1x512.size (by sl_kernel_rfl))]
  unfold runMiddle; dsimp only; sl_unfold_words
  rw [View.canon_unit_zero (S := S1x512) zeros2]
  simp only [View.readAt_eq_ld, harg4.read_unread, harg2.read_unread, View.ld_unit_zero (S := S1x512) zeros2,
    View.ld_unit_zero (S := S8192x512) zeros2]

theorem acc_flush (hr : ¬condReset i) (hf : condFlush i) (f : arg4.view.ty.Contents (Elt F)) :
    arg4.view.read (Elt F) (arg4.view.writes (Elt F) f (runFlush c i arg2 harg2 arg3 harg3 arg4 harg4 hr hf x a).2.1) = k0_pay2 a x := by
  rw [View.read_writes_eq_canon _ _ _ (View.cover_of_tiledL (runFlush c i arg2 harg2 arg3 harg3 arg4 harg4 hr hf x a).2.1 S1x512.size (by sl_kernel_rfl))]
  unfold runFlush; dsimp only; sl_unfold_words
  rw [View.canon_unit_zero (S := S1x512) zeros2]
  simp only [View.readAt_eq_ld, harg4.read_unread, harg2.read_unread, View.ld_unit_zero (S := S1x512) zeros2,
    View.ld_unit_zero (S := S8192x512) zeros2]

theorem out_flush (hr : ¬condReset i) (hf : condFlush i) (f : arg3.view.ty.Contents (Elt F)) :
    arg3.view.read (Elt F) (arg3.view.writes (Elt F) f (runFlush c i arg2 harg2 arg3 harg3 arg4 harg4 hr hf x a).1) = k0_pay3 (k0_pay2 a x) := by
  rw [View.read_writes_eq_canon _ _ _ (View.cover_of_tiledL (runFlush c i arg2 harg2 arg3 harg3 arg4 harg4 hr hf x a).1 S1x1x512.size (by sl_kernel_rfl))]
  unfold runFlush; dsimp only; sl_unfold_words
  rw [View.canon_unit_zero (S := S1x1x512) zeros3, View.readCov_unit_zero (S := S1x512) _ zeros2]
  simp only [View.readAt_eq_ld, harg4.read_unread, harg2.read_unread, View.ld_unit_zero (S := S1x512) zeros2,
    View.ld_unit_zero (S := S8192x512) zeros2]

end

abbrev Entry (F : FTy → Type) : Type := (c : Dev nD) → (b : Ref sig .tc) → Buf (Elt F) ((c : Thread nD τ).loc b)

def iblk (V : Entry F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem notFlush_of_reset (t : Fin cfg0.N) (h : t.val % 16 = 0) : ¬condFlush (grid0.coords t) := fun hc => by
  have := (hcondFlush t).mp hc; omega
theorem notReset_of (t : Fin cfg0.N) (h : ¬t.val % 16 = 0) : ¬condReset (grid0.coords t) := fun hc => h ((hcondReset t).mp hc)
theorem notFlush_of (t : Fin cfg0.N) (h : ¬t.val % 16 = 15) : ¬condFlush (grid0.coords t) := fun hc => h ((hcondFlush t).mp hc)

/-- The running column sums after point n: the block's sums added to zero where n mod 16 = 0, else to what point n - 1 left. -/
def accAt (V : Entry F) (c : Dev nD) : (n : ℕ) → n < cfg0.N → Vec F S1x512 .f32
  | 0, hn => k0_pay2 (k0_pay1 (F := F)) (iblk V c 0 ⟨0, hn⟩)
  | n + 1, hn =>
    if (n + 1) % 16 = 0 then k0_pay2 (k0_pay1 (F := F)) (iblk V c 0 ⟨n + 1, hn⟩)
    else k0_pay2 (accAt V c n (Nat.lt_of_succ_lt hn)) (iblk V c 0 ⟨n + 1, hn⟩)

def outAt (V : Entry F) (c : Dev nD) (n : ℕ) (hn : n < cfg0.N) : Vec F S1x1x512 .f32 := k0_pay3 (accAt V c n hn)

theorem accAt_reset (V : Entry F) (c : Dev nD) (t : Fin cfg0.N) (h : t.val % 16 = 0) :
    accAt V c t.val t.isLt = k0_pay2 (k0_pay1 (F := F)) (iblk V c 0 t) := by
  obtain ⟨n, hn⟩ := t
  cases n with
  | zero => rfl
  | succ n => exact (if_pos h).trans rfl

theorem accAt_step (V : Entry F) (c : Dev nD) (t : Fin cfg0.N) (h : ¬ t.val % 16 = 0) :
    accAt V c t.val t.isLt = k0_pay2 (accAt V c (t.val - 1) (Nat.lt_of_le_of_lt (Nat.sub_le _ _) t.isLt)) (iblk V c 0 t) := by
  obtain ⟨n, hn⟩ := t
  cases n with
  | zero => exact absurd (Nat.zero_mod _) h
  | succ n => exact (if_neg h).trans rfl

theorem outAt_last (V : Entry F) (c : Dev nD) (t : Fin cfg0.N) (h : t.val % 16 = 15) :
    outAt V c t.val t.isLt = k0_pay3 (accAt V c t.val t.isLt) := rfl

def PhiS (V : Entry F) (c : Dev nD) : (n : ℕ) → n ≤ cfg0.N → sProp 𝕄
  | 0, _ => Pipeline.ΦA spec0 c
  | n + 1, hn => iprop(iprop(owns (c : Thread nD τ) scM fullShare (accAt V c n hn) ∗ others (F := F) c) ∗ (∃ r, prngReg c r))

theorem PhiS_zero (V : Entry F) (c : Dev nD) (n : ℕ) (h : n ≤ cfg0.N) (hz : n = 0) : PhiS V c n h = Pipeline.ΦA spec0 c := by
  subst hz; rfl

theorem PhiS_succ (V : Entry F) (c : Dev nD) (n : ℕ) (hn : n < cfg0.N) :
    PhiS V c (n + 1) hn = iprop(iprop(owns (c : Thread nD τ) scM fullShare (accAt V c n hn) ∗ others (F := F) c) ∗ (∃ r, prngReg c r)) := rfl

theorem PhiS_pos (V : Entry F) (c : Dev nD) (n : ℕ) (h : n ≤ cfg0.N) (hz : n ≠ 0) :
    PhiS V c n h = iprop(iprop(owns (c : Thread nD τ) scM fullShare (accAt V c (n - 1) (by omega)) ∗ others (F := F) c) ∗ (∃ r, prngReg c r)) := by
  cases n with
  | zero => exact absurd rfl hz
  | succ n => rfl

theorem PhiS_forget (V : Entry F) (c : Dev nD) (n : ℕ) (h : n ≤ cfg0.N) :
    PhiS V c n h ⊢ iprop(iprop((∃ d, owns (c : Thread nD τ) scM fullShare d) ∗ others (F := F) c) ∗ (∃ r, prngReg c r)) := by
  cases n with
  | zero => rw [PhiS_zero V c 0 h rfl, PhiA_eq]
  | succ n =>
    rw [PhiS_succ]
    iintro ⟨⟨HS, Hr⟩, Hg⟩
    iframe Hr Hg
    iexists _; iexact HS

def dat (V : Entry F) (c : Dev nD) : Dat τ (Elt F) Unit ℕ (UR sig nD τ) ℕ cfg0 c where
  A w := V c (Pipeline.arrRef spec0 w)
  after w t := match w with
    | ⟨0, _⟩ => iblk V c 0 t
    | ⟨1, _⟩ => outAt V c t.val t.isLt
  Φ t := PhiS V c t.val (Nat.le_of_lt_succ t.isLt)
  q _ := fullShare
  owed _ := 0

theorem A_eq (V : Entry F) (c : Dev nD) (w : Fin cfg0.W) : (dat V c).A w = V c (Pipeline.arrRef spec0 w) := by dsimp only [dat]
theorem after_0 (V : Entry F) (c : Dev nD) (t : Fin cfg0.N) : (dat V c).after 0 t = iblk V c 0 t := by dsimp only [dat]
theorem after_1 (V : Entry F) (c : Dev nD) (t : Fin cfg0.N) : (dat V c).after 1 t = outAt V c t.val t.isLt := by dsimp only [dat]

theorem PhiS_castSucc (V : Entry F) (c : Dev nD) (t : Fin cfg0.N) :
    (dat V c).Φ t.castSucc = PhiS V c t.val (Nat.le_of_lt t.isLt) := by
  dsimp only [dat]; simp only [Fin.coe_castSucc]

theorem before_in (V : Entry F) (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem leaves_in (V : Entry F) (c : Dev nD) (t : Fin cfg0.N) :
    (dat V c).leavesExact 0 t = owns (c : Thread nD τ) (msIn t) fullShare (iblk V c 0 t) := by
  rw [show (dat V c).leavesExact 0 t = owns (c : Thread nD τ) (msIn t) fullShare ((dat V c).after 0 t) from by
    unfold Dat.leavesExact; rw [liveIn t], after_0]

theorem leaves_out (V : Entry F) (c : Dev nD) (t : Fin cfg0.N) (hf : condFlush (grid0.coords t)) :
    (dat V c).leavesExact 1 t = owns (c : Thread nD τ) (msOut t) fullShare (outAt V c t.val t.isLt) := by
  rw [show (dat V c).leavesExact 1 t = owns (c : Thread nD τ) (msOut t) fullShare ((dat V c).after 1 t) from by
    unfold Dat.leavesExact; rw [liveOut t hf], after_1]

def bodyPre (V : Entry F) (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

def bodyPost (V : Entry F) (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- Each case's run takes the running sums at what the point before left and leaves them at what this point adds. -/
theorem sound_body (V : Entry F) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ, PhiS_castSucc, leaves_in]
  by_cases h0 : t.val % 16 = 0
  · have hr : condReset (grid0.coords t) := (hcondReset t).mpr h0
    have hf : ¬condFlush (grid0.coords t) := notFlush_of_reset t h0
    rw [Dat.leavesExact_idle (dat V c) 1 t (idleOut t hf) (noFlushOut t hf)]
    refine (sep_mono_left (PhiS_forget V c _ _)).trans ?_
    iintro ⟨⟨⟨HS, Hr⟩, Hg⟩, Ho, ⟨%d0, H0⟩, ⟨%d1, H1⟩⟩
    iapply ((runReset c (grid0.coords t) (msIn t) (hsIn t) (msOut t) (hsOut t) scM (Memref.isWhole_whole _) hr hf (iblk V c 0 t)).2 _ Set.univ _)
    iframe H0 H1 HS
    iintro ⟨H0, H1, HS⟩
    ihave HS := (owns_writes c scM _ _ fun f => (acc_reset c (grid0.coords t) (msIn t) (hsIn t) (msOut t) (hsOut t) scM (Memref.isWhole_whole _) (iblk V c 0 t) hr hf f).trans (accAt_reset V c t h0).symm) $$ HS
    iframe HS Hr Hg Ho H0
    iexists _; iexact H1
  · have hr : ¬condReset (grid0.coords t) := notReset_of t h0
    rw [PhiS_pos V c _ _ (fun e => h0 (by rw [e]))]
    by_cases h1 : t.val % 16 = 15
    · have hf : condFlush (grid0.coords t) := (hcondFlush t).mpr h1
      rw [leaves_out V c t hf]
      unfold outAt
      iintro ⟨⟨⟨HS, Hr⟩, Hg⟩, Ho, ⟨%d0, H0⟩, ⟨%d1, H1⟩⟩
      iapply ((runFlush c (grid0.coords t) (msIn t) (hsIn t) (msOut t) (hsOut t) scM (Memref.isWhole_whole _) hr hf (iblk V c 0 t) (accAt V c (t.val - 1) (Nat.lt_of_le_of_lt (Nat.sub_le _ _) t.isLt))).2.2 Set.univ _)
      iframe H0 HS
      isplitl [H1]; · iexists _; iexact H1
      iintro ⟨H0, H1, HS⟩
      ihave HS := (owns_writes c scM _ _ fun f => (acc_flush c (grid0.coords t) (msIn t) (hsIn t) (msOut t) (hsOut t) scM (Memref.isWhole_whole _) (iblk V c 0 t) (accAt V c (t.val - 1) (Nat.lt_of_le_of_lt (Nat.sub_le _ _) t.isLt)) hr hf f).trans (accAt_step V c t h0).symm) $$ HS
      ihave H1 := (owns_writes c (msOut t) _ _ fun f => (out_flush c (grid0.coords t) (msIn t) (hsIn t) (msOut t) (hsOut t) scM (Memref.isWhole_whole _) (iblk V c 0 t) (accAt V c (t.val - 1) (Nat.lt_of_le_of_lt (Nat.sub_le _ _) t.isLt)) hr hf f).trans (congrArg k0_pay3 (accAt_step V c t h0).symm)) $$ H1
      iframe
    · have hf : ¬condFlush (grid0.coords t) := notFlush_of t h1
      rw [Dat.leavesExact_idle (dat V c) 1 t (idleOut t hf) (noFlushOut t hf)]
      iintro ⟨⟨⟨HS, Hr⟩, Hg⟩, Ho, ⟨%d0, H0⟩, ⟨%d1, H1⟩⟩
      iapply ((runMiddle c (grid0.coords t) (msIn t) (hsIn t) (msOut t) (hsOut t) scM (Memref.isWhole_whole _) hr hf (iblk V c 0 t) (accAt V c (t.val - 1) (Nat.lt_of_le_of_lt (Nat.sub_le _ _) t.isLt))).2 _ Set.univ _)
      iframe H0 H1 HS
      iintro ⟨H0, H1, HS⟩
      ihave HS := (owns_writes c scM _ _ fun f => (acc_middle c (grid0.coords t) (msIn t) (hsIn t) (msOut t) (hsOut t) scM (Memref.isWhole_whole _) (iblk V c 0 t) (accAt V c (t.val - 1) (Nat.lt_of_le_of_lt (Nat.sub_le _ _) t.isLt)) hr hf f).trans (accAt_step V c t h0).symm) $$ HS
      iframe HS Hr Hg Ho H0
      iexists _; iexact H1

theorem body_obligation (V : Entry F) (c : Dev nD) : BodyObligation (dat (F := F) V c) (defs₀ (F := F)) Variants.none () Set.univ := fun t => by
  rw [bigSep_W0, bigSep_W0]
  exact sound_body V c t

theorem hin (V : Entry F) (c : Dev nD) : Pipeline.ΦA spec0 c ⊢ (dat V c).Φ 0 := by
  rw [show (dat V c).Φ 0 = PhiS V c 0 (Nat.zero_le _) from rfl, PhiS_zero V c 0 _ rfl]

theorem hout (V : Entry F) (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA_eq]
  exact PhiS_forget V c _ _

end Cert.KernelIdeal.Region0

end
-- ==== Proof.KernelIdealRegion1Runs.lean ====
import proofs.«421787_j43851616092489_3_alg».proof.Proof.Gen.KernelIdeal.Launch
import proofs.«421787_j43851616092489_3_alg».proof.Proof.Gen.KernelIdeal.Skeleton
import proofs.«421787_j43851616092489_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 64 = 0 :=
  (by decide +kernel : ∀ t : Fin grid1.N, cond1_0 (grid1.coords t) ↔ t.val % 64 = 0)

abbrev cond1_1 (i : grid1.Coords) : Prop := k1_cond2 i = 1#1

theorem hcond1_1 : ∀ t : Fin cfg1.N, cond1_1 (grid1.coords t) ↔ t.val % 64 = 63 :=
  (by decide +kernel : ∀ t : Fin grid1.N, cond1_1 (grid1.coords t) ↔ t.val % 64 = 63)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel

theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x8 .f32 := win1_5.stage (cfg1.slots t 5)
abbrev hs1_5 (t : Fin cfg1.N) : (ms1_5 t).IsWhole := hstage1_5 ((cfg1.slots t 5).cast nbuf1_5)

abbrev scM1_0 : Memref sig .tc .vmem S1024x8 .f32 := Memref.whole cc1_scratch0
abbrev scM1_1 : Memref sig .tc .vmem S1024x8 .f32 := Memref.whole cc1_scratch1

/-- The invariant's shape: what the region holds beside its windows, its two tables as `P0` and `P1` say. -/
def Held (c : Dev nD) (P0 P1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ P0 ∗ P1) ∗ (∃ r, prngReg c r))

theorem PhiA1_eq (c : Dev nD) :
    (Pipeline.ΦA spec1 c : sProp 𝕄) = Held c iprop(∃ d, owns (c : Thread nD τ) scM1_0 fullShare d) iprop(∃ d, owns (c : Thread nD τ) scM1_1 fullShare d) := by
  unfold Pipeline.ΦA Held; rw [scopedRest1_eq]; simp only [scM1_0, scM1_1, owns_whole]; try rfl

variable (c : Dev nD) (i : grid1.Coords) (arg2 : Memref sig .tc .vmem S2048x512 .f32) (harg2 : arg2.IsWhole) (arg3 : Memref sig .tc .vmem S2048 .i32) (harg3 : arg3.IsWhole) (arg4 : Memref sig .tc .vmem S2048 .i32) (harg4 : arg4.IsWhole) (arg5 : Memref sig .tc .vmem S1x512 .f32) (harg5 : arg5.IsWhole) (arg6 : Memref sig .tc .vmem S1x1024x8 .f32) (harg6 : arg6.IsWhole) (arg7 : Memref sig .tc .vmem S1x1024x8 .f32) (harg7 : arg7.IsWhole) (arg8 : Memref sig .tc .vmem S1024x8 .f32) (harg8 : arg8.IsWhole) (arg9 : Memref sig .tc .vmem S1024x8 .f32) (harg9 : arg9.IsWhole)

set_option maxHeartbeats 1000000 in
noncomputable def kernelRun1_A (hc0 : cond1_0 i) (hc1 : ¬cond1_1 i)
    (x0 : Vec F S2048x512 .f32) (x1 : Vec F S2048 .i32) (x2 : Vec F S2048 .i32) (x3 : Vec F S1x512 .f32) :
    Σ' (LS0 : List (View.Piece (Elt F) S1024x8 .f32)), { LS1 : List (View.Piece (Elt F) S1024x8 .f32) //
      ∀ (xi4 xi5 : Vec F S1x1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, fun xi4 xi5 E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

set_option maxHeartbeats 1000000 in
noncomputable def kernelRun1_B (hc0 : ¬cond1_0 i) (hc1 : ¬cond1_1 i)
    (x0 : Vec F S2048x512 .f32) (x1 : Vec F S2048 .i32) (x2 : Vec F S2048 .i32) (x3 : Vec F S1x512 .f32) (xs0 xs1 : Vec F S1024x8 .f32) :
    Σ' (LS0 : List (View.Piece (Elt F) S1024x8 .f32)), { LS1 : List (View.Piece (Elt F) S1024x8 .f32) //
      ∀ (xi4 xi5 : Vec F S1x1024x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, fun xi4 xi5 E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

set_option maxHeartbeats 1000000 in
noncomputable def kernelRun1_C (hc0 : ¬cond1_0 i) (hc1 : cond1_1 i)
    (x0 : Vec F S2048x512 .f32) (x1 : Vec F S2048 .i32) (x2 : Vec F S2048 .i32) (x3 : Vec F S1x512 .f32) (xs0 xs1 : Vec F S1024x8 .f32) :
    Σ' (L4 : List (View.Piece (Elt F) S1x1024x8 .f32)) (L5 : List (View.Piece (Elt F) S1x1024x8 .f32)) (LS0 : List (View.Piece (Elt F) S1024x8 .f32)), { LS1 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__hist_kernel i arg2 harg2 arg3 harg3 arg4 harg4 arg5 harg5 arg6 harg6 arg7 harg7 arg8 harg8 arg9 harg9) K } := by
  refine ⟨?_, ?_, ?_, ?_, fun E K => ?run⟩
  case run =>
    simp only [cc1__hist_kernel_eq_skeleton]; unfold cc1__hist_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; iexact HS0
    iexists _; iexact HS1

end Cert.KernelIdeal.Region1

end
-- ==== Proof.KernelIdealRegion1.lean ====
import proofs.«421787_j43851616092489_3_alg».proof.Proof.KernelIdealRegion1Runs
import proofs.«421787_j43851616092489_3_alg».proof.Proof.OwnsWrites
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

section
variable (c : Dev nD) (i : grid1.Coords) (arg2 : Memref sig .tc .vmem S2048x512 .f32) (harg2 : arg2.IsWhole) (arg3 : Memref sig .tc .vmem S2048 .i32) (harg3 : arg3.IsWhole) (arg4 : Memref sig .tc .vmem S2048 .i32) (harg4 : arg4.IsWhole) (arg5 : Memref sig .tc .vmem S1x512 .f32) (harg5 : arg5.IsWhole) (arg6 : Memref sig .tc .vmem S1x1024x8 .f32) (harg6 : arg6.IsWhole) (arg7 : Memref sig .tc .vmem S1x1024x8 .f32) (harg7 : arg7.IsWhole) (arg8 : Memref sig .tc .vmem S1024x8 .f32) (harg8 : arg8.IsWhole) (arg9 : Memref sig .tc .vmem S1024x8 .f32) (harg9 : arg9.IsWhole)
  (x0 : Vec F S2048x512 .f32) (x1 x2 : Vec F S2048 .i32) (x3 : Vec F S1x512 .f32) (xs0 xs1 : Vec F S1024x8 .f32)

theorem cnt_A (hc0 : cond1_0 i) (hc1 : ¬cond1_1 i) (f : arg8.view.ty.Contents (Elt F)) :
    arg8.view.read (Elt F) (arg8.view.writes (Elt F) f (kernelRun1_A c i arg2 harg2 arg3 harg3 arg4 harg4 arg5 harg5 arg6 harg6 arg7 harg7 arg8 harg8 arg9 harg9 hc0 hc1 x0 x1 x2 x3).1) = k1_pay1 (k1_pay9 x3 x0 x2 x1 (k1_pay5 (F := F))) := by
  rw [View.read_writes_eq_canon _ _ _ (View.cover_of_tiledL (kernelRun1_A c i arg2 harg2 arg3 harg3 arg4 harg4 arg5 harg5 arg6 harg6 arg7 harg7 arg8 harg8 arg9 harg9 hc0 hc1 x0 x1 x2 x3).1 S1024x8.size (by sl_kernel_rfl))]
  unfold kernelRun1_A; dsimp only; sl_unfold_words
  rw [View.canon_cons_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_A (hc0 : cond1_0 i) (hc1 : ¬cond1_1 i) (f : arg9.view.ty.Contents (Elt F)) :
    arg9.view.read (Elt F) (arg9.view.writes (Elt F) f (kernelRun1_A c i arg2 harg2 arg3 harg3 arg4 harg4 arg5 harg5 arg6 harg6 arg7 harg7 arg8 harg8 arg9 harg9 hc0 hc1 x0 x1 x2 x3).2.1) = k1_pay2 (k1_pay8 x3 x0 x2 x1) (k1_pay6 (F := F)) := by
  rw [View.read_writes_eq_canon _ _ _ (View.cover_of_tiledL (kernelRun1_A c i arg2 harg2 arg3 harg3 arg4 harg4 arg5 harg5 arg6 harg6 arg7 harg7 arg8 harg8 arg9 harg9 hc0 hc1 x0 x1 x2 x3).2.1 S1024x8.size (by sl_kernel_rfl))]
  unfold kernelRun1_A; dsimp only; sl_unfold_words
  rw [View.canon_cons_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem cnt_B (hc0 : ¬cond1_0 i) (hc1 : ¬cond1_1 i) (f : arg8.view.ty.Contents (Elt F)) :
    arg8.view.read (Elt F) (arg8.view.writes (Elt F) f (kernelRun1_B c i arg2 harg2 arg3 harg3 arg4 harg4 arg5 harg5 arg6 harg6 arg7 harg7 arg8 harg8 arg9 harg9 hc0 hc1 x0 x1 x2 x3 xs0 xs1).1) = k1_pay1 (k1_pay9 x3 x0 x2 x1 xs0) := by
  rw [View.read_writes_eq_canon _ _ _ (View.cover_of_tiledL (kernelRun1_B c i arg2 harg2 arg3 harg3 arg4 harg4 arg5 harg5 arg6 harg6 arg7 harg7 arg8 harg8 arg9 harg9 hc0 hc1 x0 x1 x2 x3 xs0 xs1).1 S1024x8.size (by sl_kernel_rfl))]
  unfold kernelRun1_B; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_B (hc0 : ¬cond1_0 i) (hc1 : ¬cond1_1 i) (f : arg9.view.ty.Contents (Elt F)) :
    arg9.view.read (Elt F) (arg9.view.writes (Elt F) f (kernelRun1_B c i arg2 harg2 arg3 harg3 arg4 harg4 arg5 harg5 arg6 harg6 arg7 harg7 arg8 harg8 arg9 harg9 hc0 hc1 x0 x1 x2 x3 xs0 xs1).2.1) = k1_pay2 (k1_pay8 x3 x0 x2 x1) xs1 := by
  rw [View.read_writes_eq_canon _ _ _ (View.cover_of_tiledL (kernelRun1_B c i arg2 harg2 arg3 harg3 arg4 harg4 arg5 harg5 arg6 harg6 arg7 harg7 arg8 harg8 arg9 harg9 hc0 hc1 x0 x1 x2 x3 xs0 xs1).2.1 S1024x8.size (by sl_kernel_rfl))]
  unfold kernelRun1_B; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem cnt_C (hc0 : ¬cond1_0 i) (hc1 : cond1_1 i) (f : arg8.view.ty.Contents (Elt F)) :
    arg8.view.read (Elt F) (arg8.view.writes (Elt F) f (kernelRun1_C c i arg2 harg2 arg3 harg3 arg4 harg4 arg5 harg5 arg6 harg6 arg7 harg7 arg8 harg8 arg9 harg9 hc0 hc1 x0 x1 x2 x3 xs0 xs1).2.2.1) = k1_pay1 (k1_pay9 x3 x0 x2 x1 xs0) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.2.1 S1024x8.size (by sl_kernel_rfl))]
  unfold kernelRun1_C; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem tot_C (hc0 : ¬cond1_0 i) (hc1 : cond1_1 i) (f : arg9.view.ty.Contents (Elt F)) :
    arg9.view.read (Elt F) (arg9.view.writes (Elt F) f (kernelRun1_C c i arg2 harg2 arg3 harg3 arg4 harg4 arg5 harg5 arg6 harg6 arg7 harg7 arg8 harg8 arg9 harg9 hc0 hc1 x0 x1 x2 x3 xs0 xs1).2.2.2.1) = k1_pay2 (k1_pay8 x3 x0 x2 x1) xs1 := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.2.2.1 S1024x8.size (by sl_kernel_rfl))]
  unfold kernelRun1_C; dsimp only; sl_unfold_words
  rw [View.canon_unit_zero (S := S1024x8) hz2]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem out4_C (hc0 : ¬cond1_0 i) (hc1 : cond1_1 i) (f : arg6.view.ty.Contents (Elt F)) :
    arg6.view.read (Elt F) (arg6.view.writes (Elt F) f (kernelRun1_C c i arg2 harg2 arg3 harg3 arg4 harg4 arg5 harg5 arg6 harg6 arg7 harg7 arg8 harg8 arg9 harg9 hc0 hc1 x0 x1 x2 x3 xs0 xs1).1) = k1_pay3 (k1_pay1 (k1_pay9 x3 x0 x2 x1 xs0)) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).1 S1x1024x8.size (by sl_kernel_rfl))]
  unfold kernelRun1_C; dsimp only; sl_unfold_words
  rw [View.canon_unit_zero (S := S1x1024x8) hz3]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

theorem out5_C (hc0 : ¬cond1_0 i) (hc1 : cond1_1 i) (f : arg7.view.ty.Contents (Elt F)) :
    arg7.view.read (Elt F) (arg7.view.writes (Elt F) f (kernelRun1_C c i arg2 harg2 arg3 harg3 arg4 harg4 arg5 harg5 arg6 harg6 arg7 harg7 arg8 harg8 arg9 harg9 hc0 hc1 x0 x1 x2 x3 xs0 xs1).2.1) = k1_pay4 (k1_pay2 (k1_pay8 x3 x0 x2 x1) xs1) := by
  rw [View.read_writes_eq_canon _ _ _ (View.cover_of_tiledL (kernelRun1_C c i arg2 harg2 arg3 harg3 arg4 harg4 arg5 harg5 arg6 harg6 arg7 harg7 arg8 harg8 arg9 harg9 hc0 hc1 x0 x1 x2 x3 xs0 xs1).2.1 S1x1024x8.size (by sl_kernel_rfl))]
  unfold kernelRun1_C; dsimp only; sl_unfold_words
  rw [View.canon_unit_zero (S := S1x1024x8) hz3]
  simp only [View.readAt_eq_ld, Memref.IsWhole.read_unread, View.ld_unit_zero (S := S1x512) hz2, View.ld_unit_zero (S := S2048x512) hz2, View.ld_unit_zero (S := S2048) hz1, View.ld_unit_zero (S := S1024x8) hz2, View.readCov_unit_zero (S := S1024x8) _ hz2]

end

abbrev Entry (F : FTy → Type) : Type := (c : Dev nD) → (b : Ref sig .tc) → Buf (Elt F) ((c : Thread nD τ).loc b)

def iblk (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev embBlk (V : Entry F) (c : Dev nD) (t : Fin cfg1.N) : Vec F S2048x512 .f32 := iblk V c 0 t
abbrev compBlk (V : Entry F) (c : Dev nD) (t : Fin cfg1.N) : Vec F S2048 .i32 := iblk V c 1 t
abbrev doseBlk (V : Entry F) (c : Dev nD) (t : Fin cfg1.N) : Vec F S2048 .i32 := iblk V c 2 t
abbrev dirBlk (V : Entry F) (c : Dev nD) (t : Fin cfg1.N) : Vec F S1x512 .f32 := iblk V c 3 t

def cntAt (V : Entry F) (c : Dev nD) : (n : ℕ) → n < cfg1.N → Vec F S1024x8 .f32
  | 0, hn => k1_pay1 (k1_pay9 (dirBlk V c ⟨0, hn⟩) (embBlk V c ⟨0, hn⟩) (doseBlk V c ⟨0, hn⟩) (compBlk V c ⟨0, hn⟩) (k1_pay5 (F := F)))
  | n + 1, hn =>
    if (n + 1) % 64 = 0 then k1_pay1 (k1_pay9 (dirBlk V c ⟨n + 1, hn⟩) (embBlk V c ⟨n + 1, hn⟩) (doseBlk V c ⟨n + 1, hn⟩) (compBlk V c ⟨n + 1, hn⟩) (k1_pay5 (F := F)))
    else k1_pay1 (k1_pay9 (dirBlk V c ⟨n + 1, hn⟩) (embBlk V c ⟨n + 1, hn⟩) (doseBlk V c ⟨n + 1, hn⟩) (compBlk V c ⟨n + 1, hn⟩) (cntAt V c n (Nat.lt_of_succ_lt hn)))

def totAt (V : Entry F) (c : Dev nD) : (n : ℕ) → n < cfg1.N → Vec F S1024x8 .f32
  | 0, hn => k1_pay2 (k1_pay8 (dirBlk V c ⟨0, hn⟩) (embBlk V c ⟨0, hn⟩) (doseBlk V c ⟨0, hn⟩) (compBlk V c ⟨0, hn⟩)) (k1_pay6 (F := F))
  | n + 1, hn =>
    if (n + 1) % 64 = 0 then k1_pay2 (k1_pay8 (dirBlk V c ⟨n + 1, hn⟩) (embBlk V c ⟨n + 1, hn⟩) (doseBlk V c ⟨n + 1, hn⟩) (compBlk V c ⟨n + 1, hn⟩)) (k1_pay6 (F := F))
    else k1_pay2 (k1_pay8 (dirBlk V c ⟨n + 1, hn⟩) (embBlk V c ⟨n + 1, hn⟩) (doseBlk V c ⟨n + 1, hn⟩) (compBlk V c ⟨n + 1, hn⟩)) (totAt V c n (Nat.lt_of_succ_lt hn))

def out4At (V : Entry F) (c : Dev nD) : (n : ℕ) → n < cfg1.N → Vec F S1x1024x8 .f32 :=
  fun n hn => k1_pay3 (cntAt V c n hn)

def out5At (V : Entry F) (c : Dev nD) : (n : ℕ) → n < cfg1.N → Vec F S1x1024x8 .f32 :=
  fun n hn => k1_pay4 (totAt V c n hn)

theorem cntAt_reset (V : Entry F) (c : Dev nD) (t : Fin cfg1.N) (h : t.val % 64 = 0) :
    cntAt V c t.val t.isLt = k1_pay1 (k1_pay9 (dirBlk V c t) (embBlk V c t) (doseBlk V c t) (compBlk V c t) (k1_pay5 (F := F))) := by
  obtain ⟨n, hn⟩ := t
  cases n with
  | zero => rfl
  | succ n => exact (if_pos h).trans rfl
theorem cntAt_step (V : Entry F) (c : Dev nD) (t : Fin cfg1.N) (h : ¬ t.val % 64 = 0) :
    cntAt V c t.val t.isLt = k1_pay1 (k1_pay9 (dirBlk V c t) (embBlk V c t) (doseBlk V c t) (compBlk V c t)
      (cntAt V c (t.val - 1) (Nat.lt_of_le_of_lt (Nat.sub_le _ _) t.isLt))) := by
  obtain ⟨n, hn⟩ := t
  cases n with
  | zero => exact absurd (Nat.zero_mod _) h
  | succ n => exact (if_neg h).trans rfl
theorem totAt_reset (V : Entry F) (c : Dev nD) (t : Fin cfg1.N) (h : t.val % 64 = 0) :
    totAt V c t.val t.isLt = k1_pay2 (k1_pay8 (dirBlk V c t) (embBlk V c t) (doseBlk V c t) (compBlk V c t)) (k1_pay6 (F := F)) := by
  obtain ⟨n, hn⟩ := t
  cases n with
  | zero => rfl
  | succ n => exact (if_pos h).trans rfl
theorem totAt_step (V : Entry F) (c : Dev nD) (t : Fin cfg1.N) (h : ¬ t.val % 64 = 0) :
    totAt V c t.val t.isLt = k1_pay2 (k1_pay8 (dirBlk V c t) (embBlk V c t) (doseBlk V c t) (compBlk V c t))
      (totAt V c (t.val - 1) (Nat.lt_of_le_of_lt (Nat.sub_le _ _) t.isLt)) := by
  obtain ⟨n, hn⟩ := t
  cases n with
  | zero => exact absurd (Nat.zero_mod _) h
  | succ n => exact (if_neg h).trans rfl
/-- Before point 0 what the region is entered with; before point n + 1 the same with the tables at what point n left. -/
def PhiS (V : Entry F) (c : Dev nD) : (n : ℕ) → n ≤ cfg1.N → sProp 𝕄
  | 0, _ => Pipeline.ΦA spec1 c
  | n + 1, hn => Held c (owns (c : Thread nD τ) scM1_0 fullShare (cntAt V c n hn)) (owns (c : Thread nD τ) scM1_1 fullShare (totAt V c n hn))

theorem PhiS_zero (V : Entry F) (c : Dev nD) (n : ℕ) (h : n ≤ cfg1.N) (hz : n = 0) : PhiS V c n h = Pipeline.ΦA spec1 c := by
  subst hz; rfl

theorem PhiS_succ (V : Entry F) (c : Dev nD) (n : ℕ) (hn : n < cfg1.N) :
    PhiS V c (n + 1) hn = Held c (owns (c : Thread nD τ) scM1_0 fullShare (cntAt V c n hn)) (owns (c : Thread nD τ) scM1_1 fullShare (totAt V c n hn)) := rfl

theorem PhiS_pos (V : Entry F) (c : Dev nD) (n : ℕ) (h : n ≤ cfg1.N) (hz : n ≠ 0) :
    PhiS V c n h = Held c (owns (c : Thread nD τ) scM1_0 fullShare (cntAt V c (n - 1) (by omega))) (owns (c : Thread nD τ) scM1_1 fullShare (totAt V c (n - 1) (by omega))) := by
  cases n with
  | zero => exact absurd rfl hz
  | succ n => rfl

/-- At any point the invariant gives back what the region was entered with: what the tables hold is forgotten. -/
theorem PhiS_forget (V : Entry F) (c : Dev nD) (n : ℕ) (h : n ≤ cfg1.N) :
    PhiS V c n h ⊢ Held c iprop(∃ d, owns (c : Thread nD τ) scM1_0 fullShare d) iprop(∃ d, owns (c : Thread nD τ) scM1_1 fullShare d) := by
  cases n with
  | zero => rw [PhiS_zero V c 0 h rfl, PhiA1_eq]
  | succ n =>
    rw [PhiS_succ]; unfold Held
    iintro ⟨⟨HR0, HR1, HR2, HR3, HR4, HS0, HS1⟩, Hg⟩
    iframe HR0 HR1 HR2 HR3 HR4 Hg
    isplitl [HS0]; · iexists _; iexact HS0
    iexists _; iexact HS1

def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4At V c t.val t.isLt
    | ⟨5, _⟩ => out5At V c t.val t.isLt
  Φ t := PhiS V c t.val (Nat.le_of_lt_succ t.isLt)
  q _ := fullShare
  owed _ := 0

theorem A_eq (V : Entry F) (c : Dev nD) (w : Fin cfg1.W) : (dat V c).A w = V c (Pipeline.arrRef spec1 w) := by
  dsimp only [dat]

theorem PhiS_castSucc (V : Entry F) (c : Dev nD) (t : Fin cfg1.N) :
    (dat V c).Φ t.castSucc = PhiS V c t.val (Nat.le_of_lt t.isLt) := by
  dsimp only [dat]; simp only [Fin.coe_castSucc]

theorem after_0 (V : Entry F) (c : Dev nD) (t : Fin cfg1.N) : (dat V c).after 0 t = iblk V c 0 t := by dsimp only [dat]
theorem after_1 (V : Entry F) (c : Dev nD) (t : Fin cfg1.N) : (dat V c).after 1 t = iblk V c 1 t := by dsimp only [dat]
theorem after_2 (V : Entry F) (c : Dev nD) (t : Fin cfg1.N) : (dat V c).after 2 t = iblk V c 2 t := by dsimp only [dat]
theorem after_3 (V : Entry F) (c : Dev nD) (t : Fin cfg1.N) : (dat V c).after 3 t = iblk V c 3 t := by dsimp only [dat]
theorem after_4 (V : Entry F) (c : Dev nD) (t : Fin cfg1.N) : (dat V c).after 4 t = out4At V c t.val t.isLt := by dsimp only [dat]
theorem after_5 (V : Entry F) (c : Dev nD) (t : Fin cfg1.N) : (dat V c).after 5 t = out5At V c t.val t.isLt := by dsimp only [dat]

theorem before_0 (V : Entry F) (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (V : Entry F) (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (V : Entry F) (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (V : Entry F) (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

def bodyPre (V : Entry F) (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

def bodyPost (V : Entry F) (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- Each case's run takes the tables at what the point before left and leaves them at what this point adds. -/
theorem sound_body (V : Entry F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ, PhiS_castSucc V c t]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  by_cases h0 : t.val % 64 = 0
  · have hc0 : cond1_0 (grid1.coords t) := (hcond1_0 t).mpr h0
    have hc1 : ¬cond1_1 (grid1.coords t) := fun h => absurd ((hcond1_1 t).mp h) (by omega)
    rw [Dat.leavesExact_idle (dat V c) 4 t (idleAt1_4 t hc1) (noFlush1_4 t hc1), Dat.leavesExact_idle (dat V c) 5 t (idleAt1_5 t hc1) (noFlush1_5 t hc1)]
    refine (sep_mono_left (PhiS_forget V c _ _)).trans ?_
    unfold Held
    iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t)).2.2 _ _ Set.univ _)
    iframe H0 H1 H2 H3 H4 H5 HS0 HS1
    iintro ⟨H0, H1, H2, H3, H4, H5, HS0, HS1⟩
    ihave HS0 := (owns_writes c scM1_0 _ _ fun f => (cnt_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) hc0 hc1 f).trans (cntAt_reset V c t h0).symm) $$ HS0
    ihave HS1 := (owns_writes c scM1_1 _ _ fun f => (tot_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) hc0 hc1 f).trans (totAt_reset V c t h0).symm) $$ HS1
    iframe HR0 HR1 HR2 HR3 HR4 HS0 HS1 Hg Ho H0 H1 H2 H3
    isplitl [H4]; · iexists _; iexact H4
    iexists _; iexact H5
  · have hc0 : ¬cond1_0 (grid1.coords t) := fun h => h0 ((hcond1_0 t).mp h)
    rw [PhiS_pos V c _ _ (fun e => h0 (by rw [e]))]
    unfold Held
    by_cases h1 : t.val % 64 = 63
    · have hc1 : cond1_1 (grid1.coords t) := (hcond1_1 t).mpr h1
      rw [show (dat V c).leavesExact 4 t = owns (c : Thread nD τ) (ms1_4 t) fullShare ((dat V c).after 4 t) from by
        unfold Dat.leavesExact; rw [liveAt1_4 t hc1], after_4]
      rw [show (dat V c).leavesExact 5 t = owns (c : Thread nD τ) (ms1_5 t) fullShare ((dat V c).after 5 t) from by
        unfold Dat.leavesExact; rw [liveAt1_5 t hc1], after_5]
      unfold out4At out5At
      iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt))).2.2.2.2 Set.univ _)
      iframe H0 H1 H2 H3 HS0 HS1
      isplitl [H4]; · iexists _; iexact H4
      isplitl [H5]; · iexists _; iexact H5
      iintro ⟨H0, H1, H2, H3, H4, H5, HS0, HS1⟩
      ihave HS0 := (owns_writes c scM1_0 _ _ fun f => (cnt_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (cntAt_step V c t h0).symm) $$ HS0
      ihave HS1 := (owns_writes c scM1_1 _ _ fun f => (tot_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (totAt_step V c t h0).symm) $$ HS1
      ihave H4 := (owns_writes c (ms1_4 t) _ _ fun f => (out4_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (congrArg k1_pay3 (cntAt_step V c t h0).symm)) $$ H4
      ihave H5 := (owns_writes c (ms1_5 t) _ _ fun f => (out5_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (congrArg k1_pay4 (totAt_step V c t h0).symm)) $$ H5
      iframe
    · have hc1 : ¬cond1_1 (grid1.coords t) := fun h => h1 ((hcond1_1 t).mp h)
      rw [Dat.leavesExact_idle (dat V c) 4 t (idleAt1_4 t hc1) (noFlush1_4 t hc1), Dat.leavesExact_idle (dat V c) 5 t (idleAt1_5 t hc1) (noFlush1_5 t hc1)]
      iintro ⟨⟨⟨HR0, HR1, HR2, HR3, HR4, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt))).2.2 _ _ Set.univ _)
      iframe H0 H1 H2 H3 H4 H5 HS0 HS1
      iintro ⟨H0, H1, H2, H3, H4, H5, HS0, HS1⟩
      ihave HS0 := (owns_writes c scM1_0 _ _ fun f => (cnt_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (cntAt_step V c t h0).symm) $$ HS0
      ihave HS1 := (owns_writes c scM1_1 _ _ fun f => (tot_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (embBlk V c t) (compBlk V c t) (doseBlk V c t) (dirBlk V c t) (cntAt V c (t.val - 1) (Nat.lt_of_le_of_lt (Nat.sub_le _ _) t.isLt)) (totAt V c (t.val - 1) (Nat.lt_of_le_of_lt (Nat.sub_le _ _) t.isLt)) hc0 hc1 f).trans (totAt_step V c t h0).symm) $$ HS1
      iframe HR0 HR1 HR2 HR3 HR4 HS0 HS1 Hg Ho H0 H1 H2 H3
      isplitl [H4]; · iexists _; iexact H4
      iexists _; iexact H5

theorem body_obligation (V : Entry F) (c : Dev nD) : BodyObligation (dat (F := F) V c) (defs₀ (F := F)) Variants.none () Set.univ := fun t => by
  rw [bigSep_W1, bigSep_W1]
  exact sound_body V c t

theorem hin (V : Entry F) (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (V : Entry F) (c : Dev nD) : (dat V c).Φ (Fin.last cfg1.N) ⊢ Pipeline.ΦA spec1 c := by
  rw [PhiA1_eq, show (dat V c).Φ (Fin.last cfg1.N) = PhiS V c (Fin.last cfg1.N).val (Nat.le_of_lt_succ (Fin.last cfg1.N).isLt) from rfl]
  exact PhiS_forget V c _ _

end Cert.KernelIdeal.Region1

end
-- ==== Proof.KernelIdealSegs.lean ====
import proofs.«421787_j43851616092489_3_alg».proof.Proof.KernelIdealRegionsP
import proofs.«421787_j43851616092489_3_alg».proof.Proof.KernelIdealRegion0
import proofs.«421787_j43851616092489_3_alg».proof.Proof.KernelIdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev OutsAt (F : FTy → Type) : Type := (r : Ref sig .tc) → (c : Dev nD) → Buf (Elt F) ((c : Thread nD τ).loc r)

def base : OutsAt F := fun r c => m ((c : Thread nD τ).loc r)

def entry0 : Region0.Entry F := fun c b => GenP.V0 m c (Proc.devRef .tc b)

def res0 (c : Dev nD) : Buf (Elt F) ((c : Thread nD τ).loc main_v0) := (Region0.dat (entry0 m) c).arrAt 1 cfg0.N

def outs0 : GenP.Outs (F := F) := fun _ => Function.update (base m) main_v0 (res0 m)

def entry1 : Region1.Entry F := fun c b => GenP.V4 m (outs0 m) c (Proc.devRef .tc b)

def res1_0 (c : Dev nD) : Buf (Elt F) ((c : Thread nD τ).loc main_v13_0) := (Region1.dat (entry1 m) c).arrAt 4 cfg1.N
def res1_1 (c : Dev nD) : Buf (Elt F) ((c : Thread nD τ).loc main_v13_1) := (Region1.dat (entry1 m) c).arrAt 5 cfg1.N

def outs : GenP.Outs (F := F) := fun J =>
  Function.update (Function.update (outs0 m J) main_v13_0 (res1_0 m)) main_v13_1 (res1_1 m)

theorem v0_ne_v13_0 : (main_v0 : Ref sig .tc) ≠ main_v13_0 := by decide
theorem v0_ne_v13_1 : (main_v0 : Ref sig .tc) ≠ main_v13_1 := by decide
theorem v13_0_ne_v13_1 : (main_v13_0 : Ref sig .tc) ≠ main_v13_1 := by decide

theorem outs_v0 (c : Dev nD) : outs m 1 main_v0 c = (Region0.dat (entry0 m) c).arrAt 1 cfg0.N := by
  unfold outs outs0
  rw [Function.update_of_ne v0_ne_v13_1, Function.update_of_ne v0_ne_v13_0, Function.update_self]
  rfl

theorem outs_v0_eq (J : ℕ) : outs m J main_v0 = outs0 m J main_v0 := by
  unfold outs
  rw [Function.update_of_ne v0_ne_v13_1, Function.update_of_ne v0_ne_v13_0]

theorem outs_v13_0 (c : Dev nD) : outs m 5 main_v13_0 c = (Region1.dat (entry1 m) c).arrAt 4 cfg1.N := by
  unfold outs
  rw [Function.update_of_ne v13_0_ne_v13_1, Function.update_self]
  rfl

theorem outs_v13_1 (c : Dev nD) : outs m 5 main_v13_1 c = (Region1.dat (entry1 m) c).arrAt 5 cfg1.N := by
  unfold outs
  rw [Function.update_self]
  rfl

theorem V1_eq (c : Dev nD) : GenP.V1 m (outs m) c = GenP.V1 m (outs0 m) c := by
  show Function.update (GenP.V0 m c) main_v0 (outs m 1 main_v0 c) = Function.update (GenP.V0 m c) main_v0 (outs0 m 1 main_v0 c)
  rw [outs_v0_eq]
theorem V4_eq (c : Dev nD) : GenP.V4 m (outs m) c = GenP.V4 m (outs0 m) c := by
  show StableHlo.after hostOps1_2 (StableHlo.after hostOps1_1 (StableHlo.after hostOps1 (GenP.V1 m (outs m) c)))
    = StableHlo.after hostOps1_2 (StableHlo.after hostOps1_1 (StableHlo.after hostOps1 (GenP.V1 m (outs0 m) c)))
  rw [V1_eq]

theorem entry1_eq : entry1 m = fun c b => GenP.V4 m (outs m) c (Proc.devRef .tc b) := by
  funext c b
  unfold entry1
  rw [V4_eq]

def pdats : (p : Fin 2) → (c : Dev nD) → Dat τ (Elt F) Unit ℕ (UR sig nD τ) ℕ (cfgs p) c
  | ⟨0, _⟩ => fun c => Region0.dat (entry0 m) c
  | ⟨1, _⟩ => fun c => Region1.dat (entry1 m) c

abbrev 𝒱₀ : Variants := Variants.none

abbrev L : GSem nD τ sig → Finset Unit := fun _ => ∅
abbrev lv : GSem nD τ sig → Unit → ℕ := fun _ _ => 0

abbrev E (_ : Fin 3) (c : Dev nD) : sProp 𝕄 :=
  iprop((∃ r, prngReg c r) ∗ ∃ W, owes (c : Thread nD τ) (0 : CellTallies nD τ sig Unit) W)

def exit0 : Region0.Entry F := fun c b => GenP.V1 m (outs m) c (Proc.devRef .tc b)
def exit1 : Region1.Entry F := fun c b => GenP.V5 m (outs m) c (Proc.devRef .tc b)

theorem bufs_entry0 (c : Dev nD) :
    (unscopedBufs (Ix := Unit) (Name := ℕ) (U := UR sig nD τ) (Lvl := ℕ) c (entry0 m c) : sProp 𝕄)
      = StableHlo.held (c : Thread nD τ) (Pipeline.ucRefs τ sig) (GenP.V0 m c) :=
  Pipeline.unscopedBufs_held c (GenP.V0 m c)
theorem bufs_exit0 (c : Dev nD) :
    (unscopedBufs (Ix := Unit) (Name := ℕ) (U := UR sig nD τ) (Lvl := ℕ) c (exit0 m c) : sProp 𝕄)
      = StableHlo.held (c : Thread nD τ) (Pipeline.ucRefs τ sig) (GenP.V1 m (outs m) c) :=
  Pipeline.unscopedBufs_held c (GenP.V1 m (outs m) c)
theorem bufs_entry1 (c : Dev nD) :
    (unscopedBufs (Ix := Unit) (Name := ℕ) (U := UR sig nD τ) (Lvl := ℕ) c (entry1 m c) : sProp 𝕄)
      = StableHlo.held (c : Thread nD τ) (Pipeline.ucRefs τ sig) (GenP.V4 m (outs m) c) := by
  rw [V4_eq]; exact Pipeline.unscopedBufs_held c (GenP.V4 m (outs0 m) c)
theorem bufs_exit1 (c : Dev nD) :
    (unscopedBufs (Ix := Unit) (Name := ℕ) (U := UR sig nD τ) (Lvl := ℕ) c (exit1 m c) : sProp 𝕄)
      = StableHlo.held (c : Thread nD τ) (Pipeline.ucRefs τ sig) (GenP.V5 m (outs m) c) :=
  Pipeline.unscopedBufs_held c (GenP.V5 m (outs m) c)

theorem hF0 (c : Dev nD) : ∀ w : Fin 2, (Region0.dat (entry0 m) c).arrAt w cfg0.N = exit0 m c (Pipeline.arrRef spec0 w)
  | ⟨0, _⟩ => ((Region0.dat (entry0 m) c).arrAt_in 0 rfl _).trans ((Region0.A_eq (entry0 m) c 0).trans
      (GenP.V1_of m (outs m) c main_arg0 (by decide)).symm)
  | ⟨1, _⟩ => ((outs_v0 m c).symm.trans (Function.update_self (β := fun b : DevRef τ sig => Buf (Elt F) ((c : Thread nD τ).1, b)) _ _ _).symm)

theorem hrest0 (c : Dev nD) : ∀ b, b ∉ Finset.univ.image (Pipeline.arrRef spec0) → exit0 m c b = entry0 m c b :=
  fun b hb => GenP.V1_of m (outs m) c b fun h =>
    hb (Finset.mem_image.mpr ⟨1, Finset.mem_univ _, (List.mem_singleton.mp h).symm⟩)

theorem dev_v13_0_ne_v13_1 : (Proc.devRef .tc main_v13_0 : DevRef τ sig) ≠ Proc.devRef .tc main_v13_1 :=
  StableHlo.devRef_ne_of_ne (by decide)

theorem exit1_of (c : Dev nD) (b : Ref sig .tc) (h : b ∉ ([main_v13_0, main_v13_1] : List (Ref sig .tc))) :
    exit1 m c b = entry1 m c b :=
  (GenP.V5_of m (outs m) c b h).trans (congrFun (V4_eq m c) (Proc.devRef .tc b))

theorem hF1 (c : Dev nD) : ∀ w : Fin 6, (Region1.dat (entry1 m) c).arrAt w cfg1.N = exit1 m c (Pipeline.arrRef spec1 w)
  | ⟨0, _⟩ => ((Region1.dat (entry1 m) c).arrAt_in 0 rfl _).trans ((Region1.A_eq (entry1 m) c 0).trans
      (exit1_of m c main_arg0 (by decide)).symm)
  | ⟨1, _⟩ => ((Region1.dat (entry1 m) c).arrAt_in 1 rfl _).trans ((Region1.A_eq (entry1 m) c 1).trans
      (exit1_of m c main_arg1 (by decide)).symm)
  | ⟨2, _⟩ => ((Region1.dat (entry1 m) c).arrAt_in 2 rfl _).trans ((Region1.A_eq (entry1 m) c 2).trans
      (exit1_of m c main_arg2 (by decide)).symm)
  | ⟨3, _⟩ => ((Region1.dat (entry1 m) c).arrAt_in 3 rfl _).trans ((Region1.A_eq (entry1 m) c 3).trans
      (exit1_of m c main_v12 (by decide)).symm)
  | ⟨4, _⟩ => (outs_v13_0 m c).symm.trans
      ((Function.update_self (β := fun b : DevRef τ sig => Buf (Elt F) ((c : Thread nD τ).1, b)) _ _ _).symm.trans
        (Function.update_of_ne (β := fun b : DevRef τ sig => Buf (Elt F) ((c : Thread nD τ).1, b)) dev_v13_0_ne_v13_1 _ _).symm)
  | ⟨5, _⟩ => (outs_v13_1 m c).symm.trans
      (Function.update_self (β := fun b : DevRef τ sig => Buf (Elt F) ((c : Thread nD τ).1, b)) _ _ _).symm

theorem hrest1 (c : Dev nD) : ∀ b, b ∉ Finset.univ.image (Pipeline.arrRef spec1) → exit1 m c b = entry1 m c b :=
  fun b hb => exit1_of m c b fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩)

set_option backward.isDefEq.respectTransparency.types false in
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (entry0 m) c).loose
  hwaits := Pipeline.hwaits_of_owed_zero _ _ _ _ L lv 0 fun _ _ => rfl
  pre c := iprop(StableHlo.held (c : Thread nD τ) (Pipeline.ucRefs τ sig) (GenP.V0 m c) ∗ E 0 c)
  post c := iprop(StableHlo.held (c : Thread nD τ) (Pipeline.ucRefs τ sig) (GenP.V1 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (entry0 m c) fun w => Region0.A_eq (entry0 m) c w
    rw [bufs_entry0] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (entry0 m) c)
    unfold Pipeline.ΦA
    iintro ⟨Hp, -, Hr⟩
    isplitl [Hr]; · iexact Hr
    iexact Hp
  hout c := by
    rw [Pipeline.ownSems0_none]
    refine BIBase.Entails.trans (Region0.hout (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [bufs_exit0] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (entry1 m) c).loose
  hwaits := Pipeline.hwaits_of_owed_zero _ _ _ _ L lv 1 fun _ _ => rfl
  pre c := iprop(StableHlo.held (c : Thread nD τ) (Pipeline.ucRefs τ sig) (GenP.V4 m (outs m) c) ∗ E 1 c)
  post c := iprop(StableHlo.held (c : Thread nD τ) (Pipeline.ucRefs τ sig) (GenP.V5 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (entry1 m c) fun w => Region1.A_eq (entry1 m) c w
    rw [bufs_entry1] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (entry1 m) c)
    unfold Pipeline.ΦA
    iintro ⟨Hp, -, Hr⟩
    isplitl [Hr]; · iexact Hr
    iexact Hp
  hout c := by
    rw [Pipeline.ownSems0_none]
    refine BIBase.Entails.trans (Region1.hout (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [bufs_exit1] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hpre0 (c : Dev nD) :
    iprop(StableHlo.held (c : Thread nD τ) (Pipeline.ucRefs τ sig) (GenP.V0 m c) ∗ E 0 c) ⊢ (reg0 m).pre c := .rfl
theorem hpost0 (c : Dev nD) :
    (reg0 m).post c ⊢ iprop(StableHlo.held (c : Thread nD τ) (Pipeline.ucRefs τ sig) (GenP.V1 m (outs m) c) ∗ E 1 c) := .rfl
theorem hpre1 (c : Dev nD) :
    iprop(StableHlo.held (c : Thread nD τ) (Pipeline.ucRefs τ sig) (GenP.V4 m (outs m) c) ∗ E 1 c) ⊢ (reg1 m).pre c := .rfl
theorem hpost1 (c : Dev nD) :
    (reg1 m).post c ⊢ iprop(StableHlo.held (c : Thread nD τ) (Pipeline.ucRefs τ sig) (GenP.V5 m (outs m) c) ∗ E 2 c) := .rfl

set_option backward.isDefEq.respectTransparency.types false in
/-- The program's frame: the conditional frame of its host side at the two regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  GenP.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (hpre0 m) (hpost0 m) (reg1 m) (hpre1 m) (hpost1 m)

end Cert.KernelIdeal.Run

end
-- ==== Proof.KernelIdealRun.lean ====
import proofs.«421787_j43851616092489_3_alg».proof.Proof.KernelIdealSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame_res {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱 : Variants) (Lg : GSem nD τ sig → Finset Ix) (lvg : GSem nD τ sig → Ix → Lvl) (hL : ∀ g : GSem nD τ sig, g.1.2 ≠ .tc → Lg g = ∅)
    (ρ : Dev nD → PrngReg) (o : GenP.Outs (F := F))
    (pd : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (Ej : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts Lg lvg)
      ⊢ (|={Set.univ}=> bigSep Finset.univ (Ej 0) : sProp (MT nD τ sig Ix (Elt F) ℕ U Lvl)))
    (hE2 : ∀ c : Dev nD, Ej 2 c ⊢ (iprop(∃ W, owes (c : Thread nD τ) (0 : CellTallies nD τ sig Ix) W) : sProp (MT nD τ sig Ix (Elt F) ℕ U Lvl)))
    (R0 : Pipeline.RegionSeg (pcfgs (F := F)) GenP.adm pd ι defs₀ 𝒱 Lg lvg 0)
    (hp0 : ∀ c : Dev nD, iprop(StableHlo.held (c : Thread nD τ) (Pipeline.ucRefs τ sig) (GenP.V0 m c) ∗ Ej 0 c) ⊢ R0.pre c)
    (hq0 : ∀ c : Dev nD, R0.post c ⊢ iprop(StableHlo.held (c : Thread nD τ) (Pipeline.ucRefs τ sig) (GenP.V1 m o c) ∗ Ej 1 c))
    (R1 : Pipeline.RegionSeg (pcfgs (F := F)) GenP.adm pd ι defs₀ 𝒱 Lg lvg 1)
    (hp1 : ∀ c : Dev nD, iprop(StableHlo.held (c : Thread nD τ) (Pipeline.ucRefs τ sig) (GenP.V4 m o c) ∗ Ej 1 c) ⊢ R1.pre c)
    (hq1 : ∀ c : Dev nD, R1.post c ⊢ iprop(StableHlo.held (c : Thread nD τ) (Pipeline.ucRefs τ sig) (GenP.V5 m o c) ∗ Ej 2 c)) :
    θ_run defs (onTc (τ := τ) (main (F := F))) ⟨m, fun _ => 0, ρ⟩ (fun r => ∀ c : Dev nD,
      r.2.mem ((c.tc : Thread nD τ).loc main_v178) = GenP.V39 m o c main_v178
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) GenP.adm pd ι cellOf_inj EP defs₀ 𝒱 Lg lvg m ρ main
    (GenP.segs m o 𝒱 Lg lvg Ej ι pd R0 R1)
    (fun c Q => by
      rewrite [main_chain c, Pipeline.Seg.run_eq_chain,
        show (GenP.segs m o 𝒱 Lg lvg Ej ι pd R0 R1 c).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          StableHlo.seq hostOps2_13,
          StableHlo.seq hostOps2_14,
          StableHlo.seq hostOps2_15,
          StableHlo.seq hostOps2_16,
          StableHlo.seq hostOps2_17,
          StableHlo.seq hostOps2_18,
          StableHlo.seq hostOps2_19,
          StableHlo.seq hostOps2_20,
          StableHlo.seq hostOps2_21,
          StableHlo.seq hostOps2_22,
          StableHlo.seq hostOps2_23,
          StableHlo.seq hostOps2_24,
          StableHlo.seq hostOps2_25,
          StableHlo.seq hostOps2_26,
          StableHlo.seq hostOps2_27,
          StableHlo.seq hostOps2_28,
          StableHlo.seq hostOps2_29,
          StableHlo.seq hostOps2_30,
          StableHlo.seq hostOps2_31,
          StableHlo.seq hostOps2_32,
          StableHlo.seq hostOps2_33 ] from rfl]
      with_reducible exact .rfl)
    (fun c => by simp only [GenP.segs, Pipeline.Seg.pipes_host, Pipeline.Seg.pipes_region, Pipeline.Seg.pipes_nil]; decide) O₀ hL G u₀ hu₀
    (T₀ := fun c => iprop(StableHlo.held (c : Thread nD τ) (Pipeline.ucRefs τ sig) (GenP.V0 m c) ∗ Ej 0 c))
    (Tₙ := fun c => StableHlo.held (c : Thread nD τ) (Pipeline.ucRefs τ sig) (GenP.V39 m o c))
    (hch := fun c => ⟨hp0 c, hq0 c, .rfl, .rfl, hp1 c, hq1 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => s.mem ((c.tc : Thread nD τ).loc main_v178) = GenP.V39 m o c main_v178
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (GenP.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (GenP.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (GenP.V39 m o c) s') $$ [Hh HSI]
    · isplitl [Hh] <;> iassumption
    icases Hr with ⟨%h, HSI⟩
    imodintro
    isplitr
    · ipureintro
      exact ⟨h (Proc.devRef .tc main_v178) (Finset.mem_filter.mpr ⟨StableHlo.devRef_mem_tcRefs main_v178, by decide⟩),
        (h (Proc.devRef .tc main_arg0) (Finset.mem_filter.mpr ⟨StableHlo.devRef_mem_tcRefs main_arg0, by decide⟩)).trans (GenP.V39_main_arg0 m o c),
        (h (Proc.devRef .tc main_arg1) (Finset.mem_filter.mpr ⟨StableHlo.devRef_mem_tcRefs main_arg1, by decide⟩)).trans (GenP.V39_main_arg1 m o c),
        (h (Proc.devRef .tc main_arg2) (Finset.mem_filter.mpr ⟨StableHlo.devRef_mem_tcRefs main_arg2, by decide⟩)).trans (GenP.V39_main_arg2 m o c)⟩
    · iexact HSI

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v178) = GenP.V39 m (outs m) c main_v178
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_res m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (hpre0 m) (hpost0 m) (reg1 m) (hpre1 m) (hpost1 m)

end Cert.KernelIdeal.Run

end
-- ==== Proof.RefRun.lean ====
import proofs.«421787_j43851616092489_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S262144x512, .f32⟩ : BufTy).Contents (Elt F)) (x1 x2 : (⟨S262144, .i32⟩ : BufTy).Contents (Elt F))

def val_main_cst : (⟨S_, .f32⟩ : BufTy).Contents (Elt F) :=
  constant S_ .f32 0x00000000#32
theorem val_main_cst_apply (i : S_.Idx) :
    val_main_cst (F := F) i = FloatOps.ofBits .f32 0x00000000#32 := rfl
def val_main_v0 : (⟨S512, .f32⟩ : BufTy).Contents (Elt F) :=
  Host.reduceAdd (x0) (val_main_cst (F := F)) reducesTo_S262144x512_S512_d0 h_S_
abbrev idx_main_v0 (i : S512.Idx) (k : Fin 262144) : S262144x512.Idx := fun a => match a with
  | ⟨0, _⟩ => ⟨k.val, k.isLt⟩
  | ⟨1, _⟩ => ⟨(i 0).val, (i 0).isLt⟩
theorem val_main_v0_apply (x0 : (⟨S262144x512, .f32⟩ : BufTy).Contents (Elt Ideal)) (i : S512.Idx) :
    val_main_v0 (F := Ideal) x0 i = (val_main_cst (F := Ideal)) (Shape.Idx.first h_S_) + ∑ k : Fin 262144, x0 (idx_main_v0 i k) := by
  unfold val_main_v0
  simp only [Host.reduceAdd, Ideal.hostReduceAdd_def]
  rw [Ideal.hostReduceAdd_single reducesTo_S262144x512_S512_d0 (by decide)]
  refine congrArg (_ + ·) (Finset.sum_congr rfl fun k _ => ?_)
  exact congrArg x0 (funext fun a => Fin.ext (by match a with | ⟨0, _⟩ => rfl | ⟨1, _⟩ => rfl))
def val_main_v1 : (⟨S1x512, .f32⟩ : BufTy).Contents (Elt F) :=
  broadcastInDim S1x512 ![1] bcast_S512_S1x512_1 (val_main_v0 (F := F) x0)
abbrev idx_main_v1 (i : S1x512.Idx) : S512.Idx := fun a => match a with
  | ⟨0, _⟩ => ⟨(i 1).val, (i 1).isLt⟩
theorem val_main_v1_apply (x0 : (⟨S262144x512, .f32⟩ : BufTy).Contents (Elt F)) (i : S1x512.Idx) :
    val_main_v1 (F := F) x0 i = val_main_v0 (F := F) x0 (idx_main_v1 i) := by
  unfold val_main_v1
  generalize val_main_v0 (F := F) x0 = y
  exact broadcastInDim_apply _ bcast_S512_S1x512_1 y i (idx_main_v1 i) (fun a => match a with
    | ⟨0, _⟩ => by show (i 1).val = if (512 : Nat) = 1 then 0 else (i 1).val; rw [if_neg (by decide)])
def val_main_cst_0 : (⟨S_, .f32⟩ : BufTy).Contents (Elt F) :=
  constant S_ .f32 0x48800000#32
def val_main_v2 : (⟨S1x512, .f32⟩ : BufTy).Contents (Elt F) :=
  broadcastInDim S1x512 ![] bcast_S_S1x512 (val_main_cst_0 (F := F))
def val_main_v3 : (⟨S1x512, .f32⟩ : BufTy).Contents (Elt F) :=
  Host.divf (val_main_v1 (F := F) x0) (val_main_v2 (F := F))
def val_main_call0_v0 : (⟨S1x512, .f32⟩ : BufTy).Contents (Elt F) :=
  mulf (val_main_v3 (F := F) x0) (val_main_v3 (F := F) x0)
def val_main_call0_cst : (⟨S_, .f32⟩ : BufTy).Contents (Elt F) :=
  constant S_ .f32 0x00000000#32
def val_main_call0_v1 : (⟨S1, .f32⟩ : BufTy).Contents (Elt F) :=
  Host.reduceAdd (val_main_call0_v0 (F := F) x0) (val_main_call0_cst (F := F)) reducesTo_S1x512_S1_d1 h_S_
def val_main_call0_v2 : (⟨S1x1, .f32⟩ : BufTy).Contents (Elt F) :=
  broadcastInDim S1x1 ![0] bcast_S1_S1x1_0 (val_main_call0_v1 (F := F) x0)
def val_main_v4 : (⟨S1x1, .f32⟩ : BufTy).Contents (Elt F) :=
  Host.sqrt (val_main_call0_v2 (F := F) x0)
def val_main_cst_1 : (⟨S_, .f32⟩ : BufTy).Contents (Elt F) :=
  constant S_ .f32 0x2B8CBCCC#32
def val_main_v5 : (⟨S1x1, .f32⟩ : BufTy).Contents (Elt F) :=
  broadcastInDim S1x1 ![] bcast_S_S1x1 (val_main_cst_1 (F := F))
def val_main_v6 : (⟨S1x1, .f32⟩ : BufTy).Contents (Elt F) :=
  maximumf (val_main_v4 (F := F) x0) (val_main_v5 (F := F))
def val_main_v7 : (⟨S1x512, .f32⟩ : BufTy).Contents (Elt F) :=
  broadcastInDim S1x512 ![0, 1] bcast_S1x1_S1x512_0_1 (val_main_v6 (F := F) x0)
def val_main_v8 : (⟨S1x512, .f32⟩ : BufTy).Contents (Elt F) :=
  Host.divf (val_main_v3 (F := F) x0) (val_main_v7 (F := F) x0)
def val_main_v9 : (⟨S262144x512, .f32⟩ : BufTy).Contents (Elt F) :=
  broadcastInDim S262144x512 ![0, 1] bcast_S1x512_S262144x512_0_1 (val_main_v8 (F := F) x0)
abbrev idx_main_v9 (i : S262144x512.Idx) : S1x512.Idx := fun a => match a with
  | ⟨0, _⟩ => ⟨0, Nat.one_pos⟩
  | ⟨1, _⟩ => ⟨(i 1).val, (i 1).isLt⟩
theorem val_main_v9_apply (x0 : (⟨S262144x512, .f32⟩ : BufTy).Contents (Elt F)) (i : S262144x512.Idx) :
    val_main_v9 (F := F) x0 i = val_main_v8 (F := F) x0 (idx_main_v9 i) := by
  unfold val_main_v9
  generalize val_main_v8 (F := F) x0 = y
  exact broadcastInDim_apply _ bcast_S1x512_S262144x512_0_1 y i (idx_main_v9 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])
def val_main_v10 : (⟨S262144x512, .f32⟩ : BufTy).Contents (Elt F) :=
  mulf (x0) (val_main_v9 (F := F) x0)
theorem val_main_v10_apply (x0 : (⟨S262144x512, .f32⟩ : BufTy).Contents (Elt F)) (i : S262144x512.Idx) :
    val_main_v10 (F := F) x0 i = FloatOps.mulf (x0 i) (val_main_v9 (F := F) x0 i) := rfl
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl
def val_main_v11 : (⟨S262144, .f32⟩ : BufTy).Contents (Elt F) :=
  Host.reduceAdd (val_main_v10 (F := F) x0) (val_main_cst_2 (F := F)) reducesTo_S262144x512_S262144_d1 h_S_
abbrev idx_main_v11 (i : S262144.Idx) (k : Fin 512) : S262144x512.Idx := fun a => match a with
  | ⟨0, _⟩ => ⟨(i 0).val, (i 0).isLt⟩
  | ⟨1, _⟩ => ⟨k.val, k.isLt⟩
theorem val_main_v11_apply (x0 : (⟨S262144x512, .f32⟩ : BufTy).Contents (Elt Ideal)) (i : S262144.Idx) :
    val_main_v11 (F := Ideal) x0 i = (val_main_cst_2 (F := Ideal)) (Shape.Idx.first h_S_) + ∑ k : Fin 512, (val_main_v10 (F := Ideal) x0) (idx_main_v11 i k) := by
  unfold val_main_v11
  generalize val_main_v10 (F := Ideal) x0 = y0
  simp only [Host.reduceAdd, Ideal.hostReduceAdd_def]
  rw [Ideal.hostReduceAdd_single reducesTo_S262144x512_S262144_d1 (by decide)]
  refine congrArg (_ + ·) (Finset.sum_congr rfl fun k _ => ?_)
  exact congrArg y0 (funext fun a => Fin.ext (by match a with | ⟨0, _⟩ => rfl | ⟨1, _⟩ => rfl))
def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl
def val_main_v12 : (⟨S262144, .f32⟩ : BufTy).Contents (Elt F) :=
  broadcastInDim S262144 ![] bcast_S_S262144 (val_main_cst_3 (F := F))
abbrev idx_main_v12 (i : S262144.Idx) : S_.Idx := fun a => a.elim0
theorem val_main_v12_apply (i : S262144.Idx) :
    val_main_v12 (F := F) i = val_main_cst_3 (F := F) (idx_main_v12 i) := by
  unfold val_main_v12
  generalize val_main_cst_3 (F := F) = y
  exact broadcastInDim_apply _ bcast_S_S262144 y i (idx_main_v12 i) (fun a => a.elim0)
def val_main_v13 : (⟨S262144, .f32⟩ : BufTy).Contents (Elt F) :=
  subf (val_main_v12 (F := F)) (val_main_v11 (F := F) x0)
theorem val_main_v13_apply (x0 : (⟨S262144x512, .f32⟩ : BufTy).Contents (Elt F)) (i : S262144.Idx) :
    val_main_v13 (F := F) x0 i = FloatOps.subf (val_main_v12 (F := F) i) (val_main_v11 (F := F) x0 i) := rfl
def val_main_c : (⟨S_, .i32⟩ : BufTy).Contents (Elt F) :=
  constantI S_ 32 8#32
theorem val_main_c_apply (i : S_.Idx) :
    val_main_c (F := F) i = 8#32 := rfl
def val_main_v14 : (⟨S262144, .i32⟩ : BufTy).Contents (Elt F) :=
  broadcastInDim S262144 ![] bcast_S_S262144 (val_main_c (F := F))
abbrev idx_main_v14 (i : S262144.Idx) : S_.Idx := fun a => a.elim0
theorem val_main_v14_apply (i : S262144.Idx) :
    val_main_v14 (F := F) i = val_main_c (F := F) (idx_main_v14 i) := by
  unfold val_main_v14
  generalize val_main_c (F := F) = y
  exact broadcastInDim_apply _ bcast_S_S262144 y i (idx_main_v14 i) (fun a => a.elim0)
def val_main_v15 (x1 : (⟨S262144, .i32⟩ : BufTy).Contents (Elt F)) : (⟨S262144, .i32⟩ : BufTy).Contents (Elt F) :=
  muli (x1) (val_main_v14 (F := F))
theorem val_main_v15_apply (x1 : (⟨S262144, .i32⟩ : BufTy).Contents (Elt F)) (i : S262144.Idx) :
    val_main_v15 (F := F) x1 i = IntOp.muli (x1 i) (val_main_v14 (F := F) i) := rfl
def val_main_v16 : (⟨S262144, .i32⟩ : BufTy).Contents (Elt F) :=
  addi (val_main_v15 (F := F) x1) (x2)
theorem val_main_v16_apply (x1 x2 : (⟨S262144, .i32⟩ : BufTy).Contents (Elt F)) (i : S262144.Idx) :
    val_main_v16 (F := F) x1 x2 i = IntOp.addi (val_main_v15 (F := F) x1 i) (x2 i) := rfl
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl
def val_main_v17 : (⟨S8192, .f32⟩ : BufTy).Contents (Elt F) :=
  broadcastInDim S8192 ![] bcast_S_S8192 (val_main_cst_4 (F := F))
abbrev idx_main_v17 (i : S8192.Idx) : S_.Idx := fun a => a.elim0
theorem val_main_v17_apply (i : S8192.Idx) :
    val_main_v17 (F := F) i = val_main_cst_4 (F := F) (idx_main_v17 i) := by
  unfold val_main_v17
  generalize val_main_cst_4 (F := F) = y
  exact broadcastInDim_apply _ bcast_S_S8192 y i (idx_main_v17 i) (fun a => a.elim0)
def val_main_v18 : (⟨S262144x1, .i32⟩ : BufTy).Contents (Elt F) :=
  broadcastInDim S262144x1 ![0] bcast_S262144_S262144x1_0 (val_main_v16 (F := F) x1 x2)
abbrev idx_main_v18 (i : S262144x1.Idx) : S262144.Idx := fun a => match a with
  | ⟨0, _⟩ => ⟨(i 0).val, (i 0).isLt⟩
theorem val_main_v18_apply (x1 x2 : (⟨S262144, .i32⟩ : BufTy).Contents (Elt F)) (i : S262144x1.Idx) :
    val_main_v18 (F := F) x1 x2 i = val_main_v16 (F := F) x1 x2 (idx_main_v18 i) := by
  unfold val_main_v18
  generalize val_main_v16 (F := F) x1 x2 = y
  exact broadcastInDim_apply _ bcast_S262144_S262144x1_0 y i (idx_main_v18 i) (fun a => match a with
    | ⟨0, _⟩ => by show (i 0).val = if (262144 : Nat) = 1 then 0 else (i 0).val; rw [if_neg (by decide)])
def val_main_v19 : (⟨S8192, .f32⟩ : BufTy).Contents (Elt F) :=
  Host.scatterAdd scatter_S8192_S262144x1_S262144_n_0_0_1 (val_main_v17 (F := F)) (val_main_v18 (F := F) x1 x2) (val_main_v13 (F := F) x0)
def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl
def val_main_v20 : (⟨S262144, .f32⟩ : BufTy).Contents (Elt F) :=
  broadcastInDim S262144 ![] bcast_S_S262144 (val_main_cst_5 (F := F))
abbrev idx_main_v20 (i : S262144.Idx) : S_.Idx := fun a => a.elim0
theorem val_main_v20_apply (i : S262144.Idx) :
    val_main_v20 (F := F) i = val_main_cst_5 (F := F) (idx_main_v20 i) := by
  unfold val_main_v20
  generalize val_main_cst_5 (F := F) = y
  exact broadcastInDim_apply _ bcast_S_S262144 y i (idx_main_v20 i) (fun a => a.elim0)
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl
def val_main_v21 : (⟨S8192, .f32⟩ : BufTy).Contents (Elt F) :=
  broadcastInDim S8192 ![] bcast_S_S8192 (val_main_cst_6 (F := F))
abbrev idx_main_v21 (i : S8192.Idx) : S_.Idx := fun a => a.elim0
theorem val_main_v21_apply (i : S8192.Idx) :
    val_main_v21 (F := F) i = val_main_cst_6 (F := F) (idx_main_v21 i) := by
  unfold val_main_v21
  generalize val_main_cst_6 (F := F) = y
  exact broadcastInDim_apply _ bcast_S_S8192 y i (idx_main_v21 i) (fun a => a.elim0)
def val_main_v22 : (⟨S262144x1, .i32⟩ : BufTy).Contents (Elt F) :=
  broadcastInDim S262144x1 ![0] bcast_S262144_S262144x1_0 (val_main_v16 (F := F) x1 x2)
abbrev idx_main_v22 (i : S262144x1.Idx) : S262144.Idx := fun a => match a with
  | ⟨0, _⟩ => ⟨(i 0).val, (i 0).isLt⟩
theorem val_main_v22_apply (x1 x2 : (⟨S262144, .i32⟩ : BufTy).Contents (Elt F)) (i : S262144x1.Idx) :
    val_main_v22 (F := F) x1 x2 i = val_main_v16 (F := F) x1 x2 (idx_main_v22 i) := by
  unfold val_main_v22
  generalize val_main_v16 (F := F) x1 x2 = y
  exact broadcastInDim_apply _ bcast_S262144_S262144x1_0 y i (idx_main_v22 i) (fun a => match a with
    | ⟨0, _⟩ => by show (i 0).val = if (262144 : Nat) = 1 then 0 else (i 0).val; rw [if_neg (by decide)])
def val_main_v23 : (⟨S8192, .f32⟩ : BufTy).Contents (Elt F) :=
  Host.scatterAdd scatter_S8192_S262144x1_S262144_n_0_0_1 (val_main_v21 (F := F)) (val_main_v22 (F := F) x1 x2) (val_main_v20 (F := F))
def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl
def val_main_v24 : (⟨S8192, .f32⟩ : BufTy).Contents (Elt F) :=
  broadcastInDim S8192 ![] bcast_S_S8192 (val_main_cst_7 (F := F))
abbrev idx_main_v24 (i : S8192.Idx) : S_.Idx := fun a => a.elim0
theorem val_main_v24_apply (i : S8192.Idx) :
    val_main_v24 (F := F) i = val_main_cst_7 (F := F) (idx_main_v24 i) := by
  unfold val_main_v24
  generalize val_main_cst_7 (F := F) = y
  exact broadcastInDim_apply _ bcast_S_S8192 y i (idx_main_v24 i) (fun a => a.elim0)
def val_main_v25 : (⟨S8192, .f32⟩ : BufTy).Contents (Elt F) :=
  maximumf (val_main_v23 (F := F) x1 x2) (val_main_v24 (F := F))
theorem val_main_v25_apply (x1 x2 : (⟨S262144, .i32⟩ : BufTy).Contents (Elt F)) (i : S8192.Idx) :
    val_main_v25 (F := F) x1 x2 i = FloatOps.maximumf (val_main_v23 (F := F) x1 x2 i) (val_main_v24 (F := F) i) := rfl
def val_main_v26 : (⟨S8192, .f32⟩ : BufTy).Contents (Elt F) :=
  Host.divf (val_main_v19 (F := F) x0 x1 x2) (val_main_v25 (F := F) x1 x2)
theorem val_main_v26_apply (x0 : (⟨S262144x512, .f32⟩ : BufTy).Contents (Elt F)) (x1 x2 : (⟨S262144, .i32⟩ : BufTy).Contents (Elt F)) (i : S8192.Idx) :
    val_main_v26 (F := F) x0 x1 x2 i = FloatOps.hostDivf (val_main_v19 (F := F) x0 x1 x2 i) (val_main_v25 (F := F) x1 x2 i) := rfl
def val_main_v27 : (⟨S1024x8, .f32⟩ : BufTy).Contents (Elt F) :=
  shapeCast _ (val_main_v26 (F := F) x0 x1 x2) shapeCasts_S8192_S1024x8
abbrev idx_main_v27 (i : S1024x8.Idx) : S8192.Idx := fun a => match a with
  | ⟨0, _⟩ => ⟨(i 0).val * 8 + (i 1).val, by have h0 : (i 0).val < 1024 := (i 0).isLt; have h1 : (i 1).val < 8 := (i 1).isLt; show (i 0).val * 8 + (i 1).val < 8192; omega⟩
theorem val_main_v27_apply (x0 : (⟨S262144x512, .f32⟩ : BufTy).Contents (Elt F)) (x1 x2 : (⟨S262144, .i32⟩ : BufTy).Contents (Elt F)) (i : S1024x8.Idx) :
    val_main_v27 (F := F) x0 x1 x2 i = val_main_v26 (F := F) x0 x1 x2 (idx_main_v27 i) := by
  unfold val_main_v27
  generalize val_main_v26 (F := F) x0 x1 x2 = y
  exact shapeCast_apply y shapeCasts_S8192_S1024x8 i (idx_main_v27 i)
    (by rewrite [Shape.rowMajor_val_one, Shape.rowMajor_val_two]; have h0 : (i 0).val < 1024 := (i 0).isLt; have h1 : (i 1).val < 8 := (i 1).isLt; show (i 0).val * 8 + (i 1).val = (i 0).val * 8 + (i 1).val; omega)
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl
def val_main_v28 : (⟨S8192, .f32⟩ : BufTy).Contents (Elt F) :=
  broadcastInDim S8192 ![] bcast_S_S8192 (val_main_cst_8 (F := F))
abbrev idx_main_v28 (i : S8192.Idx) : S_.Idx := fun a => a.elim0
theorem val_main_v28_apply (i : S8192.Idx) :
    val_main_v28 (F := F) i = val_main_cst_8 (F := F) (idx_main_v28 i) := by
  unfold val_main_v28
  generalize val_main_cst_8 (F := F) = y
  exact broadcastInDim_apply _ bcast_S_S8192 y i (idx_main_v28 i) (fun a => a.elim0)
def val_main_v29 : (⟨S8192, .i1⟩ : BufTy).Contents (Elt F) :=
  cmpf .ogt (val_main_v23 (F := F) x1 x2) (val_main_v28 (F := F))
theorem val_main_v29_apply (x1 x2 : (⟨S262144, .i32⟩ : BufTy).Contents (Elt F)) (i : S8192.Idx) :
    val_main_v29 (F := F) x1 x2 i = FloatOps.cmpf .ogt (val_main_v23 (F := F) x1 x2 i) (val_main_v28 (F := F) i) := rfl
def val_main_v30 : (⟨S1024x8, .i1⟩ : BufTy).Contents (Elt F) :=
  shapeCast _ (val_main_v29 (F := F) x1 x2) shapeCasts_S8192_S1024x8
abbrev idx_main_v30 (i : S1024x8.Idx) : S8192.Idx := fun a => match a with
  | ⟨0, _⟩ => ⟨(i 0).val * 8 + (i 1).val, by have h0 : (i 0).val < 1024 := (i 0).isLt; have h1 : (i 1).val < 8 := (i 1).isLt; show (i 0).val * 8 + (i 1).val < 8192; omega⟩
theorem val_main_v30_apply (x1 x2 : (⟨S262144, .i32⟩ : BufTy).Contents (Elt F)) (i : S1024x8.Idx) :
    val_main_v30 (F := F) x1 x2 i = val_main_v29 (F := F) x1 x2 (idx_main_v30 i) := by
  unfold val_main_v30
  generalize val_main_v29 (F := F) x1 x2 = y
  exact shapeCast_apply y shapeCasts_S8192_S1024x8 i (idx_main_v30 i)
    (by rewrite [Shape.rowMajor_val_one, Shape.rowMajor_val_two]; have h0 : (i 0).val < 1024 := (i 0).isLt; have h1 : (i 1).val < 8 := (i 1).isLt; show (i 0).val * 8 + (i 1).val = (i 0).val * 8 + (i 1).val; omega)
def val_main_cst_9 : (⟨S_, .f32⟩ : BufTy).Contents (Elt F) :=
  constant S_ .f32 0x00000000#32
def val_main_v31 : (⟨S1024, .f32⟩ : BufTy).Contents (Elt F) :=
  broadcastInDim S1024 ![] bcast_S_S1024 (val_main_cst_9 (F := F))
def val_main_c_10 : (⟨S_, .i1⟩ : BufTy).Contents (Elt F) :=
  constantI S_ 1 0#1
def val_main_v32 : (⟨S1024, .i1⟩ : BufTy).Contents (Elt F) :=
  broadcastInDim S1024 ![] bcast_S_S1024 (val_main_c_10 (F := F))
def val_main_v33 : (⟨S1024x1, .f32⟩ : BufTy).Contents (Elt F) :=
  extractStridedSlice S1024x1 ![0, 0] (val_main_v27 (F := F) x0 x1 x2) slices_S1024x8_S1024x1_0_0
def val_main_v34 : (⟨S1024, .f32⟩ : BufTy).Contents (Elt F) :=
  shapeCast _ (val_main_v33 (F := F) x0 x1 x2) shapeCasts_S1024x1_S1024
def val_main_v35 : (⟨S1024x1, .i1⟩ : BufTy).Contents (Elt F) :=
  extractStridedSlice S1024x1 ![0, 0] (val_main_v30 (F := F) x1 x2) slices_S1024x8_S1024x1_0_0
def val_main_v36 : (⟨S1024, .i1⟩ : BufTy).Contents (Elt F) :=
  shapeCast _ (val_main_v35 (F := F) x1 x2) shapeCasts_S1024x1_S1024
def val_main_v37 : (⟨S1024, .i1⟩ : BufTy).Contents (Elt F) :=
  andi (val_main_v36 (F := F) x1 x2) (val_main_v32 (F := F))
def val_main_v38 : (⟨S1024, .f32⟩ : BufTy).Contents (Elt F) :=
  subf (val_main_v34 (F := F) x0 x1 x2) (val_main_v31 (F := F))
def val_main_cst_11 : (⟨S_, .f32⟩ : BufTy).Contents (Elt F) :=
  constant S_ .f32 0x3DCCCCCD#32
def val_main_v39 : (⟨S1024, .f32⟩ : BufTy).Contents (Elt F) :=
  broadcastInDim S1024 ![] bcast_S_S1024 (val_main_cst_11 (F := F))
def val_main_v40 : (⟨S1024, .f32⟩ : BufTy).Contents (Elt F) :=
  subf (val_main_v39 (F := F)) (val_main_v38 (F := F) x0 x1 x2)
def val_main_cst_12 : (⟨S_, .f32⟩ : BufTy).Contents (Elt F) :=
  constant S_ .f32 0x00000000#32
def val_main_v41 : (⟨S1024, .f32⟩ : BufTy).Contents (Elt F) :=
  broadcastInDim S1024 ![] bcast_S_S1024 (val_main_cst_12 (F := F))
def val_main_v42 : (⟨S1024, .f32⟩ : BufTy).Contents (Elt F) :=
  maximumf (val_main_v40 (F := F) x0 x1 x2) (val_main_v41 (F := F))
def val_main_cst_13 : (⟨S_, .f32⟩ : BufTy).Contents (Elt F) :=
  constant S_ .f32 0x00000000#32
def val_main_call1_v0 : (⟨S_, .f32⟩ : BufTy).Contents (Elt F) :=
  id (val_main_cst_13 (F := F))
def val_main_call1_v1 : (⟨S1024, .f32⟩ : BufTy).Contents (Elt F) :=
  broadcastInDim S1024 ![] bcast_S_S1024 (val_main_call1_v0 (F := F))
def val_main_v43 : (⟨S1024, .f32⟩ : BufTy).Contents (Elt F) :=
  select (val_main_v37 (F := F) x1 x2) (val_main_v42 (F := F) x0 x1 x2) (val_main_call1_v1 (F := F))
def val_main_cst_14 : (⟨S_, .f32⟩ : BufTy).Contents (Elt F) :=
  constant S_ .f32 0x00000000#32
def val_main_v44 : (⟨S_, .f32⟩ : BufTy).Contents (Elt F) :=
  Host.reduceAdd (val_main_v43 (F := F) x0 x1 x2) (val_main_cst_14 (F := F)) reducesTo_S1024_S_d0 h_S_
def val_main_cst_15 : (⟨S_, .f32⟩ : BufTy).Contents (Elt F) :=
  constant S_ .f32 0x00000000#32
def val_main_v45 : (⟨S_, .f32⟩ : BufTy).Contents (Elt F) :=
  addf (val_main_cst_15 (F := F)) (val_main_v44 (F := F) x0 x1 x2)
def val_main_v46 : (⟨S1024, .f32⟩ : BufTy).Contents (Elt F) :=
  uitofp .f32 (val_main_v37 (F := F) x1 x2)
def val_main_cst_16 : (⟨S_, .f32⟩ : BufTy).Contents (Elt F) :=
  constant S_ .f32 0x00000000#32
def val_main_v47 : (⟨S_, .f32⟩ : BufTy).Contents (Elt F) :=
  Host.reduceAdd (val_main_v46 (F := F) x1 x2) (val_main_cst_16 (F := F)) reducesTo_S1024_S_d0 h_S_
def val_main_cst_17 : (⟨S_, .f32⟩ : BufTy).Contents (Elt F) :=
  constant S_ .f32 0x00000000#32
def val_main_v48 : (⟨S_, .f32⟩ : BufTy).Contents (Elt F) :=
  addf (val_main_cst_17 (F := F)) (val_main_v47 (F := F) x1 x2)
def val_main_v49 : (⟨S1024, .f32⟩ : BufTy).Contents (Elt F) :=
  select (val_main_v36 (F := F) x1 x2) (val_main_v34 (F := F) x0 x1 x2) (val_main_v31 (F := F))
def val_main_v50 : (⟨S1024, .i1⟩ : BufTy).Contents (Elt F) :=
  ori (val_main_v32 (F := F)) (val_main_v36 (F := F) x1 x2)
def val_main_v51 : (⟨S1024x1, .f32⟩ : BufTy).Contents (Elt F) :=
  extractStridedSlice S1024x1 ![0, 1] (val_main_v27 (F := F) x0 x1 x2) slices_S1024x8_S1024x1_0_1
def val_main_v52 : (⟨S1024, .f32⟩ : BufTy).Contents (Elt F) :=
  shapeCast _ (val_main_v51 (F := F) x0 x1 x2) shapeCasts_S1024x1_S1024
def val_main_v53 : (⟨S1024x1, .i1⟩ : BufTy).Contents (Elt F) :=
  extractStridedSlice S1024x1 ![0, 1] (val_main_v30 (F := F) x1 x2) slices_S1024x8_S1024x1_0_1
def val_main_v54 : (⟨S1024, .i1⟩ : BufTy).Contents (Elt F) :=
  shapeCast _ (val_main_v53 (F := F) x1 x2) shapeCasts_S1024x1_S1024
def val_main_v55 : (⟨S1024, .i1⟩ : BufTy).Contents (Elt F) :=
  andi (val_main_v54 (F := F) x1 x2) (val_main_v50 (F := F) x1 x2)
def val_main_v56 : (⟨S1024, .f32⟩ : BufTy).Contents (Elt F) :=
  subf (val_main_v52 (F := F) x0 x1 x2) (val_main_v49 (F := F) x0 x1 x2)
def val_main_cst_18 : (⟨S_, .f32⟩ : BufTy).Contents (Elt F) :=
  constant S_ .f32 0x3DCCCCCD#32
def val_main_v57 : (⟨S1024, .f32⟩ : BufTy).Contents (Elt F) :=
  broadcastInDim S1024 ![] bcast_S_S1024 (val_main_cst_18 (F := F))
def val_main_v58 : (⟨S1024, .f32⟩ : BufTy).Contents (Elt F) :=
  subf (val_main_v57 (F := F)) (val_main_v56 (F := F) x0 x1 x2)
def val_main_cst_19 : (⟨S_, .f32⟩ : BufTy).Contents (Elt F) :=
  constant S_ .f32 0x00000000#32
def val_main_v59 : (⟨S1024, .f32⟩ : BufTy).Contents (Elt F) :=
  broadcastInDim S1024 ![] bcast_S_S1024 (val_main_cst_19 (F := F))
def val_main_v60 : (⟨S1024, .f32⟩ : BufTy).Contents (Elt F) :=
  maximumf (val_main_v58 (F := F) x0 x1 x2) (val_main_v59 (F := F))
def val_main_cst_20 : (⟨S_, .f32⟩ : BufTy).Contents (Elt F) :=
  constant S_ .f32 0x00000000#32
def val_main_call3_v0 : (⟨S_, .f32⟩ : BufTy).Contents (Elt F) :=
  id (val_main_cst_20 (F := F))
def val_main_call3_v1 : (⟨S1024, .f32⟩ : BufTy).Contents (Elt F) :=
  broadcastInDim S1024 ![] bcast_S_S1024 (val_main_call3_v0 (F := F))
def val_main_v61 : (⟨S1024, .f32⟩ : BufTy).Contents (Elt F) :=
  select (val_main_v55 (F := F) x1 x2) (val_main_v60 (F := F) x0 x1 x2) (val_main_call3_v1 (F := F))
def val_main_cst_21 : (⟨S_, .f32⟩ : BufTy).Contents (Elt F) :=
  constant S_ .f32 0x00000000#32
def val_main_v62 : (⟨S_, .f32⟩ : BufTy).Contents (Elt F) :=
  Host.reduceAdd (val_main_v61 (F := F) x0 x1 x2) (val_main_cst_21 (F := F)) reducesTo_S1024_S_d0 h_S_
def val_main_v63 : (⟨S_, .f32⟩ : BufTy).Contents (Elt F) :=
  addf (val_main_v45 (F := F) x0 x1 x2) (val_main_v62 (F := F) x0 x1 x2)
def val_main_v64 : (⟨S1024, .f32⟩ : BufTy).Contents (Elt F) :=
  uitofp .f32 (val_main_v55 (F := F) x1 x2)
def val_main_cst_22 : (⟨S_, .f32⟩ : BufTy).Contents (Elt F) :=
  constant S_ .f32 0x00000000#32
def val_main_v65 : (⟨S_, .f32⟩ : BufTy).Contents (Elt F) :=
  Host.reduceAdd (val_main_v64 (F := F) x1 x2) (val_main_cst_22 (F := F)) reducesTo_S1024_S_d0 h_S_
def val_main_v66 : (⟨S_, .f32⟩ : BufTy).Contents (Elt F) :=
  addf (val_main_v48 (F := F) x1 x2) (val_main_v65 (F := F) x1 x2)
def val_main_v67 : (⟨S1024, .f32⟩ : BufTy).Contents (Elt F) :=
  select (val_main_v54 (F := F) x1 x2) (val_main_v52 (F := F) x0 x1 x2) (val_main_v49 (F := F) x0 x1 x2)
def val_main_v68 : (⟨S1024, .i1⟩ : BufTy).Contents (Elt F) :=
  ori (val_main_v50 (F := F) x1 x2) (val_main_v54 (F := F) x1 x2)
def val_main_v69 : (⟨S1024x1, .f32⟩ : BufTy).Contents (Elt F) :=
  extractStridedSlice S1024x1 ![0, 2] (val_main_v27 (F := F) x0 x1 x2) slices_S1024x8_S1024x1_0_2
def val_main_v70 : (⟨S1024, .f32⟩ : BufTy).Contents (Elt F) :=
  shapeCast _ (val_main_v69 (F := F) x0 x1 x2) shapeCasts_S1024x1_S1024
def val_main_v71 : (⟨S1024x1, .i1⟩ : BufTy).Contents (Elt F) :=
  extractStridedSlice S1024x1 ![0, 2] (val_main_v30 (F := F) x1 x2) slices_S1024x8_S1024x1_0_2
def val_main_v72 : (⟨S1024, .i1⟩ : BufTy).Contents (Elt F) :=
  shapeCast _ (val_main_v71 (F := F) x1 x2) shapeCasts_S1024x1_S1024
def val_main_v73 : (⟨S1024, .i1⟩ : BufTy).Contents (Elt F) :=
  andi (val_main_v72 (F := F) x1 x2) (val_main_v68 (F := F) x1 x2)
def val_main_v74 : (⟨S1024, .f32⟩ : BufTy).Contents (Elt F) :=
  subf (val_main_v70 (F := F) x0 x1 x2) (val_main_v67 (F := F) x0 x1 x2)
def val_main_cst_23 : (⟨S_, .f32⟩ : BufTy).Contents (Elt F) :=
  constant S_ .f32 0x3DCCCCCD#32
def val_main_v75 : (⟨S1024, .f32⟩ : BufTy).Contents (Elt F) :=
  broadcastInDim S1024 ![] bcast_S_S1024 (val_main_cst_23 (F := F))
def val_main_v76 : (⟨S1024, .f32⟩ : BufTy).Contents (Elt F) :=
  subf (val_main_v75 (F := F)) (val_main_v74 (F := F) x0 x1 x2)
def val_main_cst_24 : (⟨S_, .f32⟩ : BufTy).Contents (Elt F) :=
  constant S_ .f32 0x00000000#32
def val_main_v77 : (⟨S1024, .f32⟩ : BufTy).Contents (Elt F) :=
  broadcastInDim S1024 ![] bcast_S_S1024 (val_main_cst_24 (F := F))
def val_main_v78 : (⟨S1024, .f32⟩ : BufTy).Contents (Elt F) :=
  maximumf (val_main_v76 (F := F) x0 x1 x2) (val_main_v77 (F := F))
def val_main_cst_25 : (⟨S_, .f32⟩ : BufTy).Contents (Elt F) :=
  constant S_ .f32 0x00000000#32
def val_main_call5_v0 : (⟨S_, .f32⟩ : BufTy).Contents (Elt F) :=
  id (val_main_cst_25 (F := F))
def val_main_call5_v1 : (⟨S1024, .f32⟩ : BufTy).Contents (Elt F) :=
  broadcastInDim S1024 ![] bcast_S_S1024 (val_main_call5_v0 (F := F))
def val_main_v79 : (⟨S1024, .f32⟩ : BufTy).Contents (Elt F) :=
  select (val_main_v73 (F := F) x1 x2) (val_main_v78 (F := F) x0 x1 x2) (val_main_call5_v1 (F := F))
def val_main_cst_26 : (⟨S_, .f32⟩ : BufTy).Contents (Elt F) :=
  constant S_ .f32 0x00000000#32
def val_main_v80 : (⟨S_, .f32⟩ : BufTy).Contents (Elt F) :=
  Host.reduceAdd (val_main_v79 (F := F) x0 x1 x2) (val_main_cst_26 (F := F)) reducesTo_S1024_S_d0 h_S_
def val_main_v81 : (⟨S_, .f32⟩ : BufTy).Contents (Elt F) :=
  addf (val_main_v63 (F := F) x0 x1 x2) (val_main_v80 (F := F) x0 x1 x2)
def val_main_v82 : (⟨S1024, .f32⟩ : BufTy).Contents (Elt F) :=
  uitofp .f32 (val_main_v73 (F := F) x1 x2)
def val_main_cst_27 : (⟨S_, .f32⟩ : BufTy).Contents (Elt F) :=
  constant S_ .f32 0x00000000#32
def val_main_v83 : (⟨S_, .f32⟩ : BufTy).Contents (Elt F) :=
  Host.reduceAdd (val_main_v82 (F := F) x1 x2) (val_main_cst_27 (F := F)) reducesTo_S1024_S_d0 h_S_
def val_main_v84 : (⟨S_, .f32⟩ : BufTy).Contents (Elt F) :=
  addf (val_main_v66 (F := F) x1 x2) (val_main_v83 (F := F) x1 x2)
def val_main_v85 : (⟨S1024, .f32⟩ : BufTy).Contents (Elt F) :=
  select (val_main_v72 (F := F) x1 x2) (val_main_v70 (F := F) x0 x1 x2) (val_main_v67 (F := F) x0 x1 x2)
def val_main_v86 : (⟨S1024, .i1⟩ : BufTy).Contents (Elt F) :=
  ori (val_main_v68 (F := F) x1 x2) (val_main_v72 (F := F) x1 x2)
def val_main_v87 : (⟨S1024x1, .f32⟩ : BufTy).Contents (Elt F) :=
  extractStridedSlice S1024x1 ![0, 3] (val_main_v27 (F := F) x0 x1 x2) slices_S1024x8_S1024x1_0_3
def val_main_v88 : (⟨S1024, .f32⟩ : BufTy).Contents (Elt F) :=
  shapeCast _ (val_main_v87 (F := F) x0 x1 x2) shapeCasts_S1024x1_S1024
def val_main_v89 : (⟨S1024x1, .i1⟩ : BufTy).Contents (Elt F) :=
  extractStridedSlice S1024x1 ![0, 3] (val_main_v30 (F := F) x1 x2) slices_S1024x8_S1024x1_0_3
def val_main_v90 : (⟨S1024, .i1⟩ : BufTy).Contents (Elt F) :=
  shapeCast _ (val_main_v89 (F := F) x1 x2) shapeCasts_S1024x1_S1024
def val_main_v91 : (⟨S1024, .i1⟩ : BufTy).Contents (Elt F) :=
  andi (val_main_v90 (F := F) x1 x2) (val_main_v86 (F := F) x1 x2)
def val_main_v92 : (⟨S1024, .f32⟩ : BufTy).Contents (Elt F) :=
  subf (val_main_v88 (F := F) x0 x1 x2) (val_main_v85 (F := F) x0 x1 x2)
def val_main_cst_28 : (⟨S_, .f32⟩ : BufTy).Contents (Elt F) :=
  constant S_ .f32 0x3DCCCCCD#32
def val_main_v93 : (⟨S1024, .f32⟩ : BufTy).Contents (Elt F) :=
  broadcastInDim S1024 ![] bcast_S_S1024 (val_main_cst_28 (F := F))
def val_main_v94 : (⟨S1024, .f32⟩ : BufTy).Contents (Elt F) :=
  subf (val_main_v93 (F := F)) (val_main_v92 (F := F) x0 x1 x2)
def val_main_cst_29 : (⟨S_, .f32⟩ : BufTy).Contents (Elt F) :=
  constant S_ .f32 0x00000000#32
def val_main_v95 : (⟨S1024, .f32⟩ : BufTy).Contents (Elt F) :=
  broadcastInDim S1024 ![] bcast_S_S1024 (val_main_cst_29 (F := F))
def val_main_v96 : (⟨S1024, .f32⟩ : BufTy).Contents (Elt F) :=
  maximumf (val_main_v94 (F := F) x0 x1 x2) (val_main_v95 (F := F))
def val_main_cst_30 : (⟨S_, .f32⟩ : BufTy).Contents (Elt F) :=
  constant S_ .f32 0x00000000#32
def val_main_call7_v0 : (⟨S_, .f32⟩ : BufTy).Contents (Elt F) :=
  id (val_main_cst_30 (F := F))
def val_main_call7_v1 : (⟨S1024, .f32⟩ : BufTy).Contents (Elt F) :=
  broadcastInDim S1024 ![] bcast_S_S1024 (val_main_call7_v0 (F := F))
def val_main_v97 : (⟨S1024, .f32⟩ : BufTy).Contents (Elt F) :=
  select (val_main_v91 (F := F) x1 x2) (val_main_v96 (F := F) x0 x1 x2) (val_main_call7_v1 (F := F))
def val_main_cst_31 : (⟨S_, .f32⟩ : BufTy).Contents (Elt F) :=
  constant S_ .f32 0x00000000#32
def val_main_v98 : (⟨S_, .f32⟩ : BufTy).Contents (Elt F) :=
  Host.reduceAdd (val_main_v97 (F := F) x0 x1 x2) (val_main_cst_31 (F := F)) reducesTo_S1024_S_d0 h_S_
def val_main_v99 : (⟨S_, .f32⟩ : BufTy).Contents (Elt F) :=
  addf (val_main_v81 (F := F) x0 x1 x2) (val_main_v98 (F := F) x0 x1 x2)
def val_main_v100 : (⟨S1024, .f32⟩ : BufTy).Contents (Elt F) :=
  uitofp .f32 (val_main_v91 (F := F) x1 x2)
def val_main_cst_32 : (⟨S_, .f32⟩ : BufTy).Contents (Elt F) :=
  constant S_ .f32 0x00000000#32
def val_main_v101 : (⟨S_, .f32⟩ : BufTy).Contents (Elt F) :=
  Host.reduceAdd (val_main_v100 (F := F) x1 x2) (val_main_cst_32 (F := F)) reducesTo_S1024_S_d0 h_S_
def val_main_v102 : (⟨S_, .f32⟩ : BufTy).Contents (Elt F) :=
  addf (val_main_v84 (F := F) x1 x2) (val_main_v101 (F := F) x1 x2)
def val_main_v103 : (⟨S1024, .f32⟩ : BufTy).Contents (Elt F) :=
  select (val_main_v90 (F := F) x1 x2) (val_main_v88 (F := F) x0 x1 x2) (val_main_v85 (F := F) x0 x1 x2)
def val_main_v104 : (⟨S1024, .i1⟩ : BufTy).Contents (Elt F) :=
  ori (val_main_v86 (F := F) x1 x2) (val_main_v90 (F := F) x1 x2)
def val_main_v105 : (⟨S1024x1, .f32⟩ : BufTy).Contents (Elt F) :=
  extractStridedSlice S1024x1 ![0, 4] (val_main_v27 (F := F) x0 x1 x2) slices_S1024x8_S1024x1_0_4
def val_main_v106 : (⟨S1024, .f32⟩ : BufTy).Contents (Elt F) :=
  shapeCast _ (val_main_v105 (F := F) x0 x1 x2) shapeCasts_S1024x1_S1024
def val_main_v107 : (⟨S1024x1, .i1⟩ : BufTy).Contents (Elt F) :=
  extractStridedSlice S1024x1 ![0, 4] (val_main_v30 (F := F) x1 x2) slices_S1024x8_S1024x1_0_4
def val_main_v108 : (⟨S1024, .i1⟩ : BufTy).Contents (Elt F) :=
  shapeCast _ (val_main_v107 (F := F) x1 x2) shapeCasts_S1024x1_S1024
def val_main_v109 : (⟨S1024, .i1⟩ : BufTy).Contents (Elt F) :=
  andi (val_main_v108 (F := F) x1 x2) (val_main_v104 (F := F) x1 x2)
def val_main_v110 : (⟨S1024, .f32⟩ : BufTy).Contents (Elt F) :=
  subf (val_main_v106 (F := F) x0 x1 x2) (val_main_v103 (F := F) x0 x1 x2)
def val_main_cst_33 : (⟨S_, .f32⟩ : BufTy).Contents (Elt F) :=
  constant S_ .f32 0x3DCCCCCD#32
def val_main_v111 : (⟨S1024, .f32⟩ : BufTy).Contents (Elt F) :=
  broadcastInDim S1024 ![] bcast_S_S1024 (val_main_cst_33 (F := F))
def val_main_v112 : (⟨S1024, .f32⟩ : BufTy).Contents (Elt F) :=
  subf (val_main_v111 (F := F)) (val_main_v110 (F := F) x0 x1 x2)
def val_main_cst_34 : (⟨S_, .f32⟩ : BufTy).Contents (Elt F) :=
  constant S_ .f32 0x00000000#32
def val_main_v113 : (⟨S1024, .f32⟩ : BufTy).Contents (Elt F) :=
  broadcastInDim S1024 ![] bcast_S_S1024 (val_main_cst_34 (F := F))
def val_main_v114 : (⟨S1024, .f32⟩ : BufTy).Contents (Elt F) :=
  maximumf (val_main_v112 (F := F) x0 x1 x2) (val_main_v113 (F := F))
def val_main_cst_35 : (⟨S_, .f32⟩ : BufTy).Contents (Elt F) :=
  constant S_ .f32 0x00000000#32
def val_main_call9_v0 : (⟨S_, .f32⟩ : BufTy).Contents (Elt F) :=
  id (val_main_cst_35 (F := F))
def val_main_call9_v1 : (⟨S1024, .f32⟩ : BufTy).Contents (Elt F) :=
  broadcastInDim S1024 ![] bcast_S_S1024 (val_main_call9_v0 (F := F))
def val_main_v115 : (⟨S1024, .f32⟩ : BufTy).Contents (Elt F) :=
  select (val_main_v109 (F := F) x1 x2) (val_main_v114 (F := F) x0 x1 x2) (val_main_call9_v1 (F := F))
def val_main_cst_36 : (⟨S_, .f32⟩ : BufTy).Contents (Elt F) :=
  constant S_ .f32 0x00000000#32
def val_main_v116 : (⟨S_, .f32⟩ : BufTy).Contents (Elt F) :=
  Host.reduceAdd (val_main_v115 (F := F) x0 x1 x2) (val_main_cst_36 (F := F)) reducesTo_S1024_S_d0 h_S_
def val_main_v117 : (⟨S_, .f32⟩ : BufTy).Contents (Elt F) :=
  addf (val_main_v99 (F := F) x0 x1 x2) (val_main_v116 (F := F) x0 x1 x2)
def val_main_v118 : (⟨S1024, .f32⟩ : BufTy).Contents (Elt F) :=
  uitofp .f32 (val_main_v109 (F := F) x1 x2)
def val_main_cst_37 : (⟨S_, .f32⟩ : BufTy).Contents (Elt F) :=
  constant S_ .f32 0x00000000#32
def val_main_v119 : (⟨S_, .f32⟩ : BufTy).Contents (Elt F) :=
  Host.reduceAdd (val_main_v118 (F := F) x1 x2) (val_main_cst_37 (F := F)) reducesTo_S1024_S_d0 h_S_
def val_main_v120 : (⟨S_, .f32⟩ : BufTy).Contents (Elt F) :=
  addf (val_main_v102 (F := F) x1 x2) (val_main_v119 (F := F) x1 x2)
def val_main_v121 : (⟨S1024, .f32⟩ : BufTy).Contents (Elt F) :=
  select (val_main_v108 (F := F) x1 x2) (val_main_v106 (F := F) x0 x1 x2) (val_main_v103 (F := F) x0 x1 x2)
def val_main_v122 : (⟨S1024, .i1⟩ : BufTy).Contents (Elt F) :=
  ori (val_main_v104 (F := F) x1 x2) (val_main_v108 (F := F) x1 x2)
def val_main_v123 : (⟨S1024x1, .f32⟩ : BufTy).Contents (Elt F) :=
  extractStridedSlice S1024x1 ![0, 5] (val_main_v27 (F := F) x0 x1 x2) slices_S1024x8_S1024x1_0_5
def val_main_v124 : (⟨S1024, .f32⟩ : BufTy).Contents (Elt F) :=
  shapeCast _ (val_main_v123 (F := F) x0 x1 x2) shapeCasts_S1024x1_S1024
def val_main_v125 : (⟨S1024x1, .i1⟩ : BufTy).Contents (Elt F) :=
  extractStridedSlice S1024x1 ![0, 5] (val_main_v30 (F := F) x1 x2) slices_S1024x8_S1024x1_0_5
def val_main_v126 : (⟨S1024, .i1⟩ : BufTy).Contents (Elt F) :=
  shapeCast _ (val_main_v125 (F := F) x1 x2) shapeCasts_S1024x1_S1024
def val_main_v127 : (⟨S1024, .i1⟩ : BufTy).Contents (Elt F) :=
  andi (val_main_v126 (F := F) x1 x2) (val_main_v122 (F := F) x1 x2)
def val_main_v128 : (⟨S1024, .f32⟩ : BufTy).Contents (Elt F) :=
  subf (val_main_v124 (F := F) x0 x1 x2) (val_main_v121 (F := F) x0 x1 x2)
def val_main_cst_38 : (⟨S_, .f32⟩ : BufTy).Contents (Elt F) :=
  constant S_ .f32 0x3DCCCCCD#32
def val_main_v129 : (⟨S1024, .f32⟩ : BufTy).Contents (Elt F) :=
  broadcastInDim S1024 ![] bcast_S_S1024 (val_main_cst_38 (F := F))
def val_main_v130 : (⟨S1024, .f32⟩ : BufTy).Contents (Elt F) :=
  subf (val_main_v129 (F := F)) (val_main_v128 (F := F) x0 x1 x2)
def val_main_cst_39 : (⟨S_, .f32⟩ : BufTy).Contents (Elt F) :=
  constant S_ .f32 0x00000000#32
def val_main_v131 : (⟨S1024, .f32⟩ : BufTy).Contents (Elt F) :=
  broadcastInDim S1024 ![] bcast_S_S1024 (val_main_cst_39 (F := F))
def val_main_v132 : (⟨S1024, .f32⟩ : BufTy).Contents (Elt F) :=
  maximumf (val_main_v130 (F := F) x0 x1 x2) (val_main_v131 (F := F))
def val_main_cst_40 : (⟨S_, .f32⟩ : BufTy).Contents (Elt F) :=
  constant S_ .f32 0x00000000#32
def val_main_call11_v0 : (⟨S_, .f32⟩ : BufTy).Contents (Elt F) :=
  id (val_main_cst_40 (F := F))
def val_main_call11_v1 : (⟨S1024, .f32⟩ : BufTy).Contents (Elt F) :=
  broadcastInDim S1024 ![] bcast_S_S1024 (val_main_call11_v0 (F := F))
def val_main_v133 : (⟨S1024, .f32⟩ : BufTy).Contents (Elt F) :=
  select (val_main_v127 (F := F) x1 x2) (val_main_v132 (F := F) x0 x1 x2) (val_main_call11_v1 (F := F))
def val_main_cst_41 : (⟨S_, .f32⟩ : BufTy).Contents (Elt F) :=
  constant S_ .f32 0x00000000#32
def val_main_v134 : (⟨S_, .f32⟩ : BufTy).Contents (Elt F) :=
  Host.reduceAdd (val_main_v133 (F := F) x0 x1 x2) (val_main_cst_41 (F := F)) reducesTo_S1024_S_d0 h_S_
def val_main_v135 : (⟨S_, .f32⟩ : BufTy).Contents (Elt F) :=
  addf (val_main_v117 (F := F) x0 x1 x2) (val_main_v134 (F := F) x0 x1 x2)
def val_main_v136 : (⟨S1024, .f32⟩ : BufTy).Contents (Elt F) :=
  uitofp .f32 (val_main_v127 (F := F) x1 x2)
def val_main_cst_42 : (⟨S_, .f32⟩ : BufTy).Contents (Elt F) :=
  constant S_ .f32 0x00000000#32
def val_main_v137 : (⟨S_, .f32⟩ : BufTy).Contents (Elt F) :=
  Host.reduceAdd (val_main_v136 (F := F) x1 x2) (val_main_cst_42 (F := F)) reducesTo_S1024_S_d0 h_S_
def val_main_v138 : (⟨S_, .f32⟩ : BufTy).Contents (Elt F) :=
  addf (val_main_v120 (F := F) x1 x2) (val_main_v137 (F := F) x1 x2)
def val_main_v139 : (⟨S1024, .f32⟩ : BufTy).Contents (Elt F) :=
  select (val_main_v126 (F := F) x1 x2) (val_main_v124 (F := F) x0 x1 x2) (val_main_v121 (F := F) x0 x1 x2)
def val_main_v140 : (⟨S1024, .i1⟩ : BufTy).Contents (Elt F) :=
  ori (val_main_v122 (F := F) x1 x2) (val_main_v126 (F := F) x1 x2)
def val_main_v141 : (⟨S1024x1, .f32⟩ : BufTy).Contents (Elt F) :=
  extractStridedSlice S1024x1 ![0, 6] (val_main_v27 (F := F) x0 x1 x2) slices_S1024x8_S1024x1_0_6
def val_main_v142 : (⟨S1024, .f32⟩ : BufTy).Contents (Elt F) :=
  shapeCast _ (val_main_v141 (F := F) x0 x1 x2) shapeCasts_S1024x1_S1024
def val_main_v143 : (⟨S1024x1, .i1⟩ : BufTy).Contents (Elt F) :=
  extractStridedSlice S1024x1 ![0, 6] (val_main_v30 (F := F) x1 x2) slices_S1024x8_S1024x1_0_6
def val_main_v144 : (⟨S1024, .i1⟩ : BufTy).Contents (Elt F) :=
  shapeCast _ (val_main_v143 (F := F) x1 x2) shapeCasts_S1024x1_S1024
def val_main_v145 : (⟨S1024, .i1⟩ : BufTy).Contents (Elt F) :=
  andi (val_main_v144 (F := F) x1 x2) (val_main_v140 (F := F) x1 x2)
def val_main_v146 : (⟨S1024, .f32⟩ : BufTy).Contents (Elt F) :=
  subf (val_main_v142 (F := F) x0 x1 x2) (val_main_v139 (F := F) x0 x1 x2)
def val_main_cst_43 : (⟨S_, .f32⟩ : BufTy).Contents (Elt F) :=
  constant S_ .f32 0x3DCCCCCD#32
def val_main_v147 : (⟨S1024, .f32⟩ : BufTy).Contents (Elt F) :=
  broadcastInDim S1024 ![] bcast_S_S1024 (val_main_cst_43 (F := F))
def val_main_v148 : (⟨S1024, .f32⟩ : BufTy).Contents (Elt F) :=
  subf (val_main_v147 (F := F)) (val_main_v146 (F := F) x0 x1 x2)
def val_main_cst_44 : (⟨S_, .f32⟩ : BufTy).Contents (Elt F) :=
  constant S_ .f32 0x00000000#32
def val_main_v149 : (⟨S1024, .f32⟩ : BufTy).Contents (Elt F) :=
  broadcastInDim S1024 ![] bcast_S_S1024 (val_main_cst_44 (F := F))
def val_main_v150 : (⟨S1024, .f32⟩ : BufTy).Contents (Elt F) :=
  maximumf (val_main_v148 (F := F) x0 x1 x2) (val_main_v149 (F := F))
def val_main_cst_45 : (⟨S_, .f32⟩ : BufTy).Contents (Elt F) :=
  constant S_ .f32 0x00000000#32
def val_main_call13_v0 : (⟨S_, .f32⟩ : BufTy).Contents (Elt F) :=
  id (val_main_cst_45 (F := F))
def val_main_call13_v1 : (⟨S1024, .f32⟩ : BufTy).Contents (Elt F) :=
  broadcastInDim S1024 ![] bcast_S_S1024 (val_main_call13_v0 (F := F))
def val_main_v151 : (⟨S1024, .f32⟩ : BufTy).Contents (Elt F) :=
  select (val_main_v145 (F := F) x1 x2) (val_main_v150 (F := F) x0 x1 x2) (val_main_call13_v1 (F := F))
def val_main_cst_46 : (⟨S_, .f32⟩ : BufTy).Contents (Elt F) :=
  constant S_ .f32 0x00000000#32
def val_main_v152 : (⟨S_, .f32⟩ : BufTy).Contents (Elt F) :=
  Host.reduceAdd (val_main_v151 (F := F) x0 x1 x2) (val_main_cst_46 (F := F)) reducesTo_S1024_S_d0 h_S_
def val_main_v153 : (⟨S_, .f32⟩ : BufTy).Contents (Elt F) :=
  addf (val_main_v135 (F := F) x0 x1 x2) (val_main_v152 (F := F) x0 x1 x2)
def val_main_v154 : (⟨S1024, .f32⟩ : BufTy).Contents (Elt F) :=
  uitofp .f32 (val_main_v145 (F := F) x1 x2)
def val_main_cst_47 : (⟨S_, .f32⟩ : BufTy).Contents (Elt F) :=
  constant S_ .f32 0x00000000#32
def val_main_v155 : (⟨S_, .f32⟩ : BufTy).Contents (Elt F) :=
  Host.reduceAdd (val_main_v154 (F := F) x1 x2) (val_main_cst_47 (F := F)) reducesTo_S1024_S_d0 h_S_
def val_main_v156 : (⟨S_, .f32⟩ : BufTy).Contents (Elt F) :=
  addf (val_main_v138 (F := F) x1 x2) (val_main_v155 (F := F) x1 x2)
def val_main_v157 : (⟨S1024, .f32⟩ : BufTy).Contents (Elt F) :=
  select (val_main_v144 (F := F) x1 x2) (val_main_v142 (F := F) x0 x1 x2) (val_main_v139 (F := F) x0 x1 x2)
def val_main_v158 : (⟨S1024, .i1⟩ : BufTy).Contents (Elt F) :=
  ori (val_main_v140 (F := F) x1 x2) (val_main_v144 (F := F) x1 x2)
def val_main_v159 : (⟨S1024x1, .f32⟩ : BufTy).Contents (Elt F) :=
  extractStridedSlice S1024x1 ![0, 7] (val_main_v27 (F := F) x0 x1 x2) slices_S1024x8_S1024x1_0_7
def val_main_v160 : (⟨S1024, .f32⟩ : BufTy).Contents (Elt F) :=
  shapeCast _ (val_main_v159 (F := F) x0 x1 x2) shapeCasts_S1024x1_S1024
def val_main_v161 : (⟨S1024x1, .i1⟩ : BufTy).Contents (Elt F) :=
  extractStridedSlice S1024x1 ![0, 7] (val_main_v30 (F := F) x1 x2) slices_S1024x8_S1024x1_0_7
def val_main_v162 : (⟨S1024, .i1⟩ : BufTy).Contents (Elt F) :=
  shapeCast _ (val_main_v161 (F := F) x1 x2) shapeCasts_S1024x1_S1024
def val_main_v163 : (⟨S1024, .i1⟩ : BufTy).Contents (Elt F) :=
  andi (val_main_v162 (F := F) x1 x2) (val_main_v158 (F := F) x1 x2)
def val_main_v164 : (⟨S1024, .f32⟩ : BufTy).Contents (Elt F) :=
  subf (val_main_v160 (F := F) x0 x1 x2) (val_main_v157 (F := F) x0 x1 x2)
def val_main_cst_48 : (⟨S_, .f32⟩ : BufTy).Contents (Elt F) :=
  constant S_ .f32 0x3DCCCCCD#32
def val_main_v165 : (⟨S1024, .f32⟩ : BufTy).Contents (Elt F) :=
  broadcastInDim S1024 ![] bcast_S_S1024 (val_main_cst_48 (F := F))
def val_main_v166 : (⟨S1024, .f32⟩ : BufTy).Contents (Elt F) :=
  subf (val_main_v165 (F := F)) (val_main_v164 (F := F) x0 x1 x2)
def val_main_cst_49 : (⟨S_, .f32⟩ : BufTy).Contents (Elt F) :=
  constant S_ .f32 0x00000000#32
def val_main_v167 : (⟨S1024, .f32⟩ : BufTy).Contents (Elt F) :=
  broadcastInDim S1024 ![] bcast_S_S1024 (val_main_cst_49 (F := F))
def val_main_v168 : (⟨S1024, .f32⟩ : BufTy).Contents (Elt F) :=
  maximumf (val_main_v166 (F := F) x0 x1 x2) (val_main_v167 (F := F))
def val_main_cst_50 : (⟨S_, .f32⟩ : BufTy).Contents (Elt F) :=
  constant S_ .f32 0x00000000#32
def val_main_call15_v0 : (⟨S_, .f32⟩ : BufTy).Contents (Elt F) :=
  id (val_main_cst_50 (F := F))
def val_main_call15_v1 : (⟨S1024, .f32⟩ : BufTy).Contents (Elt F) :=
  broadcastInDim S1024 ![] bcast_S_S1024 (val_main_call15_v0 (F := F))
def val_main_v169 : (⟨S1024, .f32⟩ : BufTy).Contents (Elt F) :=
  select (val_main_v163 (F := F) x1 x2) (val_main_v168 (F := F) x0 x1 x2) (val_main_call15_v1 (F := F))
def val_main_cst_51 : (⟨S_, .f32⟩ : BufTy).Contents (Elt F) :=
  constant S_ .f32 0x00000000#32
def val_main_v170 : (⟨S_, .f32⟩ : BufTy).Contents (Elt F) :=
  Host.reduceAdd (val_main_v169 (F := F) x0 x1 x2) (val_main_cst_51 (F := F)) reducesTo_S1024_S_d0 h_S_
def val_main_v171 : (⟨S_, .f32⟩ : BufTy).Contents (Elt F) :=
  addf (val_main_v153 (F := F) x0 x1 x2) (val_main_v170 (F := F) x0 x1 x2)
def val_main_v172 : (⟨S1024, .f32⟩ : BufTy).Contents (Elt F) :=
  uitofp .f32 (val_main_v163 (F := F) x1 x2)
def val_main_cst_52 : (⟨S_, .f32⟩ : BufTy).Contents (Elt F) :=
  constant S_ .f32 0x00000000#32
def val_main_v173 : (⟨S_, .f32⟩ : BufTy).Contents (Elt F) :=
  Host.reduceAdd (val_main_v172 (F := F) x1 x2) (val_main_cst_52 (F := F)) reducesTo_S1024_S_d0 h_S_
def val_main_v174 : (⟨S_, .f32⟩ : BufTy).Contents (Elt F) :=
  addf (val_main_v156 (F := F) x1 x2) (val_main_v173 (F := F) x1 x2)
def val_main_v175 : (⟨S1024, .f32⟩ : BufTy).Contents (Elt F) :=
  select (val_main_v162 (F := F) x1 x2) (val_main_v160 (F := F) x0 x1 x2) (val_main_v157 (F := F) x0 x1 x2)
def val_main_v176 : (⟨S1024, .i1⟩ : BufTy).Contents (Elt F) :=
  ori (val_main_v158 (F := F) x1 x2) (val_main_v162 (F := F) x1 x2)
def val_main_cst_53 : (⟨S_, .f32⟩ : BufTy).Contents (Elt F) :=
  constant S_ .f32 0x00000000#32
def val_main_v177 : (⟨S_, .i1⟩ : BufTy).Contents (Elt F) :=
  cmpf .ogt (val_main_v174 (F := F) x1 x2) (val_main_cst_53 (F := F))
def val_main_cst_54 : (⟨S_, .f32⟩ : BufTy).Contents (Elt F) :=
  constant S_ .f32 0x3F800000#32
def val_main_v178 : (⟨S_, .f32⟩ : BufTy).Contents (Elt F) :=
  maximumf (val_main_v174 (F := F) x1 x2) (val_main_cst_54 (F := F))
def val_main_v179 : (⟨S_, .f32⟩ : BufTy).Contents (Elt F) :=
  Host.divf (val_main_v171 (F := F) x0 x1 x2) (val_main_v178 (F := F) x1 x2)
def val_main_cst_55 : (⟨S_, .f32⟩ : BufTy).Contents (Elt F) :=
  constant S_ .f32 0x00000000#32
def val_main_call17_v0 : (⟨S_, .f32⟩ : BufTy).Contents (Elt F) :=
  id (val_main_cst_55 (F := F))
def val_main_v180 : (⟨S_, .f32⟩ : BufTy).Contents (Elt F) :=
  select (val_main_v177 (F := F) x1 x2) (val_main_v179 (F := F) x0 x1 x2) (val_main_call17_v0 (F := F))

abbrev ops : List (HloOp τ sig (Elt F)) :=
  [ nullary main_cst (constant S_ .f32 0x00000000#32),
    binary main_arg0 main_cst main_v0 ((fun x v => Host.reduceAdd x v reducesTo_S262144x512_S512_d0 h_S_)),
    unary main_v0 main_v1 (broadcastInDim S1x512 ![1] bcast_S512_S1x512_1),
    nullary main_cst_0 (constant S_ .f32 0x48800000#32),
    unary main_cst_0 main_v2 (broadcastInDim S1x512 ![] bcast_S_S1x512),
    binary main_v1 main_v2 main_v3 (Host.divf),
    TRef.binary (TRef.of (T := ⟨S1x512, .f32⟩) main_v3) (TRef.of (T := ⟨S1x512, .f32⟩) main_v3) (TRef.of (T := ⟨S1x512, .f32⟩) main_call0_v0) mulf,
    TRef.nullary (TRef.of (T := ⟨S_, .f32⟩) main_call0_cst) (constant S_ .f32 0x00000000#32),
    TRef.binary (TRef.of (T := ⟨S1x512, .f32⟩) main_call0_v0) (TRef.of (T := ⟨S_, .f32⟩) main_call0_cst) (TRef.of (T := ⟨S1, .f32⟩) main_call0_v1) (fun x v => Host.reduceAdd x v reducesTo_S1x512_S1_d1 h_S_),
    TRef.unary (TRef.of (T := ⟨S1, .f32⟩) main_call0_v1) (TRef.of (T := ⟨S1x1, .f32⟩) main_call0_v2) (broadcastInDim S1x1 ![0] bcast_S1_S1x1_0),
    TRef.unary (TRef.of (T := ⟨S1x1, .f32⟩) main_call0_v2) (TRef.of (T := ⟨S1x1, .f32⟩) main_v4) Host.sqrt,
    nullary main_cst_1 (constant S_ .f32 0x2B8CBCCC#32),
    unary main_cst_1 main_v5 (broadcastInDim S1x1 ![] bcast_S_S1x1),
    binary main_v4 main_v5 main_v6 (maximumf),
    unary main_v6 main_v7 (broadcastInDim S1x512 ![0, 1] bcast_S1x1_S1x512_0_1),
    binary main_v3 main_v7 main_v8 (Host.divf),
    unary main_v8 main_v9 (broadcastInDim S262144x512 ![0, 1] bcast_S1x512_S262144x512_0_1),
    binary main_arg0 main_v9 main_v10 (mulf),
    nullary main_cst_2 (constant S_ .f32 0x00000000#32),
    binary main_v10 main_cst_2 main_v11 ((fun x v => Host.reduceAdd x v reducesTo_S262144x512_S262144_d1 h_S_)),
    nullary main_cst_3 (constant S_ .f32 0x3F800000#32),
    unary main_cst_3 main_v12 (broadcastInDim S262144 ![] bcast_S_S262144),
    binary main_v12 main_v11 main_v13 (subf),
    nullary main_c (constantI S_ 32 8#32),
    unary main_c main_v14 (broadcastInDim S262144 ![] bcast_S_S262144),
    binary main_arg1 main_v14 main_v15 (muli),
    binary main_v15 main_arg2 main_v16 (addi),
    nullary main_cst_4 (constant S_ .f32 0x00000000#32),
    unary main_cst_4 main_v17 (broadcastInDim S8192 ![] bcast_S_S8192),
    unary main_v16 main_v18 (broadcastInDim S262144x1 ![0] bcast_S262144_S262144x1_0),
    ternary main_v17 main_v18 main_v13 main_v19 ((fun x i u => Host.scatterAdd scatter_S8192_S262144x1_S262144_n_0_0_1 x i u)),
    nullary main_cst_5 (constant S_ .f32 0x3F800000#32),
    unary main_cst_5 main_v20 (broadcastInDim S262144 ![] bcast_S_S262144),
    nullary main_cst_6 (constant S_ .f32 0x00000000#32),
    unary main_cst_6 main_v21 (broadcastInDim S8192 ![] bcast_S_S8192),
    unary main_v16 main_v22 (broadcastInDim S262144x1 ![0] bcast_S262144_S262144x1_0),
    ternary main_v21 main_v22 main_v20 main_v23 ((fun x i u => Host.scatterAdd scatter_S8192_S262144x1_S262144_n_0_0_1 x i u)),
    nullary main_cst_7 (constant S_ .f32 0x3F800000#32),
    unary main_cst_7 main_v24 (broadcastInDim S8192 ![] bcast_S_S8192),
    binary main_v23 main_v24 main_v25 (maximumf),
    binary main_v19 main_v25 main_v26 (Host.divf),
    reshape main_v26 main_v27 rfl shapeCasts_S8192_S1024x8,
    nullary main_cst_8 (constant S_ .f32 0x00000000#32),
    unary main_cst_8 main_v28 (broadcastInDim S8192 ![] bcast_S_S8192),
    binary main_v23 main_v28 main_v29 (cmpf (F := F) .ogt),
    reshape main_v29 main_v30 rfl shapeCasts_S8192_S1024x8,
    nullary main_cst_9 (constant S_ .f32 0x00000000#32),
    unary main_cst_9 main_v31 (broadcastInDim S1024 ![] bcast_S_S1024),
    nullary main_c_10 (constantI S_ 1 0#1),
    unary main_c_10 main_v32 (broadcastInDim S1024 ![] bcast_S_S1024),
    unary main_v27 main_v33 ((extractStridedSlice S1024x1 ![0, 0] · slices_S1024x8_S1024x1_0_0)),
    reshape main_v33 main_v34 rfl shapeCasts_S1024x1_S1024,
    unary main_v30 main_v35 ((extractStridedSlice S1024x1 ![0, 0] · slices_S1024x8_S1024x1_0_0)),
    reshape main_v35 main_v36 rfl shapeCasts_S1024x1_S1024,
    binary main_v36 main_v32 main_v37 (andi),
    binary main_v34 main_v31 main_v38 (subf),
    nullary main_cst_11 (constant S_ .f32 0x3DCCCCCD#32),
    unary main_cst_11 main_v39 (broadcastInDim S1024 ![] bcast_S_S1024),
    binary main_v39 main_v38 main_v40 (subf),
    nullary main_cst_12 (constant S_ .f32 0x00000000#32),
    unary main_cst_12 main_v41 (broadcastInDim S1024 ![] bcast_S_S1024),
    binary main_v40 main_v41 main_v42 (maximumf),
    nullary main_cst_13 (constant S_ .f32 0x00000000#32),
    TRef.unary (TRef.of (T := ⟨S_, .f32⟩) main_cst_13) (TRef.of (T := ⟨S_, .f32⟩) main_call1_v0) id,
    TRef.unary (TRef.of (T := ⟨S_, .f32⟩) main_call1_v0) (TRef.of (T := ⟨S1024, .f32⟩) main_call1_v1) (broadcastInDim S1024 ![] bcast_S_S1024),
    TRef.ternary (TRef.of (T := ⟨S1024, .i1⟩) main_v37) (TRef.of (T := ⟨S1024, .f32⟩) main_v42) (TRef.of (T := ⟨S1024, .f32⟩) main_call1_v1) (TRef.of (T := ⟨S1024, .f32⟩) main_v43) select,
    nullary main_cst_14 (constant S_ .f32 0x00000000#32),
    binary main_v43 main_cst_14 main_v44 ((fun x v => Host.reduceAdd x v reducesTo_S1024_S_d0 h_S_)),
    nullary main_cst_15 (constant S_ .f32 0x00000000#32),
    binary main_cst_15 main_v44 main_v45 (addf),
    unary main_v37 main_v46 (uitofp (F := F) .f32),
    nullary main_cst_16 (constant S_ .f32 0x00000000#32),
    binary main_v46 main_cst_16 main_v47 ((fun x v => Host.reduceAdd x v reducesTo_S1024_S_d0 h_S_)),
    nullary main_cst_17 (constant S_ .f32 0x00000000#32),
    binary main_cst_17 main_v47 main_v48 (addf),
    TRef.ternary (TRef.of (T := ⟨S1024, .i1⟩) main_v36) (TRef.of (T := ⟨S1024, .f32⟩) main_v34) (TRef.of (T := ⟨S1024, .f32⟩) main_v31) (TRef.of (T := ⟨S1024, .f32⟩) main_v49) select,
    binary main_v32 main_v36 main_v50 (ori),
    unary main_v27 main_v51 ((extractStridedSlice S1024x1 ![0, 1] · slices_S1024x8_S1024x1_0_1)),
    reshape main_v51 main_v52 rfl shapeCasts_S1024x1_S1024,
    unary main_v30 main_v53 ((extractStridedSlice S1024x1 ![0, 1] · slices_S1024x8_S1024x1_0_1)),
    reshape main_v53 main_v54 rfl shapeCasts_S1024x1_S1024,
    binary main_v54 main_v50 main_v55 (andi),
    binary main_v52 main_v49 main_v56 (subf),
    nullary main_cst_18 (constant S_ .f32 0x3DCCCCCD#32),
    unary main_cst_18 main_v57 (broadcastInDim S1024 ![] bcast_S_S1024),
    binary main_v57 main_v56 main_v58 (subf),
    nullary main_cst_19 (constant S_ .f32 0x00000000#32),
    unary main_cst_19 main_v59 (broadcastInDim S1024 ![] bcast_S_S1024),
    binary main_v58 main_v59 main_v60 (maximumf),
    nullary main_cst_20 (constant S_ .f32 0x00000000#32),
    TRef.unary (TRef.of (T := ⟨S_, .f32⟩) main_cst_20) (TRef.of (T := ⟨S_, .f32⟩) main_call3_v0) id,
    TRef.unary (TRef.of (T := ⟨S_, .f32⟩) main_call3_v0) (TRef.of (T := ⟨S1024, .f32⟩) main_call3_v1) (broadcastInDim S1024 ![] bcast_S_S1024),
    TRef.ternary (TRef.of (T := ⟨S1024, .i1⟩) main_v55) (TRef.of (T := ⟨S1024, .f32⟩) main_v60) (TRef.of (T := ⟨S1024, .f32⟩) main_call3_v1) (TRef.of (T := ⟨S1024, .f32⟩) main_v61) select,
    nullary main_cst_21 (constant S_ .f32 0x00000000#32),
    binary main_v61 main_cst_21 main_v62 ((fun x v => Host.reduceAdd x v reducesTo_S1024_S_d0 h_S_)),
    binary main_v45 main_v62 main_v63 (addf),
    unary main_v55 main_v64 (uitofp (F := F) .f32),
    nullary main_cst_22 (constant S_ .f32 0x00000000#32),
    binary main_v64 main_cst_22 main_v65 ((fun x v => Host.reduceAdd x v reducesTo_S1024_S_d0 h_S_)),
    binary main_v48 main_v65 main_v66 (addf),
    TRef.ternary (TRef.of (T := ⟨S1024, .i1⟩) main_v54) (TRef.of (T := ⟨S1024, .f32⟩) main_v52) (TRef.of (T := ⟨S1024, .f32⟩) main_v49) (TRef.of (T := ⟨S1024, .f32⟩) main_v67) select,
    binary main_v50 main_v54 main_v68 (ori),
    unary main_v27 main_v69 ((extractStridedSlice S1024x1 ![0, 2] · slices_S1024x8_S1024x1_0_2)),
    reshape main_v69 main_v70 rfl shapeCasts_S1024x1_S1024,
    unary main_v30 main_v71 ((extractStridedSlice S1024x1 ![0, 2] · slices_S1024x8_S1024x1_0_2)),
    reshape main_v71 main_v72 rfl shapeCasts_S1024x1_S1024,
    binary main_v72 main_v68 main_v73 (andi),
    binary main_v70 main_v67 main_v74 (subf),
    nullary main_cst_23 (constant S_ .f32 0x3DCCCCCD#32),
    unary main_cst_23 main_v75 (broadcastInDim S1024 ![] bcast_S_S1024),
    binary main_v75 main_v74 main_v76 (subf),
    nullary main_cst_24 (constant S_ .f32 0x00000000#32),
    unary main_cst_24 main_v77 (broadcastInDim S1024 ![] bcast_S_S1024),
    binary main_v76 main_v77 main_v78 (maximumf),
    nullary main_cst_25 (constant S_ .f32 0x00000000#32),
    TRef.unary (TRef.of (T := ⟨S_, .f32⟩) main_cst_25) (TRef.of (T := ⟨S_, .f32⟩) main_call5_v0) id,
    TRef.unary (TRef.of (T := ⟨S_, .f32⟩) main_call5_v0) (TRef.of (T := ⟨S1024, .f32⟩) main_call5_v1) (broadcastInDim S1024 ![] bcast_S_S1024),
    TRef.ternary (TRef.of (T := ⟨S1024, .i1⟩) main_v73) (TRef.of (T := ⟨S1024, .f32⟩) main_v78) (TRef.of (T := ⟨S1024, .f32⟩) main_call5_v1) (TRef.of (T := ⟨S1024, .f32⟩) main_v79) select,
    nullary main_cst_26 (constant S_ .f32 0x00000000#32),
    binary main_v79 main_cst_26 main_v80 ((fun x v => Host.reduceAdd x v reducesTo_S1024_S_d0 h_S_)),
    binary main_v63 main_v80 main_v81 (addf),
    unary main_v73 main_v82 (uitofp (F := F) .f32),
    nullary main_cst_27 (constant S_ .f32 0x00000000#32),
    binary main_v82 main_cst_27 main_v83 ((fun x v => Host.reduceAdd x v reducesTo_S1024_S_d0 h_S_)),
    binary main_v66 main_v83 main_v84 (addf),
    TRef.ternary (TRef.of (T := ⟨S1024, .i1⟩) main_v72) (TRef.of (T := ⟨S1024, .f32⟩) main_v70) (TRef.of (T := ⟨S1024, .f32⟩) main_v67) (TRef.of (T := ⟨S1024, .f32⟩) main_v85) select,
    binary main_v68 main_v72 main_v86 (ori),
    unary main_v27 main_v87 ((extractStridedSlice S1024x1 ![0, 3] · slices_S1024x8_S1024x1_0_3)),
    reshape main_v87 main_v88 rfl shapeCasts_S1024x1_S1024,
    unary main_v30 main_v89 ((extractStridedSlice S1024x1 ![0, 3] · slices_S1024x8_S1024x1_0_3)),
    reshape main_v89 main_v90 rfl shapeCasts_S1024x1_S1024,
    binary main_v90 main_v86 main_v91 (andi),
    binary main_v88 main_v85 main_v92 (subf),
    nullary main_cst_28 (constant S_ .f32 0x3DCCCCCD#32),
    unary main_cst_28 main_v93 (broadcastInDim S1024 ![] bcast_S_S1024),
    binary main_v93 main_v92 main_v94 (subf),
    nullary main_cst_29 (constant S_ .f32 0x00000000#32),
    unary main_cst_29 main_v95 (broadcastInDim S1024 ![] bcast_S_S1024),
    binary main_v94 main_v95 main_v96 (maximumf),
    nullary main_cst_30 (constant S_ .f32 0x00000000#32),
    TRef.unary (TRef.of (T := ⟨S_, .f32⟩) main_cst_30) (TRef.of (T := ⟨S_, .f32⟩) main_call7_v0) id,
    TRef.unary (TRef.of (T := ⟨S_, .f32⟩) main_call7_v0) (TRef.of (T := ⟨S1024, .f32⟩) main_call7_v1) (broadcastInDim S1024 ![] bcast_S_S1024),
    TRef.ternary (TRef.of (T := ⟨S1024, .i1⟩) main_v91) (TRef.of (T := ⟨S1024, .f32⟩) main_v96) (TRef.of (T := ⟨S1024, .f32⟩) main_call7_v1) (TRef.of (T := ⟨S1024, .f32⟩) main_v97) select,
    nullary main_cst_31 (constant S_ .f32 0x00000000#32),
    binary main_v97 main_cst_31 main_v98 ((fun x v => Host.reduceAdd x v reducesTo_S1024_S_d0 h_S_)),
    binary main_v81 main_v98 main_v99 (addf),
    unary main_v91 main_v100 (uitofp (F := F) .f32),
    nullary main_cst_32 (constant S_ .f32 0x00000000#32),
    binary main_v100 main_cst_32 main_v101 ((fun x v => Host.reduceAdd x v reducesTo_S1024_S_d0 h_S_)),
    binary main_v84 main_v101 main_v102 (addf),
    TRef.ternary (TRef.of (T := ⟨S1024, .i1⟩) main_v90) (TRef.of (T := ⟨S1024, .f32⟩) main_v88) (TRef.of (T := ⟨S1024, .f32⟩) main_v85) (TRef.of (T := ⟨S1024, .f32⟩) main_v103) select,
    binary main_v86 main_v90 main_v104 (ori),
    unary main_v27 main_v105 ((extractStridedSlice S1024x1 ![0, 4] · slices_S1024x8_S1024x1_0_4)),
    reshape main_v105 main_v106 rfl shapeCasts_S1024x1_S1024,
    unary main_v30 main_v107 ((extractStridedSlice S1024x1 ![0, 4] · slices_S1024x8_S1024x1_0_4)),
    reshape main_v107 main_v108 rfl shapeCasts_S1024x1_S1024,
    binary main_v108 main_v104 main_v109 (andi),
    binary main_v106 main_v103 main_v110 (subf),
    nullary main_cst_33 (constant S_ .f32 0x3DCCCCCD#32),
    unary main_cst_33 main_v111 (broadcastInDim S1024 ![] bcast_S_S1024),
    binary main_v111 main_v110 main_v112 (subf),
    nullary main_cst_34 (constant S_ .f32 0x00000000#32),
    unary main_cst_34 main_v113 (broadcastInDim S1024 ![] bcast_S_S1024),
    binary main_v112 main_v113 main_v114 (maximumf),
    nullary main_cst_35 (constant S_ .f32 0x00000000#32),
    TRef.unary (TRef.of (T := ⟨S_, .f32⟩) main_cst_35) (TRef.of (T := ⟨S_, .f32⟩) main_call9_v0) id,
    TRef.unary (TRef.of (T := ⟨S_, .f32⟩) main_call9_v0) (TRef.of (T := ⟨S1024, .f32⟩) main_call9_v1) (broadcastInDim S1024 ![] bcast_S_S1024),
    TRef.ternary (TRef.of (T := ⟨S1024, .i1⟩) main_v109) (TRef.of (T := ⟨S1024, .f32⟩) main_v114) (TRef.of (T := ⟨S1024, .f32⟩) main_call9_v1) (TRef.of (T := ⟨S1024, .f32⟩) main_v115) select,
    nullary main_cst_36 (constant S_ .f32 0x00000000#32),
    binary main_v115 main_cst_36 main_v116 ((fun x v => Host.reduceAdd x v reducesTo_S1024_S_d0 h_S_)),
    binary main_v99 main_v116 main_v117 (addf),
    unary main_v109 main_v118 (uitofp (F := F) .f32),
    nullary main_cst_37 (constant S_ .f32 0x00000000#32),
    binary main_v118 main_cst_37 main_v119 ((fun x v => Host.reduceAdd x v reducesTo_S1024_S_d0 h_S_)),
    binary main_v102 main_v119 main_v120 (addf),
    TRef.ternary (TRef.of (T := ⟨S1024, .i1⟩) main_v108) (TRef.of (T := ⟨S1024, .f32⟩) main_v106) (TRef.of (T := ⟨S1024, .f32⟩) main_v103) (TRef.of (T := ⟨S1024, .f32⟩) main_v121) select,
    binary main_v104 main_v108 main_v122 (ori),
    unary main_v27 main_v123 ((extractStridedSlice S1024x1 ![0, 5] · slices_S1024x8_S1024x1_0_5)),
    reshape main_v123 main_v124 rfl shapeCasts_S1024x1_S1024,
    unary main_v30 main_v125 ((extractStridedSlice S1024x1 ![0, 5] · slices_S1024x8_S1024x1_0_5)),
    reshape main_v125 main_v126 rfl shapeCasts_S1024x1_S1024,
    binary main_v126 main_v122 main_v127 (andi),
    binary main_v124 main_v121 main_v128 (subf),
    nullary main_cst_38 (constant S_ .f32 0x3DCCCCCD#32),
    unary main_cst_38 main_v129 (broadcastInDim S1024 ![] bcast_S_S1024),
    binary main_v129 main_v128 main_v130 (subf),
    nullary main_cst_39 (constant S_ .f32 0x00000000#32),
    unary main_cst_39 main_v131 (broadcastInDim S1024 ![] bcast_S_S1024),
    binary main_v130 main_v131 main_v132 (maximumf),
    nullary main_cst_40 (constant S_ .f32 0x00000000#32),
    TRef.unary (TRef.of (T := ⟨S_, .f32⟩) main_cst_40) (TRef.of (T := ⟨S_, .f32⟩) main_call11_v0) id,
    TRef.unary (TRef.of (T := ⟨S_, .f32⟩) main_call11_v0) (TRef.of (T := ⟨S1024, .f32⟩) main_call11_v1) (broadcastInDim S1024 ![] bcast_S_S1024),
    TRef.ternary (TRef.of (T := ⟨S1024, .i1⟩) main_v127) (TRef.of (T := ⟨S1024, .f32⟩) main_v132) (TRef.of (T := ⟨S1024, .f32⟩) main_call11_v1) (TRef.of (T := ⟨S1024, .f32⟩) main_v133) select,
    nullary main_cst_41 (constant S_ .f32 0x00000000#32),
    binary main_v133 main_cst_41 main_v134 ((fun x v => Host.reduceAdd x v reducesTo_S1024_S_d0 h_S_)),
    binary main_v117 main_v134 main_v135 (addf),
    unary main_v127 main_v136 (uitofp (F := F) .f32),
    nullary main_cst_42 (constant S_ .f32 0x00000000#32),
    binary main_v136 main_cst_42 main_v137 ((fun x v => Host.reduceAdd x v reducesTo_S1024_S_d0 h_S_)),
    binary main_v120 main_v137 main_v138 (addf),
    TRef.ternary (TRef.of (T := ⟨S1024, .i1⟩) main_v126) (TRef.of (T := ⟨S1024, .f32⟩) main_v124) (TRef.of (T := ⟨S1024, .f32⟩) main_v121) (TRef.of (T := ⟨S1024, .f32⟩) main_v139) select,
    binary main_v122 main_v126 main_v140 (ori),
    unary main_v27 main_v141 ((extractStridedSlice S1024x1 ![0, 6] · slices_S1024x8_S1024x1_0_6)),
    reshape main_v141 main_v142 rfl shapeCasts_S1024x1_S1024,
    unary main_v30 main_v143 ((extractStridedSlice S1024x1 ![0, 6] · slices_S1024x8_S1024x1_0_6)),
    reshape main_v143 main_v144 rfl shapeCasts_S1024x1_S1024,
    binary main_v144 main_v140 main_v145 (andi),
    binary main_v142 main_v139 main_v146 (subf),
    nullary main_cst_43 (constant S_ .f32 0x3DCCCCCD#32),
    unary main_cst_43 main_v147 (broadcastInDim S1024 ![] bcast_S_S1024),
    binary main_v147 main_v146 main_v148 (subf),
    nullary main_cst_44 (constant S_ .f32 0x00000000#32),
    unary main_cst_44 main_v149 (broadcastInDim S1024 ![] bcast_S_S1024),
    binary main_v148 main_v149 main_v150 (maximumf),
    nullary main_cst_45 (constant S_ .f32 0x00000000#32),
    TRef.unary (TRef.of (T := ⟨S_, .f32⟩) main_cst_45) (TRef.of (T := ⟨S_, .f32⟩) main_call13_v0) id,
    TRef.unary (TRef.of (T := ⟨S_, .f32⟩) main_call13_v0) (TRef.of (T := ⟨S1024, .f32⟩) main_call13_v1) (broadcastInDim S1024 ![] bcast_S_S1024),
    TRef.ternary (TRef.of (T := ⟨S1024, .i1⟩) main_v145) (TRef.of (T := ⟨S1024, .f32⟩) main_v150) (TRef.of (T := ⟨S1024, .f32⟩) main_call13_v1) (TRef.of (T := ⟨S1024, .f32⟩) main_v151) select,
    nullary main_cst_46 (constant S_ .f32 0x00000000#32),
    binary main_v151 main_cst_46 main_v152 ((fun x v => Host.reduceAdd x v reducesTo_S1024_S_d0 h_S_)),
    binary main_v135 main_v152 main_v153 (addf),
    unary main_v145 main_v154 (uitofp (F := F) .f32),
    nullary main_cst_47 (constant S_ .f32 0x00000000#32),
    binary main_v154 main_cst_47 main_v155 ((fun x v => Host.reduceAdd x v reducesTo_S1024_S_d0 h_S_)),
    binary main_v138 main_v155 main_v156 (addf),
    TRef.ternary (TRef.of (T := ⟨S1024, .i1⟩) main_v144) (TRef.of (T := ⟨S1024, .f32⟩) main_v142) (TRef.of (T := ⟨S1024, .f32⟩) main_v139) (TRef.of (T := ⟨S1024, .f32⟩) main_v157) select,
    binary main_v140 main_v144 main_v158 (ori),
    unary main_v27 main_v159 ((extractStridedSlice S1024x1 ![0, 7] · slices_S1024x8_S1024x1_0_7)),
    reshape main_v159 main_v160 rfl shapeCasts_S1024x1_S1024,
    unary main_v30 main_v161 ((extractStridedSlice S1024x1 ![0, 7] · slices_S1024x8_S1024x1_0_7)),
    reshape main_v161 main_v162 rfl shapeCasts_S1024x1_S1024,
    binary main_v162 main_v158 main_v163 (andi),
    binary main_v160 main_v157 main_v164 (subf),
    nullary main_cst_48 (constant S_ .f32 0x3DCCCCCD#32),
    unary main_cst_48 main_v165 (broadcastInDim S1024 ![] bcast_S_S1024),
    binary main_v165 main_v164 main_v166 (subf),
    nullary main_cst_49 (constant S_ .f32 0x00000000#32),
    unary main_cst_49 main_v167 (broadcastInDim S1024 ![] bcast_S_S1024),
    binary main_v166 main_v167 main_v168 (maximumf),
    nullary main_cst_50 (constant S_ .f32 0x00000000#32),
    TRef.unary (TRef.of (T := ⟨S_, .f32⟩) main_cst_50) (TRef.of (T := ⟨S_, .f32⟩) main_call15_v0) id,
    TRef.unary (TRef.of (T := ⟨S_, .f32⟩) main_call15_v0) (TRef.of (T := ⟨S1024, .f32⟩) main_call15_v1) (broadcastInDim S1024 ![] bcast_S_S1024),
    TRef.ternary (TRef.of (T := ⟨S1024, .i1⟩) main_v163) (TRef.of (T := ⟨S1024, .f32⟩) main_v168) (TRef.of (T := ⟨S1024, .f32⟩) main_call15_v1) (TRef.of (T := ⟨S1024, .f32⟩) main_v169) select,
    nullary main_cst_51 (constant S_ .f32 0x00000000#32),
    binary main_v169 main_cst_51 main_v170 ((fun x v => Host.reduceAdd x v reducesTo_S1024_S_d0 h_S_)),
    binary main_v153 main_v170 main_v171 (addf),
    unary main_v163 main_v172 (uitofp (F := F) .f32),
    nullary main_cst_52 (constant S_ .f32 0x00000000#32),
    binary main_v172 main_cst_52 main_v173 ((fun x v => Host.reduceAdd x v reducesTo_S1024_S_d0 h_S_)),
    binary main_v156 main_v173 main_v174 (addf),
    TRef.ternary (TRef.of (T := ⟨S1024, .i1⟩) main_v162) (TRef.of (T := ⟨S1024, .f32⟩) main_v160) (TRef.of (T := ⟨S1024, .f32⟩) main_v157) (TRef.of (T := ⟨S1024, .f32⟩) main_v175) select,
    binary main_v158 main_v162 main_v176 (ori),
    nullary main_cst_53 (constant S_ .f32 0x00000000#32),
    binary main_v174 main_cst_53 main_v177 (cmpf (F := F) .ogt),
    nullary main_cst_54 (constant S_ .f32 0x3F800000#32),
    binary main_v174 main_cst_54 main_v178 (maximumf),
    binary main_v171 main_v178 main_v179 (Host.divf),
    nullary main_cst_55 (constant S_ .f32 0x00000000#32),
    TRef.unary (TRef.of (T := ⟨S_, .f32⟩) main_cst_55) (TRef.of (T := ⟨S_, .f32⟩) main_call17_v0) id,
    TRef.ternary (TRef.of (T := ⟨S_, .i1⟩) main_v177) (TRef.of (T := ⟨S_, .f32⟩) main_v179) (TRef.of (T := ⟨S_, .f32⟩) main_call17_v0) (TRef.of (T := ⟨S_, .f32⟩) main_v180) select ]
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., reshape_bufs_sub .., nullary_bufs_sub .., unary_bufs_sub .., binary_bufs_sub .., reshape_bufs_sub .., nullary_bufs_sub .., unary_bufs_sub .., nullary_bufs_sub .., unary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., binary_bufs_sub .., unary_bufs_sub .., nullary_bufs_sub .., binary_bufs_sub .., nullary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., unary_bufs_sub .., nullary_bufs_sub .., binary_bufs_sub .., binary_bufs_sub .., ternary_bufs_sub .., binary_bufs_sub .., nullary_bufs_sub .., binary_bufs_sub .., nullary_bufs_sub .., binary_bufs_sub .., binary_bufs_sub .., nullary_bufs_sub .., unary_bufs_sub .., ternary_bufs_sub ..⟩

set_option maxRecDepth 8192 in
set_option maxHeartbeats 104000000 in
/-- The reference ends with its result at the last stage of the arguments: each operation's result is its stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = val_main_v180 (F := F) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v180).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Stage

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev Emb : Shape := ⟨2, ![262144, 512]⟩
abbrev Lab : Shape := ⟨1, ![262144]⟩
abbrev Row : Shape := ⟨2, ![1, 512]⟩
abbrev Tab : Shape := ⟨2, ![1024, 8]⟩

abbrev eIx (n : Fin 262144) (k : Fin 512) : Emb.Idx := fun | ⟨0, _⟩ => n | ⟨1, _⟩ => k
abbrev lIx (n : Fin 262144) : Lab.Idx := fun | ⟨0, _⟩ => n
abbrev rIx (k : Fin 512) : Row.Idx := fun | ⟨0, _⟩ => (0 : Fin 1) | ⟨1, _⟩ => k
abbrev tIx (c : Fin 1024) (d : Fin 8) : Tab.Idx := fun | ⟨0, _⟩ => c | ⟨1, _⟩ => d

abbrev HalfRow : Shape := ⟨3, ![2, 1, 512]⟩
abbrev HalfTab : Shape := ⟨3, ![2, 1024, 8]⟩

abbrev hIx (h : Fin 2) (k : Fin 512) : HalfRow.Idx := fun | ⟨0, _⟩ => h | ⟨1, _⟩ => (0 : Fin 1) | ⟨2, _⟩ => k
abbrev oIx (h : Fin 2) (c : Fin 1024) (d : Fin 8) : HalfTab.Idx := fun | ⟨0, _⟩ => h | ⟨1, _⟩ => c | ⟨2, _⟩ => d

theorem rIx_eta (i : Row.Idx) : rIx (i 1) = i := by
  funext a; match a with
  | ⟨0, _⟩ => exact (Subsingleton.elim (α := Fin 1) _ _)
  | ⟨1, _⟩ => rfl
theorem tIx_eta (i : Tab.Idx) : tIx (i 0) (i 1) = i := by
  funext a; match a with
  | ⟨0, _⟩ => rfl
  | ⟨1, _⟩ => rfl

abbrev rowOf (h : Fin 2) (r : Fin 131072) : Fin 262144 := ⟨h.val * 131072 + r.val, by omega⟩

variable (x : Emb.Idx → EReal) (o : Row.Idx → EReal) (comp dose : Lab.Idx → BitVec 32)

def colsum (k : Fin 512) : EReal := ∑ n : Fin 262144, x (eIx n k)
def colsumHalf (h : Fin 2) (k : Fin 512) : EReal := ∑ r : Fin 131072, x (eIx (rowOf h r) k)

/-- A row's distance to the direction: one minus their inner product. -/
def dist (n : Fin 262144) : EReal := 1 - ∑ k : Fin 512, x (eIx n k) * o (rIx k)

/-- Row `n` carries the pair (compound `c`, dose `d`). -/
def hit (c : Fin 1024) (d : Fin 8) (n : Fin 262144) : Prop :=
  (comp (lIx n)).toNat = c.val ∧ (dose (lIx n)).toNat = d.val

instance (c : Fin 1024) (d : Fin 8) (n : Fin 262144) : Decidable (hit comp dose c d n) := by unfold hit; infer_instance

/-- How many rows carry the pair, and the total of their distances; the same over one half of the rows. -/
def cnt (c : Fin 1024) (d : Fin 8) : EReal := ∑ n : Fin 262144, if hit comp dose c d n then (1 : EReal) else 0
def tot (c : Fin 1024) (d : Fin 8) : EReal := ∑ n : Fin 262144, if hit comp dose c d n then dist x o n else 0
def cntHalf (h : Fin 2) (c : Fin 1024) (d : Fin 8) : EReal :=
  ∑ r : Fin 131072, if hit comp dose c d (rowOf h r) then (1 : EReal) else 0
def totHalf (h : Fin 2) (c : Fin 1024) (d : Fin 8) : EReal :=
  ∑ r : Fin 131072, if hit comp dose c d (rowOf h r) then dist x o (rowOf h r) else 0

/-- The pair's mean distance, the count taken as at least one; and whether the pair occurs at all. -/
def mean (c : Fin 1024) (d : Fin 8) : EReal :=
  Ideal.div (tot x o comp dose c d) (max (cnt comp dose c d) (Ideal.ofBits .f32 0x3F800000#32))

def present (c : Fin 1024) (d : Fin 8) : BitVec 1 :=
  Ideal.cmp .ogt (cnt comp dose c d) (Ideal.ofBits .f32 0x00000000#32)

/-- Real rows and a real direction give a real distance. -/
theorem dist_real (hx : ∀ i, ∃ r : ℝ, x i = (r : EReal)) (ho : ∀ i, ∃ r : ℝ, o i = (r : EReal)) (n : Fin 262144) :
    ∃ r : ℝ, dist x o n = (r : EReal) := by
  choose xr hxr using hx
  choose orr hor using ho
  refine ⟨1 - ∑ k : Fin 512, xr (eIx n k) * orr (rIx k), ?_⟩
  unfold dist
  have hs : (∑ k : Fin 512, x (eIx n k) * o (rIx k)) = ((∑ k : Fin 512, xr (eIx n k) * orr (rIx k) : ℝ) : EReal) := by
    have : ∀ (s : Finset (Fin 512)), (∑ k ∈ s, x (eIx n k) * o (rIx k)) = ((∑ k ∈ s, xr (eIx n k) * orr (rIx k) : ℝ) : EReal) := by
      intro s
      induction s using Finset.induction_on with
      | empty => simp
      | insert a s ha ih => rw [Finset.sum_insert ha, Finset.sum_insert ha, ih, hxr, hor, EReal.coe_add, EReal.coe_mul]
    exact this Finset.univ
  rw [hs, EReal.coe_sub, EReal.coe_one]

def halves : Fin 2 × Fin 131072 ≃ Fin 262144 where
  toFun p := rowOf p.1 p.2
  invFun n := (⟨n.val / 131072, by omega⟩, ⟨n.val % 131072, Nat.mod_lt _ (by norm_num)⟩)
  left_inv p := by
    obtain ⟨h, r⟩ := p
    refine Prod.ext (Fin.ext ?_) (Fin.ext ?_) <;> simp only [rowOf] <;> omega
  right_inv n := Fin.ext (by simp only [rowOf]; omega)

/-- A sum over all rows is the sum over the first half plus the sum over the second. -/
theorem sum_halves (f : Fin 262144 → EReal) :
    ∑ n : Fin 262144, f n = (∑ r : Fin 131072, f (rowOf 0 r)) + ∑ r : Fin 131072, f (rowOf 1 r) := by
  rw [← Equiv.sum_comp halves f, Fintype.sum_prod_type, Fin.sum_univ_two]
  rfl

theorem colsum_halves (k : Fin 512) : colsum x k = colsumHalf x 0 k + colsumHalf x 1 k := sum_halves _
theorem cnt_halves (c : Fin 1024) (d : Fin 8) : cnt comp dose c d = cntHalf comp dose 0 c d + cntHalf comp dose 1 c d :=
  sum_halves _
theorem tot_halves (c : Fin 1024) (d : Fin 8) : tot x o comp dose c d = totHalf x o comp dose 0 c d + totHalf x o comp dose 1 c d :=
  sum_halves _

end Cert.Spec

end
-- ==== Proof.PreFacts.lean ====
import proofs.«421787_j43851616092489_3_alg».proof.Proof.Gen.Pre_finite_inputs
import proofs.«421787_j43851616092489_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

theorem toNat_lt_of_signed_range (a c : BitVec 32) (b : Nat) (hc : c.toInt = (b : Int))
    (h0 : IntOp.cmpi .sge a 0#32 = 1#1) (h1 : IntOp.cmpi .slt a c = 1#1) : a.toNat < b := by
  unfold IntOp.cmpi at h0 h1
  simp only [StableHlo.Predicate.ofBool_eq_one_iff, BitVec.sle, BitVec.slt, decide_eq_true_eq, hc] at h0 h1
  have hz : (0#32 : BitVec 32).toInt = 0 := by decide
  rw [hz] at h0
  rw [BitVec.toInt_eq_toNat_cond] at h0 h1
  split at h0 <;> omega

theorem conjuncts_of_pre {F : FTy → Type} [FloatOps F] (a0 : FVec F S262144x512 .f32) (a1 a2 : IVec S262144 32)
    (h : fn (F := F) a0 a1 a2 = fun _ => 1#1) :
    (∀ i, FloatOps.cmpf .olt (FloatOps.hostAbsf (a0 i)) (FloatOps.ofBits (F := F) .f32 0x7F800000#32) = 1#1) ∧
    (∀ i, IntOp.cmpi .sge (a1 i) 0#32 = 1#1 ∧ IntOp.cmpi .slt (a1 i) 1024#32 = 1#1) ∧
    (∀ i, IntOp.cmpi .sge (a2 i) 0#32 = 1#1 ∧ IntOp.cmpi .slt (a2 i) 8#32 = 1#1) := by
  have h0 := congrFun h ix0
  dsimp only [fn, fn_part1] at h0
  obtain ⟨h12, h3⟩ := IntOp.andi_eq_one.1 h0
  obtain ⟨h1, h2⟩ := IntOp.andi_eq_one.1 h12
  refine ⟨fun i => ?_, fun i => ?_, fun i => ?_⟩
  · exact Host.reduce_andi_all _ _ _ _ ix0 h1 i
  · exact IntOp.andi_eq_one.1 (Host.reduce_andi_all _ _ _ _ ix0 h2 i)
  · exact IntOp.andi_eq_one.1 (Host.reduce_andi_all _ _ _ _ ix0 h3 i)

theorem labels_of_pre {F : FTy → Type} [FloatOps F] (a0 : FVec F Cert.Pre_finite_inputs.S262144x512 .f32)
    (a1 a2 : IVec Cert.Pre_finite_inputs.S262144 32)
    (h : Cert.Pre_finite_inputs.fn (F := F) a0 a1 a2 = fun _ => 1#1) :
    (∀ n : Fin 262144, (a1 (Cert.Spec.lIx n)).toNat < 1024) ∧ (∀ n : Fin 262144, (a2 (Cert.Spec.lIx n)).toNat < 8) := by
  obtain ⟨_, hc, hd⟩ := conjuncts_of_pre a0 a1 a2 h
  exact ⟨fun n => toNat_lt_of_signed_range _ 1024#32 1024 (by decide) (hc _).1 (hc _).2,
    fun n => toNat_lt_of_signed_range _ 8#32 8 (by decide) (hd _).1 (hd _).2⟩

theorem real_of_abs_lt_top (x : EReal) (hx : max x (-x) < ⊤) : ∃ r : ℝ, x = (r : EReal) := by
  induction x using EReal.rec with
  | bot => exact absurd hx (by simp)
  | top => exact absurd hx (by simp)
  | coe r => exact ⟨r, rfl⟩

theorem ofBits_inf_f32 : Ideal.ofBits .f32 0x7F800000#32 = ⊤ := by simp [Ideal.ofBits, Ideal.ieee]

theorem real_of_pre (a0 : FVec Ideal Cert.Pre_finite_inputs.S262144x512 .f32)
    (a1 a2 : IVec Cert.Pre_finite_inputs.S262144 32)
    (h : Cert.Pre_finite_inputs.fn (F := Ideal) a0 a1 a2 = fun _ => 1#1) : ∀ i, ∃ r : ℝ, a0 i = (r : EReal) := by
  obtain ⟨hf, _, _⟩ := conjuncts_of_pre a0 a1 a2 h
  intro i
  have hi := hf i
  rw [Ideal.hostAbsf_def, Ideal.absf_def, Ideal.ofBits_def, ofBits_inf_f32] at hi
  refine real_of_abs_lt_top (a0 i) ?_
  have : Ideal.cmp .olt (max (a0 i) (-(a0 i))) ⊤ = 1#1 := hi
  unfold Ideal.cmp at this
  simpa [StableHlo.Predicate.ofBool_eq_one_iff] using this

end Cert.PreFacts

end
-- ==== Proof.Origin.lean ====
import proofs.«421787_j43851616092489_3_alg».proof.Proof.Spec
import Idealize.ShloMosaic.PureOps
import Idealize.ShloMosaic.PureOps.Ideal
import Idealize.ShloMosaic.PureOps.Ideal.Laws
import Idealize.ShloMosaic.Lib.IdealHost
import Idealize.ShloMosaic.Lib.ValueIdx

noncomputable section

namespace Cert.Origin

open Idealize.ShloMosaic Idealize.ShloMosaic.ValueIdx Cert.Spec

abbrev S_ : Shape := ⟨0, ![]⟩
abbrev S1 : Shape := ⟨1, ![1]⟩
abbrev S1x1 : Shape := ⟨2, ![1, 1]⟩

theorem h_S_ : 0 < S_.numel := by decide
theorem bcast_S_Row : S_.BroadcastsInDim Row (![] : Fin 0 → Fin Row.rank) := by decide
theorem reducesTo_Row_S1_d1 : Row.ReducesTo [1] S1 := by decide
theorem bcast_S1_S1x1_0 : S1.BroadcastsInDim S1x1 (![0] : Fin 1 → Fin S1x1.rank) := by decide
theorem bcast_S_S1x1 : S_.BroadcastsInDim S1x1 (![] : Fin 0 → Fin S1x1.rank) := by decide
theorem bcast_S1x1_Row_0_1 : S1x1.BroadcastsInDim Row (![0, 1] : Fin 2 → Fin Row.rank) := by decide

variable {F : FTy → Type} [FloatOps F]

def meanOf (cs : FVec F Row .f32) : FVec F Row .f32 :=
  Host.divf cs (broadcastInDim Row ![] bcast_S_Row (constant S_ .f32 0x48800000#32))

def normOf (v : FVec F Row .f32) : FVec F S1x1 .f32 :=
  Host.sqrt (broadcastInDim S1x1 ![0] bcast_S1_S1x1_0
    (Host.reduceAdd (mulf v v) (constant S_ .f32 0x00000000#32) reducesTo_Row_S1_d1 h_S_))

def denomOf (v : FVec F Row .f32) : FVec F Row .f32 :=
  broadcastInDim Row ![0, 1] bcast_S1x1_Row_0_1
    (maximumf (normOf v) (broadcastInDim S1x1 ![] bcast_S_S1x1 (constant S_ .f32 0x2B8CBCCC#32)))

def originOf (cs : FVec F Row .f32) : FVec F Row .f32 :=
  Host.divf (meanOf cs) (denomOf (meanOf cs))

theorem ofBits_n : Ideal.ofBits .f32 0x48800000#32 = ((262144 : ℝ) : EReal) := by
  simp [Ideal.ofBits, Ideal.ieee, -EReal.coe_mul]; norm_num

theorem ofBits_eps_val : Ideal.ofBits .f32 0x2B8CBCCC#32 = ((9223372 * (2 : ℝ) ^ (-63 : Int) : ℝ) : EReal) := by
  simp [Ideal.ofBits, Ideal.ieee, -EReal.coe_mul]

theorem ofBits_eps : ∃ e : ℝ, 0 < e ∧ Ideal.ofBits .f32 0x2B8CBCCC#32 = (e : EReal) :=
  ⟨_, by positivity, ofBits_eps_val⟩

theorem sum_coe {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

theorem meanOf_apply (cs : FVec Ideal Row .f32) (i : Row.Idx) :
    meanOf (F := Ideal) cs i = Ideal.div (cs i) ((262144 : ℝ) : EReal) := by
  show Ideal.div (cs i) (Ideal.ofBits .f32 0x48800000#32) = _
  rw [ofBits_n]

theorem meanOf_real (cs : FVec Ideal Row .f32) (h : ∀ i, ∃ r : ℝ, cs i = (r : EReal)) :
    ∀ i, ∃ r : ℝ, meanOf (F := Ideal) cs i = (r : EReal) := by
  intro i
  obtain ⟨r, hr⟩ := h i
  refine ⟨r * (1 / 262144), ?_⟩
  rw [meanOf_apply, Ideal.div_coe (by norm_num), hr, EReal.coe_mul]

theorem sqsum_apply (v : FVec Ideal Row .f32) (j : S1.Idx) :
    Host.reduceAdd (mulf v v) (constant S_ .f32 0x00000000#32) reducesTo_Row_S1_d1 h_S_ j = ∑ i : Row.Idx, v i * v i := by
  show Ideal.hostReduceAdd reducesTo_Row_S1_d1 (fun i => v i * v i) (Ideal.ofBits .f32 0x00000000#32) j = _
  rw [Ideal.hostReduceAdd_total _ (by decide), Ideal.ofBits_zero_f32, zero_add]

theorem normOf_apply (v : FVec Ideal Row .f32) (j : S1x1.Idx) :
    normOf (F := Ideal) v j = Ideal.sqrt (∑ i : Row.Idx, v i * v i) := by
  show Ideal.sqrt (Host.reduceAdd (mulf v v) (constant S_ .f32 0x00000000#32) reducesTo_Row_S1_d1 h_S_ _) = _
  rw [sqsum_apply]

theorem normOf_real (v : FVec Ideal Row .f32) (h : ∀ i, ∃ r : ℝ, v i = (r : EReal)) (j : S1x1.Idx) :
    ∃ r : ℝ, 0 ≤ r ∧ normOf (F := Ideal) v j = (r : EReal) := by
  choose g hg using h
  refine ⟨Real.sqrt (∑ i : Row.Idx, g i * g i), Real.sqrt_nonneg _, ?_⟩
  have hs : (∑ i : Row.Idx, v i * v i) = ((∑ i : Row.Idx, g i * g i : ℝ) : EReal) := by
    rw [← sum_coe]; exact Finset.sum_congr rfl fun i _ => by rw [hg i, EReal.coe_mul]
  rw [normOf_apply, hs, Ideal.sqrt_coe, if_neg (not_lt.2 (Finset.sum_nonneg fun i _ => mul_self_nonneg _))]

theorem denomOf_apply (v : FVec Ideal Row .f32) (i : Row.Idx) :
    denomOf (F := Ideal) v i = max (Ideal.sqrt (∑ k : Row.Idx, v k * v k)) (Ideal.ofBits .f32 0x2B8CBCCC#32) := by
  show max (normOf (F := Ideal) v _) (Ideal.ofBits .f32 0x2B8CBCCC#32) = _
  rw [normOf_apply]

theorem denomOf_real (v : FVec Ideal Row .f32) (h : ∀ i, ∃ r : ℝ, v i = (r : EReal)) (i : Row.Idx) :
    ∃ r : ℝ, 0 < r ∧ denomOf (F := Ideal) v i = (r : EReal) := by
  obtain ⟨e, he0, he⟩ := ofBits_eps
  obtain ⟨n, _, hn⟩ := normOf_real v h (ix2 (0 : Fin 1) (0 : Fin 1))
  rw [normOf_apply] at hn
  refine ⟨max n e, lt_max_of_lt_right he0, ?_⟩
  rw [denomOf_apply, hn, he]
  exact (EReal.coe_strictMono.monotone.map_max (a := n) (b := e)).symm

theorem originOf_real (cs : FVec Ideal Cert.Spec.Row .f32) (h : ∀ i, ∃ r : ℝ, cs i = (r : EReal)) :
    ∀ i, ∃ r : ℝ, originOf (F := Ideal) cs i = (r : EReal) := by
  intro i
  obtain ⟨m, hm⟩ := meanOf_real cs h i
  obtain ⟨d, hd0, hd⟩ := denomOf_real (meanOf (F := Ideal) cs) (meanOf_real cs h) i
  refine ⟨m * (1 / d), ?_⟩
  show Ideal.div (meanOf (F := Ideal) cs i) (denomOf (F := Ideal) (meanOf (F := Ideal) cs) i) = _
  rw [hm, hd, Ideal.div_coe (ne_of_gt hd0), EReal.coe_mul]

end Cert.Origin

end
-- ==== Proof.KernelIdealGlue.lean ====
import proofs.«421787_j43851616092489_3_alg».proof.Proof.KernelIdealRegionsP
import proofs.«421787_j43851616092489_3_alg».proof.Proof.Spec
import proofs.«421787_j43851616092489_3_alg».proof.Proof.Origin
import Idealize.ShloMosaic.Lib.Pipeline.Value
import Idealize.ShloMosaic.Lib.StableHlo.Run
import Idealize.ShloMosaic.Lib.ValueIdx
import Idealize.ShloMosaic.PureOps.Ideal.Laws

set_option maxRecDepth 1604

noncomputable section

namespace Cert.KernelIdeal.Glue

open Cert.KernelIdeal Cert.KernelIdeal.Gen Idealize.ShloMosaic Idealize.ShloMosaic.TcCoe Idealize.SL.Sem Idealize.ShloMosaic.StableHlo
open Idealize.ShloMosaic.ValueIdx (addf_apply)

section Layout
variable {α : Type}

abbrev mIx (k : Fin 512) : S1x1x512.Idx := fun | ⟨0, _⟩ => (0 : Fin 1) | ⟨1, _⟩ => (0 : Fin 1) | ⟨2, _⟩ => k

abbrev nIx (cc : Fin 1024) (d : Fin 8) : S1x1024x8.Idx := fun | ⟨0, _⟩ => (0 : Fin 1) | ⟨1, _⟩ => cc | ⟨2, _⟩ => d

theorem half_row (x : S2x1x512.Idx → α) (off : Fin S2x1x512.rank → Nat) (hs : S2x1x512.Slices off S1x1x512)
    (h : Fin 2) (h0 : off 0 = h.val) (h1 : off 1 = 0) (h2 : off 2 = 0) (k : Fin 512) :
    shapeCast S1x512 (extractStridedSlice S1x1x512 off x hs) shapeCasts_S1x1x512_S1x512 (Cert.Spec.rIx k)
      = x (Cert.Spec.hIx h k) := by
  refine (shapeCast_apply _ shapeCasts_S1x1x512_S1x512 (Cert.Spec.rIx k) (mIx k) ?_).trans ?_
  · rw [Shape.rowMajor_val_three, Shape.rowMajor_val_two]
    show (0 * 1 + 0) * 512 + k.val = 0 * 512 + k.val
    omega
  · exact extractStridedSlice_apply off x hs (mIx k) (Cert.Spec.hIx h k) (fun a => match a with
      | ⟨0, _⟩ => by show h.val = off 0 + 0; omega
      | ⟨1, _⟩ => by show 0 = off 1 + 0; omega
      | ⟨2, _⟩ => by show k.val = off 2 + k.val; omega)

theorem half_tab (x : S2x1024x8.Idx → α) (off : Fin S2x1024x8.rank → Nat) (hs : S2x1024x8.Slices off S1x1024x8)
    (h : Fin 2) (h0 : off 0 = h.val) (h1 : off 1 = 0) (h2 : off 2 = 0) (cc : Fin 1024) (d : Fin 8) :
    shapeCast S1024x8 (extractStridedSlice S1x1024x8 off x hs) shapeCasts_S1x1024x8_S1024x8 (Cert.Spec.tIx cc d)
      = x (Cert.Spec.oIx h cc d) := by
  refine (shapeCast_apply _ shapeCasts_S1x1024x8_S1024x8 (Cert.Spec.tIx cc d) (nIx cc d) ?_).trans ?_
  · rw [Shape.rowMajor_val_three, Shape.rowMajor_val_two]
    show (0 * 1024 + cc.val) * 8 + d.val = cc.val * 8 + d.val
    omega
  · exact extractStridedSlice_apply off x hs (nIx cc d) (Cert.Spec.oIx h cc d) (fun a => match a with
      | ⟨0, _⟩ => by show h.val = off 0 + 0; omega
      | ⟨1, _⟩ => by show cc.val = off 1 + cc.val; omega
      | ⟨2, _⟩ => by show d.val = off 2 + d.val; omega)

end Layout

variable {F : FTy → Type} [FloatOps F]
variable (m : (ℓ : Loc nD τ sig) → Buf (Elt F) ℓ) (outs : GenP.Outs (F := F)) (c : Dev nD)

theorem arg0_at_v4 : GenP.V4 m outs c main_arg0 = m ((c : Thread nD τ).loc main_arg0) :=
  (GenP.V4_of m outs c main_arg0 (by decide)).trans <| (GenP.V3_of m outs c main_arg0 (by decide)).trans <|
    (GenP.V2_of m outs c main_arg0 (by decide)).trans <| (GenP.V1_of m outs c main_arg0 (by decide)).trans rfl
theorem arg1_at_v4 : GenP.V4 m outs c main_arg1 = m ((c : Thread nD τ).loc main_arg1) :=
  (GenP.V4_of m outs c main_arg1 (by decide)).trans <| (GenP.V3_of m outs c main_arg1 (by decide)).trans <|
    (GenP.V2_of m outs c main_arg1 (by decide)).trans <| (GenP.V1_of m outs c main_arg1 (by decide)).trans rfl
theorem arg2_at_v4 : GenP.V4 m outs c main_arg2 = m ((c : Thread nD τ).loc main_arg2) :=
  (GenP.V4_of m outs c main_arg2 (by decide)).trans <| (GenP.V3_of m outs c main_arg2 (by decide)).trans <|
    (GenP.V2_of m outs c main_arg2 (by decide)).trans <| (GenP.V1_of m outs c main_arg2 (by decide)).trans rfl

abbrev sums (outs : GenP.Outs (F := F)) (c : Dev nD) : (⟨S2x1x512, .f32⟩ : BufTy).Contents (Elt F) := outs 1 main_v0 c

theorem v5_term : (GenP.V4 m outs c main_v5 : (⟨S1x512, .f32⟩ : BufTy).Contents (Elt F)) =
    addf (shapeCast S1x512 (extractStridedSlice S1x1x512 ![0, 0, 0] (sums outs c) slices_S2x1x512_S1x1x512_0_0_0) shapeCasts_S1x1x512_S1x512)
         (shapeCast S1x512 (extractStridedSlice S1x1x512 ![1, 0, 0] (sums outs c) slices_S2x1x512_S1x1x512_1_0_0) shapeCasts_S1x1x512_S1x512) := by
  rw [GenP.V4_of m outs c main_v5 (by decide), GenP.V3_of m outs c main_v5 (by decide)]
  show StableHlo.after hostOps1 _ (Proc.devRef .tc main_v5) = _
  after_results
  rfl

theorem v5_apply (m : (ℓ : Loc nD τ sig) → Buf (Elt Ideal) ℓ) (outs : GenP.Outs (F := Ideal)) (c : Dev nD) (k : Fin 512) :
    GenP.V4 m outs c main_v5 (Cert.Spec.rIx k) = sums outs c (Cert.Spec.hIx 0 k) + sums outs c (Cert.Spec.hIx 1 k) := by
  refine (congrFun (v5_term (F := Ideal) m outs c) (Cert.Spec.rIx k)).trans ?_
  rw [addf_apply, half_row (sums outs c) _ slices_S2x1x512_S1x1x512_0_0_0 0 rfl rfl rfl k,
    half_row (sums outs c) _ slices_S2x1x512_S1x1x512_1_0_0 1 rfl rfl rfl k]

abbrev cnts (outs : GenP.Outs (F := F)) (c : Dev nD) : (⟨S2x1024x8, .f32⟩ : BufTy).Contents (Elt F) := outs 5 main_v13_0 c
abbrev tots (outs : GenP.Outs (F := F)) (c : Dev nD) : (⟨S2x1024x8, .f32⟩ : BufTy).Contents (Elt F) := outs 5 main_v13_1 c

def halvesSum (x : (⟨S2x1024x8, .f32⟩ : BufTy).Contents (Elt F)) : (⟨S1024x8, .f32⟩ : BufTy).Contents (Elt F) :=
  addf (shapeCast S1024x8 (extractStridedSlice S1x1024x8 ![0, 0, 0] x slices_S2x1024x8_S1x1024x8_0_0_0) shapeCasts_S1x1024x8_S1024x8)
       (shapeCast S1024x8 (extractStridedSlice S1x1024x8 ![1, 0, 0] x slices_S2x1024x8_S1x1024x8_1_0_0) shapeCasts_S1x1024x8_S1024x8)

theorem v18_term : (GenP.V6 m outs c main_v18 : (⟨S1024x8, .f32⟩ : BufTy).Contents (Elt F)) = halvesSum (cnts outs c) := by
  show StableHlo.after hostOps2 _ (Proc.devRef .tc main_v18) = _
  after_results
  rfl

theorem v23_term : (GenP.V6 m outs c main_v23 : (⟨S1024x8, .f32⟩ : BufTy).Contents (Elt F)) = halvesSum (tots outs c) := by
  show StableHlo.after hostOps2 _ (Proc.devRef .tc main_v23) = _
  after_results
  rfl

theorem v26_term : (GenP.V6 m outs c main_v26 : (⟨S1024x8, .f32⟩ : BufTy).Contents (Elt F)) =
    Host.divf (halvesSum (tots outs c))
      (maximumf (halvesSum (cnts outs c)) (broadcastInDim S1024x8 ![] bcast_S_S1024x8 (constant (F := F) S_ .f32 0x3F800000#32))) := by
  show StableHlo.after hostOps2 _ (Proc.devRef .tc main_v26) = _
  after_results
  rfl

theorem v28_term : (GenP.V6 m outs c main_v28 : (⟨S1024x8, .i1⟩ : BufTy).Contents (Elt F)) =
    cmpf .ogt (halvesSum (cnts outs c)) (broadcastInDim S1024x8 ![] bcast_S_S1024x8 (constant (F := F) S_ .f32 0x00000000#32)) := by
  show StableHlo.after hostOps2 _ (Proc.devRef .tc main_v28) = _
  after_results
  rfl

section AtIdeal
variable (m : (ℓ : Loc nD τ sig) → Buf (Elt Ideal) ℓ) (outs : GenP.Outs (F := Ideal)) (c : Dev nD)

theorem halvesSum_apply (x : (⟨S2x1024x8, .f32⟩ : BufTy).Contents (Elt Ideal)) (cc : Fin 1024) (d : Fin 8) :
    halvesSum (F := Ideal) x (Cert.Spec.tIx cc d) = x (Cert.Spec.oIx 0 cc d) + x (Cert.Spec.oIx 1 cc d) := by
  unfold halvesSum
  rw [addf_apply, half_tab x _ slices_S2x1024x8_S1x1024x8_0_0_0 0 rfl rfl rfl cc d,
    half_tab x _ slices_S2x1024x8_S1x1024x8_1_0_0 1 rfl rfl rfl cc d]

theorem v18_apply (cc : Fin 1024) (d : Fin 8) :
    GenP.V6 m outs c main_v18 (Cert.Spec.tIx cc d) = cnts outs c (Cert.Spec.oIx 0 cc d) + cnts outs c (Cert.Spec.oIx 1 cc d) :=
  (congrFun (v18_term (F := Ideal) m outs c) (Cert.Spec.tIx cc d)).trans (halvesSum_apply (cnts outs c) cc d)

theorem v23_apply (cc : Fin 1024) (d : Fin 8) :
    GenP.V6 m outs c main_v23 (Cert.Spec.tIx cc d) = tots outs c (Cert.Spec.oIx 0 cc d) + tots outs c (Cert.Spec.oIx 1 cc d) :=
  (congrFun (v23_term (F := Ideal) m outs c) (Cert.Spec.tIx cc d)).trans (halvesSum_apply (tots outs c) cc d)

theorem v26_apply (cc : Fin 1024) (d : Fin 8) :
    GenP.V6 m outs c main_v26 (Cert.Spec.tIx cc d)
      = Ideal.div (GenP.V6 m outs c main_v23 (Cert.Spec.tIx cc d))
          (max (GenP.V6 m outs c main_v18 (Cert.Spec.tIx cc d)) (Ideal.ofBits .f32 0x3F800000#32)) := by
  rw [congrFun (v23_term (F := Ideal) m outs c) (Cert.Spec.tIx cc d), congrFun (v18_term (F := Ideal) m outs c) (Cert.Spec.tIx cc d)]
  exact congrFun (v26_term (F := Ideal) m outs c) (Cert.Spec.tIx cc d)

theorem v28_apply (cc : Fin 1024) (d : Fin 8) :
    GenP.V6 m outs c main_v28 (Cert.Spec.tIx cc d)
      = Ideal.cmp .ogt (GenP.V6 m outs c main_v18 (Cert.Spec.tIx cc d)) (Ideal.ofBits .f32 0x00000000#32) := by
  rw [congrFun (v18_term (F := Ideal) m outs c) (Cert.Spec.tIx cc d)]
  exact congrFun (v28_term (F := Ideal) m outs c) (Cert.Spec.tIx cc d)

end AtIdeal

def originTerm (s : (⟨S1x512, .f32⟩ : BufTy).Contents (Elt F)) : (⟨S1x512, .f32⟩ : BufTy).Contents (Elt F) :=
  Host.divf (Host.divf s (broadcastInDim S1x512 ![] bcast_S_S1x512 (constant (F := F) S_ .f32 0x48800000#32)))
    (broadcastInDim S1x512 ![0, 1] bcast_S1x1_S1x512_0_1
      (maximumf
        (Host.sqrt (broadcastInDim S1x1 ![0] bcast_S1_S1x1_0
          (Host.reduceAdd
            (mulf (Host.divf s (broadcastInDim S1x512 ![] bcast_S_S1x512 (constant (F := F) S_ .f32 0x48800000#32)))
                  (Host.divf s (broadcastInDim S1x512 ![] bcast_S_S1x512 (constant (F := F) S_ .f32 0x48800000#32))))
            (constant (F := F) S_ .f32 0x00000000#32) reducesTo_S1x512_S1_d1 h_S_)))
        (broadcastInDim S1x1 ![] bcast_S_S1x1 (constant (F := F) S_ .f32 0x2B8CBCCC#32))))

section Stretches
variable (W : Valuation τ sig (Elt F))

theorem stretch1_v7 : (StableHlo.after hostOps1 W (Proc.devRef .tc main_v7) : (⟨S1x512, .f32⟩ : BufTy).Contents (Elt F))
    = Host.divf (StableHlo.after hostOps1 W (Proc.devRef .tc main_v5) : (⟨S1x512, .f32⟩ : BufTy).Contents (Elt F))
        (broadcastInDim S1x512 ![] bcast_S_S1x512 (constant (F := F) S_ .f32 0x48800000#32)) := by
  after_results

theorem stretch2_v8 : (StableHlo.after hostOps1_1 W (Proc.devRef .tc main_v8) : (⟨S1x1, .f32⟩ : BufTy).Contents (Elt F))
    = Host.sqrt (broadcastInDim S1x1 ![0] bcast_S1_S1x1_0
        (Host.reduceAdd (mulf (W (Proc.devRef .tc main_v7) : (⟨S1x512, .f32⟩ : BufTy).Contents (Elt F)) (W (Proc.devRef .tc main_v7)))
          (constant (F := F) S_ .f32 0x00000000#32) reducesTo_S1x512_S1_d1 h_S_)) := by
  after_results
  rfl

theorem stretch3_v12 : (StableHlo.after hostOps1_2 W (Proc.devRef .tc main_v12) : (⟨S1x512, .f32⟩ : BufTy).Contents (Elt F))
    = Host.divf (W (Proc.devRef .tc main_v7) : (⟨S1x512, .f32⟩ : BufTy).Contents (Elt F))
        (broadcastInDim S1x512 ![0, 1] bcast_S1x1_S1x512_0_1
          (maximumf (W (Proc.devRef .tc main_v8) : (⟨S1x1, .f32⟩ : BufTy).Contents (Elt F))
            (broadcastInDim S1x1 ![] bcast_S_S1x1 (constant (F := F) S_ .f32 0x2B8CBCCC#32)))) := by
  after_results

end Stretches

theorem v12_term : (GenP.V4 m outs c main_v12 : (⟨S1x512, .f32⟩ : BufTy).Contents (Elt F))
    = originTerm (GenP.V4 m outs c main_v5 : (⟨S1x512, .f32⟩ : BufTy).Contents (Elt F)) := by
  have e5 : GenP.V4 m outs c main_v5 = GenP.V2 m outs c main_v5 :=
    (GenP.V4_of m outs c main_v5 (by decide)).trans (GenP.V3_of m outs c main_v5 (by decide))
  have e7 : GenP.V3 m outs c main_v7 = GenP.V2 m outs c main_v7 := GenP.V3_of m outs c main_v7 (by decide)
  have a7 := stretch1_v7 (F := F) (GenP.V1 m outs c)
  have a8 := stretch2_v8 (F := F) (GenP.V2 m outs c)
  have a12 := stretch3_v12 (F := F) (GenP.V3 m outs c)
  refine a12.trans ?_
  rw [e5]
  unfold originTerm
  rw [show (GenP.V3 m outs c (Proc.devRef .tc main_v8)) = _ from a8, show GenP.V3 m outs c (Proc.devRef .tc main_v7) = _ from e7,
    show GenP.V2 m outs c (Proc.devRef .tc main_v7) = _ from a7]

theorem originTerm_eq (s : (⟨S1x512, .f32⟩ : BufTy).Contents (Elt F)) : originTerm s = Cert.Origin.originOf s := rfl

theorem v12_eq : GenP.V4 m outs c main_v12 = Cert.Origin.originOf (GenP.V4 m outs c main_v5) :=
  (v12_term m outs c).trans (originTerm_eq _)

end Cert.KernelIdeal.Glue
-- ==== Proof.Tail.lean ====
import Idealize.ShloMosaic.PureOps
import proofs.«421787_j43851616092489_3_alg».proof.Proof.Spec

noncomputable section

namespace Cert.Tail

open Idealize.ShloMosaic

abbrev Sc : Shape := ⟨0, ![]⟩
abbrev Cmp : Shape := ⟨1, ![1024]⟩
abbrev Col : Shape := ⟨2, ![1024, 1]⟩
abbrev Tab : Shape := ⟨2, ![1024, 8]⟩

example : Tab = Cert.Spec.Tab := rfl

theorem bc : Sc.BroadcastsInDim Cmp (![] : Fin 0 → Fin Cmp.rank) := by decide
theorem sc : Col.ShapeCasts Cmp := by decide
theorem rd : Cmp.ReducesTo [0] Sc := by decide
theorem h0 : 0 < Sc.numel := by decide
theorem sl0 : Tab.Slices ![0, 0] Col := by decide
theorem sl1 : Tab.Slices ![0, 1] Col := by decide
theorem sl2 : Tab.Slices ![0, 2] Col := by decide
theorem sl3 : Tab.Slices ![0, 3] Col := by decide
theorem sl4 : Tab.Slices ![0, 4] Col := by decide
theorem sl5 : Tab.Slices ![0, 5] Col := by decide
theorem sl6 : Tab.Slices ![0, 6] Col := by decide
theorem sl7 : Tab.Slices ![0, 7] Col := by decide

variable {F : FTy → Type} [FloatOps F]

structure St (F : FTy → Type) [FloatOps F] where
  mean : FVec F Cmp .f32
  valid : IVec Cmp 1
  loss : FVec F Sc .f32
  count : FVec F Sc .f32

def init : St F where
  mean := broadcastInDim Cmp ![] bc (constant Sc .f32 0x00000000#32)
  valid := broadcastInDim Cmp ![] bc (constantI Sc 1 0#1)
  loss := constant Sc .f32 0x00000000#32
  count := constant Sc .f32 0x00000000#32

def cur (d : Nat) (h : Tab.Slices ![0, d] Col) (sm : FVec F Tab .f32) : FVec F Cmp .f32 :=
  shapeCast Cmp (extractStridedSlice Col ![0, d] sm h) sc
def pres (d : Nat) (h : Tab.Slices ![0, d] Col) (pr : IVec Tab 1) : IVec Cmp 1 :=
  shapeCast Cmp (extractStridedSlice Col ![0, d] pr h) sc

def hinge (c m : FVec F Cmp .f32) : FVec F Cmp .f32 :=
  maximumf (subf (broadcastInDim Cmp ![] bc (constant Sc .f32 0x3DCCCCCD#32)) (subf c m))
    (broadcastInDim Cmp ![] bc (constant Sc .f32 0x00000000#32))

def whereS (b : IVec Cmp 1) (x : FVec F Cmp .f32) (y : FVec F Sc .f32) : FVec F Cmp .f32 :=
  select b x (broadcastInDim Cmp ![] bc (id y))

def total (x : FVec F Cmp .f32) : FVec F Sc .f32 :=
  Host.reduceAdd x (constant Sc .f32 0x00000000#32) rd h0

def step (d : Nat) (h : Tab.Slices ![0, d] Col) (sm : FVec F Tab .f32) (pr : IVec Tab 1) (s : St F) : St F where
  mean := select (pres d h pr) (cur d h sm) s.mean
  valid := ori s.valid (pres d h pr)
  loss := addf s.loss (total (whereS (andi (pres d h pr) s.valid) (hinge (cur d h sm) s.mean)
    (constant Sc .f32 0x00000000#32)))
  count := addf s.count (total (uitofp (F := F) .f32 (andi (pres d h pr) s.valid)))

def finish (s : St F) : FVec F Sc .f32 :=
  select (cmpf (F := F) .ogt s.count (constant Sc .f32 0x00000000#32))
    (Host.divf s.loss (maximumf s.count (constant Sc .f32 0x3F800000#32)))
    (id (constant Sc .f32 0x00000000#32))

def sweep (sm : FVec F Cert.Spec.Tab .f32) (pr : IVec Cert.Spec.Tab 1) : FVec F (⟨0, ![]⟩ : Shape) .f32 :=
  finish (step 7 sl7 sm pr (step 6 sl6 sm pr (step 5 sl5 sm pr (step 4 sl4 sm pr
    (step 3 sl3 sm pr (step 2 sl2 sm pr (step 1 sl1 sm pr (step 0 sl0 sm pr init))))))))

end Cert.Tail

end
-- ==== Proof.KernelIdealSweep.lean ====
import proofs.«421787_j43851616092489_3_alg».proof.Proof.KernelIdealRegionsP
import proofs.«421787_j43851616092489_3_alg».proof.Proof.Tail
import Idealize.ShloMosaic.Lib.StableHlo.Run

noncomputable section

namespace Cert.KernelIdeal.Sweep

open Cert.KernelIdeal Cert.KernelIdeal.Gen
open Idealize.ShloMosaic Idealize.ShloMosaic.TcCoe
open Cert.Tail (St)

variable {F : FTy → Type} [FloatOps F]

variable (A : Valuation τ sig (Elt F))

def st0 : St F := ⟨A main_v47, ori (A main_v30 : IVec Tail.Cmp 1) (A main_v34), A main_v43, A main_v46⟩
def st1 : St F := ⟨A main_v65, ori (A main_v48 : IVec Tail.Cmp 1) (A main_v52), A main_v61, A main_v64⟩
def st2 : St F := ⟨A main_v83, ori (A main_v66 : IVec Tail.Cmp 1) (A main_v70), A main_v79, A main_v82⟩
def st3 : St F := ⟨A main_v101, ori (A main_v84 : IVec Tail.Cmp 1) (A main_v88), A main_v97, A main_v100⟩
def st4 : St F := ⟨A main_v119, ori (A main_v102 : IVec Tail.Cmp 1) (A main_v106), A main_v115, A main_v118⟩
def st5 : St F := ⟨A main_v137, ori (A main_v120 : IVec Tail.Cmp 1) (A main_v124), A main_v133, A main_v136⟩
def st6 : St F := ⟨A main_v155, ori (A main_v138 : IVec Tail.Cmp 1) (A main_v142), A main_v151, A main_v154⟩
def st7 : St F := ⟨A main_v173, ori (A main_v156 : IVec Tail.Cmp 1) (A main_v160), A main_v169, A main_v172⟩

abbrev T0 : Valuation τ sig (Elt F) := StableHlo.after hostOps2 A
abbrev E0 : Valuation τ sig (Elt F) := StableHlo.after hostOps2_3 (StableHlo.after hostOps2_2 (StableHlo.after hostOps2_1 A))
abbrev E1 : Valuation τ sig (Elt F) := StableHlo.after hostOps2_7 (StableHlo.after hostOps2_6 (StableHlo.after hostOps2_5 (StableHlo.after hostOps2_4 A)))
abbrev E2 : Valuation τ sig (Elt F) := StableHlo.after hostOps2_11 (StableHlo.after hostOps2_10 (StableHlo.after hostOps2_9 (StableHlo.after hostOps2_8 A)))
abbrev E3 : Valuation τ sig (Elt F) := StableHlo.after hostOps2_15 (StableHlo.after hostOps2_14 (StableHlo.after hostOps2_13 (StableHlo.after hostOps2_12 A)))
abbrev E4 : Valuation τ sig (Elt F) := StableHlo.after hostOps2_19 (StableHlo.after hostOps2_18 (StableHlo.after hostOps2_17 (StableHlo.after hostOps2_16 A)))
abbrev E5 : Valuation τ sig (Elt F) := StableHlo.after hostOps2_23 (StableHlo.after hostOps2_22 (StableHlo.after hostOps2_21 (StableHlo.after hostOps2_20 A)))
abbrev E6 : Valuation τ sig (Elt F) := StableHlo.after hostOps2_27 (StableHlo.after hostOps2_26 (StableHlo.after hostOps2_25 (StableHlo.after hostOps2_24 A)))
abbrev E7 : Valuation τ sig (Elt F) := StableHlo.after hostOps2_31 (StableHlo.after hostOps2_30 (StableHlo.after hostOps2_29 (StableHlo.after hostOps2_28 A)))
abbrev E8 : Valuation τ sig (Elt F) := StableHlo.after hostOps2_33 (StableHlo.after hostOps2_32 A)

variable {sm : FVec F Tail.Tab .f32} {pr : IVec Tail.Tab 1} {S : St F}

theorem dose0 : st0 (E0 (T0 A)) = Tail.step 0 Tail.sl0 (T0 A main_v26) (T0 A main_v28) Tail.init
    ∧ (E0 (T0 A) main_v26 : FVec F Tail.Tab .f32) = T0 A main_v26 ∧ (E0 (T0 A) main_v28 : IVec Tail.Tab 1) = T0 A main_v28 := by
  refine ⟨?_, ?_, ?_⟩
  · unfold st0 Tail.step Tail.init
    after_results_simp
    rfl
  · after_results_simp <;> rfl
  · after_results_simp <;> rfl

theorem dose1 (h : st0 A = S ∧ (A main_v26 : FVec F Tail.Tab .f32) = sm ∧ (A main_v28 : IVec Tail.Tab 1) = pr) :
    st1 (E1 A) = Tail.step 1 Tail.sl1 sm pr S
    ∧ (E1 A main_v26 : FVec F Tail.Tab .f32) = sm ∧ (E1 A main_v28 : IVec Tail.Tab 1) = pr := by
  obtain ⟨rfl, rfl, rfl⟩ := h
  refine ⟨?_, ?_, ?_⟩
  · unfold st1 st0 Tail.step
    after_results_simp
    rfl
  · after_results_simp <;> rfl
  · after_results_simp <;> rfl

theorem dose2 (h : st1 A = S ∧ (A main_v26 : FVec F Tail.Tab .f32) = sm ∧ (A main_v28 : IVec Tail.Tab 1) = pr) :
    st2 (E2 A) = Tail.step 2 Tail.sl2 sm pr S
    ∧ (E2 A main_v26 : FVec F Tail.Tab .f32) = sm ∧ (E2 A main_v28 : IVec Tail.Tab 1) = pr := by
  obtain ⟨rfl, rfl, rfl⟩ := h
  refine ⟨?_, ?_, ?_⟩
  · unfold st2 st1 Tail.step
    after_results_simp
    rfl
  · after_results_simp <;> rfl
  · after_results_simp <;> rfl

theorem dose3 (h : st2 A = S ∧ (A main_v26 : FVec F Tail.Tab .f32) = sm ∧ (A main_v28 : IVec Tail.Tab 1) = pr) :
    st3 (E3 A) = Tail.step 3 Tail.sl3 sm pr S
    ∧ (E3 A main_v26 : FVec F Tail.Tab .f32) = sm ∧ (E3 A main_v28 : IVec Tail.Tab 1) = pr := by
  obtain ⟨rfl, rfl, rfl⟩ := h
  refine ⟨?_, ?_, ?_⟩
  · unfold st3 st2 Tail.step
    after_results_simp
    rfl
  · after_results_simp <;> rfl
  · after_results_simp <;> rfl

theorem dose4 (h : st3 A = S ∧ (A main_v26 : FVec F Tail.Tab .f32) = sm ∧ (A main_v28 : IVec Tail.Tab 1) = pr) :
    st4 (E4 A) = Tail.step 4 Tail.sl4 sm pr S
    ∧ (E4 A main_v26 : FVec F Tail.Tab .f32) = sm ∧ (E4 A main_v28 : IVec Tail.Tab 1) = pr := by
  obtain ⟨rfl, rfl, rfl⟩ := h
  refine ⟨?_, ?_, ?_⟩
  · unfold st4 st3 Tail.step
    after_results_simp
    rfl
  · after_results_simp <;> rfl
  · after_results_simp <;> rfl

theorem dose5 (h : st4 A = S ∧ (A main_v26 : FVec F Tail.Tab .f32) = sm ∧ (A main_v28 : IVec Tail.Tab 1) = pr) :
    st5 (E5 A) = Tail.step 5 Tail.sl5 sm pr S
    ∧ (E5 A main_v26 : FVec F Tail.Tab .f32) = sm ∧ (E5 A main_v28 : IVec Tail.Tab 1) = pr := by
  obtain ⟨rfl, rfl, rfl⟩ := h
  refine ⟨?_, ?_, ?_⟩
  · unfold st5 st4 Tail.step
    after_results_simp
    rfl
  · after_results_simp <;> rfl
  · after_results_simp <;> rfl

theorem dose6 (h : st5 A = S ∧ (A main_v26 : FVec F Tail.Tab .f32) = sm ∧ (A main_v28 : IVec Tail.Tab 1) = pr) :
    st6 (E6 A) = Tail.step 6 Tail.sl6 sm pr S
    ∧ (E6 A main_v26 : FVec F Tail.Tab .f32) = sm ∧ (E6 A main_v28 : IVec Tail.Tab 1) = pr := by
  obtain ⟨rfl, rfl, rfl⟩ := h
  refine ⟨?_, ?_, ?_⟩
  · unfold st6 st5 Tail.step
    after_results_simp
    rfl
  · after_results_simp <;> rfl
  · after_results_simp <;> rfl

theorem dose7 (h : st6 A = S ∧ (A main_v26 : FVec F Tail.Tab .f32) = sm ∧ (A main_v28 : IVec Tail.Tab 1) = pr) :
    st7 (E7 A) = Tail.step 7 Tail.sl7 sm pr S
    ∧ (E7 A main_v26 : FVec F Tail.Tab .f32) = sm ∧ (E7 A main_v28 : IVec Tail.Tab 1) = pr := by
  obtain ⟨rfl, rfl, rfl⟩ := h
  refine ⟨?_, ?_, ?_⟩
  · unfold st7 st6 Tail.step
    after_results_simp
    rfl
  · after_results_simp <;> rfl
  · after_results_simp <;> rfl

theorem last : (E8 A main_v178 : FVec F Tail.Sc .f32) = Tail.finish (st7 A) := by
  unfold st7 Tail.finish
  after_results_simp
  rfl

theorem kernel_sweep (m : (ℓ : Loc nD τ sig) → Buf (Elt F) ℓ) (outs : GenP.Outs (F := F)) (c : Dev nD) :
    GenP.V39 m outs c main_v178 = Cert.Tail.sweep (GenP.V6 m outs c main_v26) (GenP.V6 m outs c main_v28) := by
  have i0 := dose0 (GenP.V5 m outs c)
  have i1 := dose1 _ i0
  have i2 := dose2 _ i1
  have i3 := dose3 _ i2
  have i4 := dose4 _ i3
  have i5 := dose5 _ i4
  have i6 := dose6 _ i5
  have i7 := dose7 _ i6
  exact (last _).trans (congrArg Tail.finish i7.1)

end Cert.KernelIdeal.Sweep

end
-- ==== Proof.KernelIdealRegion0Value.lean ====
import proofs.«421787_j43851616092489_3_alg».proof.Proof.KernelIdealRegion0
import proofs.«421787_j43851616092489_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

abbrev bIx (r : Fin 8192) (k : Fin 512) : S8192x512.Idx := fun | ⟨0, _⟩ => r | ⟨1, _⟩ => k
abbrev aIx (k : Fin 512) : S1x512.Idx := fun | ⟨0, _⟩ => (0 : Fin 1) | ⟨1, _⟩ => k
abbrev oIx (k : Fin 512) : S1x1x512.Idx := fun | ⟨0, _⟩ => (0 : Fin 1) | ⟨1, _⟩ => (0 : Fin 1) | ⟨2, _⟩ => k

theorem pay1_apply (j : S1x512.Idx) : (k0_pay1 (F := Ideal)) j = 0 := by
  unfold k0_pay1
  refine (congrFun (shapeCast_self _ _) j).trans ?_
  show FloatOps.ofBits (F := Ideal) .f32 0x00000000#32 = 0
  rw [Ideal.ofBits_def, Ideal.ofBits_zero_f32]

theorem pay2_apply (a : Vec Ideal S1x512 .f32) (x : Vec Ideal S8192x512 .f32) (k : Fin 512) :
    k0_pay2 a x (aIx k) = a (aIx k) + ∑ r : Fin 8192, x (bIx r k) := by
  unfold k0_pay2
  refine (congrFun (shapeCast_self _ _) (aIx k)).trans ?_
  refine (addf_apply _ _ (aIx k)).trans ?_
  refine congrArg (a (aIx k) + ·) ?_
  refine (shapeCast_addUnit_apply ![512] _ _ (aIx k)).trans ?_
  refine (Ideal.multiReduction_add_single _ _ reduces_S8192x512_S512 _ _ _).trans ?_
  refine Finset.sum_congr rfl fun r _ => congrArg x ?_
  funext q; fin_cases q <;> rfl

theorem pay3_apply (a : Vec Ideal S1x512 .f32) (k : Fin 512) : k0_pay3 a (oIx k) = a (aIx k) := by
  unfold k0_pay3
  refine (shapeCast_addUnit_apply ![1, 512] _ _ (oIx k)).trans ?_
  refine congrArg a ?_
  funext q; fin_cases q <;> rfl

abbrev xarr (V : Entry Ideal) (c : Dev nD) : Cert.Spec.Emb.Idx → EReal := V c main_arg0
abbrev xblk (V : Entry Ideal) (c : Dev nD) (t : Fin cfg0.N) : Vec Ideal S8192x512 .f32 := iblk V c 0 t

theorem idxIn : ∀ t : Fin grid0.N, win0_0.index t 0 = t.val ∧ win0_0.index t 1 = 0 := by decide +kernel
theorem idxOut : ∀ t : Fin grid0.N, win0_1.index t 0 = t.val / 16 ∧ win0_1.index t 1 = 0 ∧ win0_1.index t 2 = 0 := by
  decide +kernel

theorem blk_apply (V : Entry Ideal) (c : Dev nD) (t : Fin cfg0.N) (r : Fin 8192) (k : Fin 512)
    (hb : t.val * 8192 + r.val < 262144) :
    xblk V c t (bIx r k) = xarr V c (Cert.Spec.eIx ⟨t.val * 8192 + r.val, hb⟩ k) := by
  have hi := idxIn t
  unfold xblk iblk
  rw [View.read_apply]
  show V c main_arg0 _ = V c main_arg0 _
  congr 1
  funext a
  apply Fin.ext
  match a with
  | ⟨0, _⟩ => show win0_0.index t 0 * 8192 + 1 * r.val = t.val * 8192 + r.val; rw [hi.1]; omega
  | ⟨1, _⟩ => show win0_0.index t 1 * 512 + 1 * k.val = k.val; rw [hi.2]; omega

def xt (V : Entry Ideal) (c : Dev nD) (n k : ℕ) : EReal :=
  if h : n < 262144 ∧ k < 512 then xarr V c (Cert.Spec.eIx ⟨n, h.1⟩ ⟨k, h.2⟩) else 0

theorem blk_sum (V : Entry Ideal) (c : Dev nD) (t : Fin cfg0.N) (k : Fin 512) :
    ∑ r : Fin 8192, xblk V c t (bIx r k) = ∑ r ∈ Finset.range 8192, xt V c (t.val * 8192 + r) k.val := by
  have hN : t.val < 32 := lt_of_lt_of_eq t.isLt (show cfg0.N = 32 from N_0)
  rw [Finset.sum_range]
  refine Finset.sum_congr rfl fun r _ => ?_
  have hb : t.val * 8192 + r.val < 262144 := by have := r.isLt; omega
  rw [blk_apply V c t r k hb]; unfold xt; rw [dif_pos ⟨hb, k.isLt⟩]

theorem accAt_reset' (V : Entry Ideal) (c : Dev nD) (n : ℕ) (hn : n < cfg0.N) (h : n % 16 = 0) :
    accAt V c n hn = k0_pay2 (k0_pay1 (F := Ideal)) (xblk V c ⟨n, hn⟩) := accAt_reset V c ⟨n, hn⟩ h
theorem accAt_step' (V : Entry Ideal) (c : Dev nD) (m : ℕ) (hn : m + 1 < cfg0.N) (h : ¬(m + 1) % 16 = 0) :
    accAt V c (m + 1) hn = k0_pay2 (accAt V c m (Nat.lt_of_succ_lt hn)) (xblk V c ⟨m + 1, hn⟩) :=
  accAt_step V c ⟨m + 1, hn⟩ h

theorem acc_inv (V : Entry Ideal) (c : Dev nD) : ∀ (n : ℕ) (hn : n < cfg0.N) (k : Fin 512),
    accAt V c n hn (aIx k) = ∑ r ∈ Finset.range ((n % 16 + 1) * 8192), xt V c (n / 16 * 131072 + r) k.val
  | 0, hn, k => by
    refine (congrFun (accAt_reset' V c 0 hn rfl) (aIx k)).trans ?_
    refine (pay2_apply (k0_pay1 (F := Ideal)) (xblk V c ⟨0, hn⟩) k).trans ?_
    rw [pay1_apply, zero_add, blk_sum]
    show ∑ r ∈ Finset.range 8192, xt V c (0 * 8192 + r) k.val = _
    simp only [Nat.zero_mod, Nat.zero_div, zero_mul, zero_add, one_mul]
  | m + 1, hn, k => by
    have hN : m + 1 < 32 := lt_of_lt_of_eq hn (show cfg0.N = 32 from N_0)
    by_cases h0 : (m + 1) % 16 = 0
    · refine (congrFun (accAt_reset' V c (m + 1) hn h0) (aIx k)).trans ?_
      refine (pay2_apply (k0_pay1 (F := Ideal)) (xblk V c ⟨m + 1, hn⟩) k).trans ?_
      rw [pay1_apply, zero_add, blk_sum, h0]
      have e : (m + 1) * 8192 = (m + 1) / 16 * 131072 := by omega
      show ∑ r ∈ Finset.range 8192, xt V c ((m + 1) * 8192 + r) k.val = _
      rw [e]
    · refine (congrFun (accAt_step' V c m hn h0) (aIx k)).trans ?_
      refine (pay2_apply (accAt V c m (Nat.lt_of_succ_lt hn)) (xblk V c ⟨m + 1, hn⟩) k).trans ?_
      rw [acc_inv V c m (Nat.lt_of_succ_lt hn) k, blk_sum]
      have e1 : (m + 1) / 16 = m / 16 := by omega
      have e2 : ((m + 1) % 16 + 1) * 8192 = (m % 16 + 1) * 8192 + 8192 := by omega
      rw [e1, e2, Finset.sum_range_add]
      refine congrArg (_ + ·) (Finset.sum_congr rfl fun r _ => ?_)
      show xt V c ((m + 1) * 8192 + r) k.val = xt V c (m / 16 * 131072 + ((m % 16 + 1) * 8192 + r)) k.val
      have e3 : (m + 1) * 8192 + r = m / 16 * 131072 + ((m % 16 + 1) * 8192 + r) := by
        have hdm := Nat.div_add_mod m 16
        generalize m / 16 = q at hdm ⊢
        generalize m % 16 = s at hdm ⊢
        rw [← hdm]; ring
      rw [e3]

theorem out_half (V : Entry Ideal) (c : Dev nD) (t : Fin cfg0.N) (h15 : t.val % 16 = 15) (k : Fin 512) :
    outAt V c t.val t.isLt (oIx k) = ∑ r ∈ Finset.range 131072, xt V c (t.val / 16 * 131072 + r) k.val := by
  refine (congrFun (outAt_last V c t h15) (oIx k)).trans ?_
  refine (pay3_apply (accAt V c t.val t.isLt) k).trans ?_
  rw [acc_inv V c t.val t.isLt k, h15]

@[irreducible] def Gfun (V : Entry Ideal) (c : Dev nD) : Cert.Spec.HalfRow.Idx → EReal :=
  fun i => ∑ r ∈ Finset.range 131072, xt V c ((i 0).val * 131072 + r) (i 2).val
theorem Gfun_apply (V : Entry Ideal) (c : Dev nD) (i : Cert.Spec.HalfRow.Idx) :
    Gfun V c i = ∑ r ∈ Finset.range 131072, xt V c ((i 0).val * 131072 + r) (i 2).val := by
  unfold Gfun; rfl

abbrev G (V : Entry Ideal) (c : Dev nD) : Buf (Elt Ideal) ((c : Thread nD τ).loc main_v0) := Gfun V c

theorem xsizeOut : ∀ t : Fin grid0.N, win0_1.xsize (grid0.coords t) 0 = 1 ∧ win0_1.xsize (grid0.coords t) 1 = 1
    ∧ win0_1.xsize (grid0.coords t) 2 = 512 := by decide +kernel

theorem embOut_val (t : Fin cfg0.N) (y : ((cfg0.win 1).xblock (cfg0.grid.coords t)).Idx) (a : Fin 3) :
    (((cfg0.win 1).blk t).view.emb y a).val = (![t.val / 16, 0, 0] : Fin 3 → ℕ) a + (y a).val := by
  have hi := idxOut t
  show win0_1.index t a * win0_1.size a + 1 * (y a).val = _
  match a with
  | ⟨0, _⟩ => show win0_1.index t 0 * 1 + 1 * (y 0).val = t.val / 16 + (y 0).val; rw [hi.1]; omega
  | ⟨1, _⟩ => show win0_1.index t 1 * 1 + 1 * (y 1).val = 0 + (y 1).val; rw [hi.2.1]; omega
  | ⟨2, _⟩ => show win0_1.index t 2 * 512 + 1 * (y 2).val = 0 + (y 2).val; rw [hi.2.2]; omega

theorem hG (V : Entry Ideal) (c : Dev nD) (t : Fin cfg0.N) (hf : (cfg0.win 1).flush t = true) :
    (dat V c).flushed 1 t = ((cfg0.win 1).blk t).view.read (Elt Ideal) (G V c) := by
  have h15 : t.val % 16 = 15 := (flush0_1 t).mp hf
  have hx := xsizeOut t
  show (cfg0.win 1).cut (grid0.coords t) ((dat V c).after 1 t) = _
  rw [after_1]
  funext j
  show outAt V c t.val t.isLt ((cfg0.win 1).xinj (grid0.coords t) j) = Gfun V c (((cfg0.win 1).blk t).view.emb j)
  have h0 : (j 0).val < win0_1.xsize (grid0.coords t) 0 := (j 0).isLt
  have h1 : (j 1).val < win0_1.xsize (grid0.coords t) 1 := (j 1).isLt
  have h2 : (j 2).val < win0_1.xsize (grid0.coords t) 2 := (j 2).isLt
  rw [hx.1] at h0; rw [hx.2.1] at h1; rw [hx.2.2] at h2
  have hj : (cfg0.win 1).xinj (grid0.coords t) j = oIx ⟨(j 2).val, h2⟩ := by
    funext a; match a with
    | ⟨0, _⟩ => apply Fin.ext; show (j 0).val = 0; omega
    | ⟨1, _⟩ => apply Fin.ext; show (j 1).val = 0; omega
    | ⟨2, _⟩ => rfl
  rw [hj, out_half V c t h15 ⟨(j 2).val, h2⟩, Gfun_apply]
  have e0 := embOut_val t j 0
  have e2 := embOut_val t j 2
  refine Finset.sum_congr rfl fun r _ => ?_
  rw [e0, e2]
  show xt V c (t.val / 16 * 131072 + r) (j 2).val = xt V c ((t.val / 16 + (j 0).val) * 131072 + r) (0 + (j 2).val)
  rw [show (j 0).val = 0 by omega, Nat.add_zero, Nat.zero_add]

def lastOf (h : Fin 2) : Fin cfg0.N := ⟨16 * h.val + 15, by have := h.isLt; exact lt_of_lt_of_eq (by omega) N_0.symm⟩

theorem hIx_eq_emb (h : Fin 2) (k : Fin 512) :
    Cert.Spec.hIx h k = ((cfg0.win 1).blk (lastOf h)).view.emb (oIx k) := by
  funext a
  refine Fin.ext ?_
  rw [embOut_val]
  have := h.isLt
  match a with
  | ⟨0, _⟩ => show h.val = (16 * h.val + 15) / 16 + 0; omega
  | ⟨1, _⟩ => show 0 = 0 + 0; rfl
  | ⟨2, _⟩ => show k.val = 0 + k.val; omega

theorem arr_colsum (V : Entry Ideal) (c : Dev nD) (h : Fin 2) (k : Fin 512) :
    (dat V c).arrAt 1 cfg0.N (Cert.Spec.hIx h k) = Cert.Spec.colsumHalf (V c main_arg0) h k := by
  have hh := h.isLt
  have hf : (cfg0.win 1).flush (lastOf h) = true :=
    (flush0_1 (lastOf h)).mpr (by show (16 * h.val + 15) % 16 = 15; omega)
  have hm : Cert.Spec.hIx h k ∈ ((cfg0.win 1).blk (lastOf h)).view.set := by
    rw [hIx_eq_emb]; exact ((cfg0.win 1).blk (lastOf h)).view.emb_mem_set _
  rw [(dat V c).arrAt_apply_of_mem 1 (G V c) (hG V c) cfg0.N (lastOf h) _ (lastOf h).isLt hf hm]
  show Gfun V c (Cert.Spec.hIx h k) = _
  rw [Gfun_apply]
  unfold Cert.Spec.colsumHalf
  rw [Finset.sum_range]
  refine Finset.sum_congr rfl fun r _ => ?_
  have hr := r.isLt
  show xt V c (h.val * 131072 + r.val) k.val = xarr V c (Cert.Spec.eIx (Cert.Spec.rowOf h r) k)
  unfold xt
  rw [dif_pos ⟨by omega, k.isLt⟩]

end Cert.KernelIdeal.Region0

end
-- ==== Proof.KernelIdealRegion1Block.lean ====
import proofs.«421787_j43851616092489_3_alg».proof.Proof.Gen.KernelIdeal.Skeleton
import proofs.«421787_j43851616092489_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1Block

open Cert.KernelIdeal Cert.KernelIdeal.Gen
open Idealize.ShloMosaic Idealize.ShloMosaic.ValueIdx

theorem ofBits_one_f32 : Ideal.ofBits .f32 0x3F800000#32 = 1 := by
  simp [Ideal.ofBits, Ideal.ieee, -EReal.coe_mul]; norm_num

theorem hot_word (k : Nat) (hk : k < 2 ^ 32) (w : BitVec 32) :
    (((((IntOp.cmpi .eq (BitVec.ofNat 32 k) w).setWidth 32).toInt : ℤ) : ℝ) : EReal)
      = if w.toNat = k then (1 : EReal) else 0 := by
  by_cases h : w.toNat = k
  · have hw : BitVec.ofNat 32 k = w := by
      apply BitVec.eq_of_toNat_eq; rw [BitVec.toNat_ofNat, ← h]; exact Nat.mod_eq_of_lt w.isLt
    rw [if_pos h, hw]
    have : IntOp.cmpi .eq w w = 1#1 := by simp [IntOp.cmpi]
    rw [this]
    have : ((1#1 : BitVec 1).setWidth 32).toInt = 1 := by decide
    rw [this]; norm_num
  · have hw : ¬ BitVec.ofNat 32 k = w := by
      intro e; apply h; rw [← e, BitVec.toNat_ofNat]; exact Nat.mod_eq_of_lt hk
    rw [if_neg h]
    have : IntOp.cmpi .eq (BitVec.ofNat 32 k) w = 0#1 := by
      have hb : (BitVec.ofNat 32 k == w) = false := beq_eq_false_iff_ne.mpr hw
      simp [IntOp.cmpi, hb]
    rw [this]
    have : ((0#1 : BitVec 1).setWidth 32).toInt = 0 := by decide
    rw [this]; norm_num

variable (o : Vec Ideal S1x512 .f32) (x : Vec Ideal S2048x512 .f32) (ds cs : Vec Ideal S2048 .i32)

def dirRows : FVec Ideal S2048x512 .f32 :=
  broadcastTo S2048x512 (shapeCast S1x512 (shapeCast S1x512 o shapeCasts_S1x512_S1x512) shapeCasts_S1x512_S1x512)
    broadcasts_S1x512_S2048x512

def inner : FVec Ideal S2048 .f32 :=
  multiReduction (F := Ideal) .add [1] S2048 (mulf x (dirRows o)) 0x00000000#32 reduces_S2048x512_S2048 (.inl rfl) rfl

def distCol : FVec Ideal S2048x1 .f32 :=
  subf (broadcast S2048x1 (Scalar.ofBits (F := Ideal) .f32 0x3F800000#32))
    (shapeCast S2048x1 (inner o x) shapeCasts_S2048_S2048x1)

def doseHot : FVec Ideal S2048x8 .f32 :=
  sitofp .f32 (extui 32 (cmpi .eq (iota .tc S2048x8 32 [1] iota_S2048x8_d1_w32)
    (broadcastTo S2048x8 (shapeCast S2048x1 ds shapeCasts_S2048_S2048x1) broadcasts_S2048x1_S2048x8)) natLt_1_32)

def distHot : FVec Ideal S2048x8 .f32 :=
  mulf (broadcastTo S2048x8 (distCol o x) broadcasts_S2048x1_S2048x8) (doseHot ds)

def compHot : FVec Ideal S1024x2048 .f32 :=
  sitofp .f32 (extui 32 (cmpi .eq (iota .tc S1024x2048 32 [0] iota_S1024x2048_d0_w32)
    (broadcastTo S1024x2048 (shapeCast S1x2048 (shapeCast S1x2048 cs shapeCasts_S2048_S1x2048) shapeCasts_S1x2048_S1x2048)
      broadcasts_S1x2048_S1024x2048)) natLt_1_32)

abbrev rhsPieces : List ((s : Shape) × FVec Ideal s .bf16) :=
  [⟨S2048x8, truncf .bf16 (doseHot ds) bitsLt_bf16_f32⟩,
   ⟨S2048x8, truncf .bf16 (distHot o x ds) bitsLt_bf16_f32⟩,
   ⟨S2048x8, truncf .bf16 (subf (distHot o x ds) (distHot o x ds)) bitsLt_bf16_f32⟩]

def rhsMat : FVec Ideal S2048x24 .bf16 :=
  concatenate S2048x24 1 (rhsPieces o x ds) concatenates_S2048x8_S2048x8_S2048x8_S2048x24_d1

theorem pay7_eq :
    k1_pay7 (F := Ideal) o x ds cs
      = matmul dot_S1024x2048_S2048x24_S1024x24_1_0_0_1_n_n none (truncf .bf16 (compHot cs) bitsLt_bf16_f32)
          (rhsMat o x ds) (constant (F := Ideal) S1024x24 .f32 0x00000000#32) := rfl

theorem dirRows_apply (n : Fin 2048) (k : Fin 512) : dirRows o (ix2 n k) = o (Cert.Spec.rIx k) := by
  unfold dirRows
  rw [shapeCast_self, shapeCast_self]
  refine (broadcastTo_1b_ab_apply o broadcasts_S1x512_S2048x512 n k).trans ?_
  exact congrArg o (funext fun a => match a with | ⟨0, _⟩ => rfl | ⟨1, _⟩ => rfl)

theorem inner_apply (n : Fin 2048) : inner o x (ix1 n) = ∑ k : Fin 512, x (ix2 n k) * o (Cert.Spec.rIx k) := by
  unfold inner
  refine (Ideal.multiReduction_add_single (mulf x (dirRows o)) 0x00000000#32 reduces_S2048x512_S2048 (.inl rfl) rfl
    (ix1 n)).trans ?_
  show ∑ k : Fin 512, _ = _
  refine Finset.sum_congr rfl fun k _ => ?_
  have hidx : reduces_S2048x512_S2048.lift (ix1 n) k = ix2 n k :=
    funext fun a => Fin.ext (match a with | ⟨0, _⟩ => rfl | ⟨1, _⟩ => rfl)
  rw [hidx, mulf_apply, dirRows_apply]

theorem distCol_apply (n : Fin 2048) (u : Fin 1) :
    distCol o x (ix2 n u) = 1 - ∑ k : Fin 512, x (ix2 n k) * o (Cert.Spec.rIx k) := by
  unfold distCol
  rw [subf_apply, broadcast_apply]
  have hc : shapeCast S2048x1 (inner o x) shapeCasts_S2048_S2048x1 (ix2 n u) = inner o x (ix1 n) :=
    shapeCast_apply _ _ _ _ (by
      rw [Shape.rowMajor_val_two, Shape.rowMajor_val_one]
      show n.val = n.val * 1 + u.val
      omega)
  rw [hc, inner_apply]
  show Ideal.ofBits .f32 0x3F800000#32 - _ = _
  rw [ofBits_one_f32]

theorem doseHot_apply (n : Fin 2048) (d : Fin 8) :
    doseHot ds (ix2 n d) = if (ds (ix1 n)).toNat = d.val then (1 : EReal) else 0 := by
  have hb : broadcastTo S2048x8 (shapeCast S2048x1 ds shapeCasts_S2048_S2048x1) broadcasts_S2048x1_S2048x8 (ix2 n d)
      = ds (ix1 n) := by
    refine (broadcastTo_apply _ broadcasts_S2048x1_S2048x8 (ix2 n d) (ix2 n (0 : Fin 1)) fun a => ?_).trans ?_
    · match a with
      | ⟨0, _⟩ => rfl
      | ⟨1, _⟩ => rfl
    · exact shapeCast_apply _ _ _ _ (by
        rw [Shape.rowMajor_val_two, Shape.rowMajor_val_one]
        show n.val = n.val * 1 + 0
        omega)
  have hi : iota .tc S2048x8 32 [1] iota_S2048x8_d1_w32 (ix2 n d) = BitVec.ofNat 32 d.val :=
    iota_single_apply .tc S2048x8 32 1 iota_S2048x8_d1_w32 (ix2 n d)
  show ((((((IntOp.cmpi .eq (iota .tc S2048x8 32 [1] iota_S2048x8_d1_w32 (ix2 n d))
    (broadcastTo S2048x8 (shapeCast S2048x1 ds shapeCasts_S2048_S2048x1) broadcasts_S2048x1_S2048x8 (ix2 n d))).setWidth 32).toInt : ℤ) : ℝ) : EReal)) = _
  rw [hb, hi]
  exact hot_word d.val (by have := d.isLt; omega) _

theorem compHot_apply (c : Fin 1024) (n : Fin 2048) :
    compHot cs (ix2 c n) = if (cs (ix1 n)).toNat = c.val then (1 : EReal) else 0 := by
  have hb : broadcastTo S1024x2048 (shapeCast S1x2048 (shapeCast S1x2048 cs shapeCasts_S2048_S1x2048) shapeCasts_S1x2048_S1x2048)
      broadcasts_S1x2048_S1024x2048 (ix2 c n) = cs (ix1 n) := by
    rw [shapeCast_self]
    refine (broadcastTo_1b_ab_apply _ broadcasts_S1x2048_S1024x2048 c n).trans ?_
    exact shapeCast_a_1a_apply cs shapeCasts_S2048_S1x2048 (0 : Fin 1) n
  have hi : iota .tc S1024x2048 32 [0] iota_S1024x2048_d0_w32 (ix2 c n) = BitVec.ofNat 32 c.val :=
    iota_single_apply .tc S1024x2048 32 0 iota_S1024x2048_d0_w32 (ix2 c n)
  show ((((((IntOp.cmpi .eq (iota .tc S1024x2048 32 [0] iota_S1024x2048_d0_w32 (ix2 c n))
    (broadcastTo S1024x2048 (shapeCast S1x2048 (shapeCast S1x2048 cs shapeCasts_S2048_S1x2048) shapeCasts_S1x2048_S1x2048)
      broadcasts_S1x2048_S1024x2048 (ix2 c n))).setWidth 32).toInt : ℤ) : ℝ) : EReal)) = _
  rw [hb, hi]
  exact hot_word c.val (by have := c.isLt; omega) _

theorem distHot_apply (n : Fin 2048) (d : Fin 8) :
    distHot o x ds (ix2 n d)
      = (1 - ∑ k : Fin 512, x (ix2 n k) * o (Cert.Spec.rIx k)) * (if (ds (ix1 n)).toNat = d.val then (1 : EReal) else 0) := by
  unfold distHot
  rw [mulf_apply, doseHot_apply]
  have hb : broadcastTo S2048x8 (distCol o x) broadcasts_S2048x1_S2048x8 (ix2 n d) = distCol o x (ix2 n (0 : Fin 1)) :=
    broadcastTo_apply _ broadcasts_S2048x1_S2048x8 (ix2 n d) (ix2 n (0 : Fin 1)) fun a => by
      match a with
      | ⟨0, _⟩ => rfl
      | ⟨1, _⟩ => rfl
  rw [hb, distCol_apply]

theorem rhsMat_apply0 (n : Fin 2048) (d : Fin 8) :
    rhsMat o x ds (ix2 n (⟨d.val, by omega⟩ : Fin 24)) = doseHot ds (ix2 n d) := by
  unfold rhsMat
  refine (concatenate_apply_piece (1 : Fin S2048x24.rank) (rhsPieces o x ds) concatenates_S2048x8_S2048x8_S2048x8_S2048x24_d1
    (ix2 n (⟨d.val, by omega⟩ : Fin 24)) 0 (by show (0 : ℕ) < 3; decide) S2048x8 (truncf .bf16 (doseHot ds) bitsLt_bf16_f32) rfl rfl 0 rfl
    (ix2 n d) (fun b hb => ?_) ?_).trans rfl
  · match b with
    | ⟨0, _⟩ => rfl
    | ⟨1, _⟩ => exact absurd rfl hb
  · exact Nat.zero_add _

theorem rhsMat_apply1 (n : Fin 2048) (d : Fin 8) :
    rhsMat o x ds (ix2 n (⟨8 + d.val, by omega⟩ : Fin 24)) = distHot o x ds (ix2 n d) := by
  unfold rhsMat
  refine (concatenate_apply_piece (1 : Fin S2048x24.rank) (rhsPieces o x ds) concatenates_S2048x8_S2048x8_S2048x8_S2048x24_d1
    (ix2 n (⟨8 + d.val, by omega⟩ : Fin 24)) 1 (by show (1 : ℕ) < 3; decide) S2048x8 (truncf .bf16 (distHot o x ds) bitsLt_bf16_f32) rfl rfl 8 rfl
    (ix2 n d) (fun b hb => ?_) ?_).trans rfl
  · match b with
    | ⟨0, _⟩ => rfl
    | ⟨1, _⟩ => exact absurd rfl hb
  · rfl

theorem rhsMat_apply2 (n : Fin 2048) (d : Fin 8) :
    rhsMat o x ds (ix2 n (⟨16 + d.val, by omega⟩ : Fin 24)) = distHot o x ds (ix2 n d) - distHot o x ds (ix2 n d) := by
  unfold rhsMat
  refine (concatenate_apply_piece (1 : Fin S2048x24.rank) (rhsPieces o x ds) concatenates_S2048x8_S2048x8_S2048x8_S2048x24_d1
    (ix2 n (⟨16 + d.val, by omega⟩ : Fin 24)) 2 (by show (2 : ℕ) < 3; decide) S2048x8
    (truncf .bf16 (subf (distHot o x ds) (distHot o x ds)) bitsLt_bf16_f32) rfl rfl 16 rfl
    (ix2 n d) (fun b hb => ?_) ?_).trans rfl
  · match b with
    | ⟨0, _⟩ => rfl
    | ⟨1, _⟩ => exact absurd rfl hb
  · rfl

theorem lhs_pay7_0 (i : S1024x24.Idx) (q : dot_S1024x2048_S2048x24_S1024x24_1_0_0_1_n_n.contr.Idx) :
    (dot_S1024x2048_S2048x24_S1024x24_1_0_0_1_n_n.lhsIdx i q 0).val = (i 0).val := by
  unfold DotDims.lhsIdx
  rw [dif_neg (show ¬(0 : Fin S1024x2048.rank) ∈ dot_S1024x2048_S2048x24_S1024x24_1_0_0_1_n_n.lhsBatch by decide),
    dif_pos (show (0 : Fin S1024x2048.rank) ∈ dot_S1024x2048_S2048x24_S1024x24_1_0_0_1_n_n.lhsNonContracting by decide)]
  rfl

theorem lhs_pay7_1 (i : S1024x24.Idx) (q : dot_S1024x2048_S2048x24_S1024x24_1_0_0_1_n_n.contr.Idx) :
    (dot_S1024x2048_S2048x24_S1024x24_1_0_0_1_n_n.lhsIdx i q 1).val = (q ⟨0, by decide⟩).val :=
  dot_S1024x2048_S2048x24_S1024x24_1_0_0_1_n_n.lhsIdx_val_of_single rfl i q

theorem rhs_pay7_0 (i : S1024x24.Idx) (q : dot_S1024x2048_S2048x24_S1024x24_1_0_0_1_n_n.contr.Idx) :
    (dot_S1024x2048_S2048x24_S1024x24_1_0_0_1_n_n.rhsIdx i q 0).val = (q ⟨0, by decide⟩).val :=
  dot_S1024x2048_S2048x24_S1024x24_1_0_0_1_n_n.rhsIdx_val_of_single rfl i q

theorem rhs_pay7_1 (i : S1024x24.Idx) (q : dot_S1024x2048_S2048x24_S1024x24_1_0_0_1_n_n.contr.Idx) :
    (dot_S1024x2048_S2048x24_S1024x24_1_0_0_1_n_n.rhsIdx i q 1).val = (i 1).val := by
  unfold DotDims.rhsIdx
  rw [dif_neg (show ¬(1 : Fin S2048x24.rank) ∈ dot_S1024x2048_S2048x24_S1024x24_1_0_0_1_n_n.rhsBatch by decide),
    dif_pos (show (1 : Fin S2048x24.rank) ∈ dot_S1024x2048_S2048x24_S1024x24_1_0_0_1_n_n.rhsNonContracting by decide)]
  rfl

theorem pay7_apply (c : Fin 1024) (q : Fin 24) :
    k1_pay7 (F := Ideal) o x ds cs (ix2 c q) = ∑ n : Fin 2048, compHot cs (ix2 c n) * rhsMat o x ds (ix2 n q) := by
  rw [pay7_eq]
  refine (Ideal.matmul_constant_zero_apply dot_S1024x2048_S2048x24_S1024x24_1_0_0_1_n_n none
    (truncf .bf16 (compHot cs) bitsLt_bf16_f32) (rhsMat o x ds) (ix2 c q)).trans ?_
  rw [← Equiv.sum_comp (contrEquiv1 dot_S1024x2048_S2048x24_S1024x24_1_0_0_1_n_n 2048 rfl rfl).symm]
  refine Finset.sum_congr rfl fun n _ => ?_
  have hk := contrEquiv1_symm_val dot_S1024x2048_S2048x24_S1024x24_1_0_0_1_n_n 2048 rfl rfl n
  have el : dot_S1024x2048_S2048x24_S1024x24_1_0_0_1_n_n.lhsIdx (ix2 c q)
      ((contrEquiv1 dot_S1024x2048_S2048x24_S1024x24_1_0_0_1_n_n 2048 rfl rfl).symm n) = ix2 c n :=
    funext fun a => Fin.ext (by
      match a with
      | ⟨0, _⟩ => exact lhs_pay7_0 _ _
      | ⟨1, _⟩ => exact (lhs_pay7_1 _ _).trans hk)
  have er : dot_S1024x2048_S2048x24_S1024x24_1_0_0_1_n_n.rhsIdx (ix2 c q)
      ((contrEquiv1 dot_S1024x2048_S2048x24_S1024x24_1_0_0_1_n_n 2048 rfl rfl).symm n) = ix2 n q :=
    funext fun a => Fin.ext (by
      match a with
      | ⟨0, _⟩ => exact (rhs_pay7_0 _ _).trans hk
      | ⟨1, _⟩ => exact rhs_pay7_1 _ _)
  rw [el, er]
  rfl

theorem hot_mul_hot (A B : Prop) [Decidable A] [Decidable B] :
    (if A then (1 : EReal) else 0) * (if B then (1 : EReal) else 0) = if A ∧ B then (1 : EReal) else 0 := by
  by_cases hA : A
  · by_cases hB : B
    · rw [if_pos hA, if_pos hB, if_pos ⟨hA, hB⟩, mul_one]
    · rw [if_pos hA, if_neg hB, if_neg (show ¬(A ∧ B) from fun h => hB h.2), mul_zero]
  · rw [if_neg hA, if_neg (show ¬(A ∧ B) from fun h => hA h.1), zero_mul]

theorem hot_mul_val (A B : Prop) [Decidable A] [Decidable B] (w : EReal) :
    (if A then (1 : EReal) else 0) * (w * if B then (1 : EReal) else 0) = if A ∧ B then w else 0 := by
  by_cases hA : A
  · by_cases hB : B
    · rw [if_pos hA, if_pos hB, if_pos ⟨hA, hB⟩, mul_one, one_mul]
    · rw [if_pos hA, if_neg hB, if_neg (show ¬(A ∧ B) from fun h => hB h.2), mul_zero, mul_zero]
  · rw [if_neg hA, if_neg (show ¬(A ∧ B) from fun h => hA h.1), zero_mul]

theorem real_hot_sub_self (r : ℝ) (B : Prop) [Decidable B] :
    ((r : EReal) * if B then (1 : EReal) else 0) - ((r : EReal) * if B then (1 : EReal) else 0) = 0 := by
  by_cases h : B
  · rw [if_pos h, mul_one, ← EReal.coe_sub, sub_self, EReal.coe_zero]
  · rw [if_neg h, mul_zero, sub_zero]

theorem pay9_apply (o : Vec Ideal S1x512 .f32) (x : Vec Ideal S2048x512 .f32) (ds cs : Vec Ideal S2048 .i32)
    (acc : Vec Ideal S1024x8 .f32) (cc : Fin 1024) (d : Fin 8) :
    k1_pay9 (F := Ideal) o x ds cs acc (Cert.Spec.tIx cc d)
      = acc (Cert.Spec.tIx cc d)
        + ∑ n : Fin 2048, if (cs (ix1 n)).toNat = cc.val ∧ (ds (ix1 n)).toNat = d.val then (1 : EReal) else 0 := by
  have hs : extractStridedSlice S1024x8 ![0, 0] (k1_pay7 (F := Ideal) o x ds cs) slices_S1024x24_o0_0_S1024x8
      (Cert.Spec.tIx cc d) = k1_pay7 (F := Ideal) o x ds cs (ix2 cc (⟨d.val, by omega⟩ : Fin 24)) :=
    extractStridedSlice_apply _ _ _ _ _ (fun a => by
      match a with
      | ⟨0, _⟩ => exact (Nat.zero_add _).symm
      | ⟨1, _⟩ => exact (Nat.zero_add _).symm)
  show acc (Cert.Spec.tIx cc d) + extractStridedSlice S1024x8 ![0, 0] (k1_pay7 (F := Ideal) o x ds cs)
    slices_S1024x24_o0_0_S1024x8 (Cert.Spec.tIx cc d) = _
  rw [hs, pay7_apply]
  refine congrArg (acc (Cert.Spec.tIx cc d) + ·) (Finset.sum_congr rfl fun n _ => ?_)
  rw [compHot_apply, rhsMat_apply0, doseHot_apply]
  exact hot_mul_hot _ _

theorem pay8_apply (o : Vec Ideal S1x512 .f32) (x : Vec Ideal S2048x512 .f32) (ds cs : Vec Ideal S2048 .i32)
    (cc : Fin 1024) (d : Fin 8)
    (hreal : ∀ n : Fin 2048, ∃ r : ℝ, (1 : EReal) - ∑ k : Fin 512, x (ix2 n k) * o (Cert.Spec.rIx k) = (r : EReal)) :
    k1_pay8 (F := Ideal) o x ds cs (Cert.Spec.tIx cc d)
      = ∑ n : Fin 2048, if (cs (ix1 n)).toNat = cc.val ∧ (ds (ix1 n)).toNat = d.val
          then (1 : EReal) - ∑ k : Fin 512, x (ix2 n k) * o (Cert.Spec.rIx k) else 0 := by
  have hs1 : extractStridedSlice S1024x8 ![0, 8] (k1_pay7 (F := Ideal) o x ds cs) slices_S1024x24_o0_8_S1024x8
      (Cert.Spec.tIx cc d) = k1_pay7 (F := Ideal) o x ds cs (ix2 cc (⟨8 + d.val, by omega⟩ : Fin 24)) :=
    extractStridedSlice_apply _ _ _ _ _ (fun a => by
      match a with
      | ⟨0, _⟩ => exact (Nat.zero_add _).symm
      | ⟨1, _⟩ => rfl)
  have hs2 : extractStridedSlice S1024x8 ![0, 16] (k1_pay7 (F := Ideal) o x ds cs) slices_S1024x24_o0_16_S1024x8
      (Cert.Spec.tIx cc d) = k1_pay7 (F := Ideal) o x ds cs (ix2 cc (⟨16 + d.val, by omega⟩ : Fin 24)) :=
    extractStridedSlice_apply _ _ _ _ _ (fun a => by
      match a with
      | ⟨0, _⟩ => exact (Nat.zero_add _).symm
      | ⟨1, _⟩ => rfl)
  show extractStridedSlice S1024x8 ![0, 8] (k1_pay7 (F := Ideal) o x ds cs) slices_S1024x24_o0_8_S1024x8 (Cert.Spec.tIx cc d)
    + extractStridedSlice S1024x8 ![0, 16] (k1_pay7 (F := Ideal) o x ds cs) slices_S1024x24_o0_16_S1024x8
      (Cert.Spec.tIx cc d) = _
  rw [hs1, hs2, pay7_apply, pay7_apply]

  have hz : ∑ n : Fin 2048, compHot cs (ix2 cc n) * rhsMat o x ds (ix2 n (⟨16 + d.val, by omega⟩ : Fin 24)) = 0 := by
    refine Finset.sum_eq_zero fun n _ => ?_
    obtain ⟨r, hr⟩ := hreal n
    rw [rhsMat_apply2, distHot_apply, hr, real_hot_sub_self, mul_zero]
  rw [hz, add_zero]
  refine Finset.sum_congr rfl fun n _ => ?_
  rw [compHot_apply, rhsMat_apply1, distHot_apply]
  exact hot_mul_val _ _ _

end Cert.KernelIdeal.Region1Block

end
-- ==== Proof.KernelIdealRegion1Value.lean ====
import proofs.«421787_j43851616092489_3_alg».proof.Proof.KernelIdealRegion1
import proofs.«421787_j43851616092489_3_alg».proof.Proof.KernelIdealRegion1Block
import proofs.«421787_j43851616092489_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem idx0_eq : ∀ (t : Fin cfg1.N) (a : Fin 2), (cfg1.win 0).index t a * (cfg1.win 0).size a = (![2048 * t.val, 0] : Fin 2 → Nat) a := by
  decide +kernel
theorem idx1_eq : ∀ (t : Fin cfg1.N) (a : Fin 1), (cfg1.win 1).index t a * (cfg1.win 1).size a = (![2048 * t.val] : Fin 1 → Nat) a := by
  decide +kernel
theorem idx2_eq : ∀ (t : Fin cfg1.N) (a : Fin 1), (cfg1.win 2).index t a * (cfg1.win 2).size a = (![2048 * t.val] : Fin 1 → Nat) a := by
  decide +kernel
theorem idx3_eq : ∀ (t : Fin cfg1.N) (a : Fin 2), (cfg1.win 3).index t a * (cfg1.win 3).size a = (![0, 0] : Fin 2 → Nat) a := by
  decide +kernel
theorem idx4_eq : ∀ (t : Fin cfg1.N) (a : Fin 3), (cfg1.win 4).index t a * (cfg1.win 4).size a = (![t.val / 64, 0, 0] : Fin 3 → Nat) a := by
  decide +kernel
theorem idx5_eq : ∀ (t : Fin cfg1.N) (a : Fin 3), (cfg1.win 5).index t a * (cfg1.win 5).size a = (![t.val / 64, 0, 0] : Fin 3 → Nat) a := by
  decide +kernel

theorem emb0_val (t : Fin cfg1.N) (y : ((cfg1.win 0).xblock (cfg1.grid.coords t)).Idx) (a : Fin 2) :
    (((cfg1.win 0).blk t).view.emb y a).val = (![2048 * t.val, 0] : Fin 2 → Nat) a + (y a).val := by
  show (cfg1.win 0).index t a * (cfg1.win 0).size a + 1 * (y a).val = _
  rw [idx0_eq]; omega
theorem emb1_val (t : Fin cfg1.N) (y : ((cfg1.win 1).xblock (cfg1.grid.coords t)).Idx) (a : Fin 1) :
    (((cfg1.win 1).blk t).view.emb y a).val = (![2048 * t.val] : Fin 1 → Nat) a + (y a).val := by
  show (cfg1.win 1).index t a * (cfg1.win 1).size a + 1 * (y a).val = _
  rw [idx1_eq]; omega
theorem emb2_val (t : Fin cfg1.N) (y : ((cfg1.win 2).xblock (cfg1.grid.coords t)).Idx) (a : Fin 1) :
    (((cfg1.win 2).blk t).view.emb y a).val = (![2048 * t.val] : Fin 1 → Nat) a + (y a).val := by
  show (cfg1.win 2).index t a * (cfg1.win 2).size a + 1 * (y a).val = _
  rw [idx2_eq]; omega
theorem emb3_val (t : Fin cfg1.N) (y : ((cfg1.win 3).xblock (cfg1.grid.coords t)).Idx) (a : Fin 2) :
    (((cfg1.win 3).blk t).view.emb y a).val = (![0, 0] : Fin 2 → Nat) a + (y a).val := by
  show (cfg1.win 3).index t a * (cfg1.win 3).size a + 1 * (y a).val = _
  rw [idx3_eq]; omega
theorem emb4_val (t : Fin cfg1.N) (y : ((cfg1.win 4).xblock (cfg1.grid.coords t)).Idx) (a : Fin 3) :
    (((cfg1.win 4).blk t).view.emb y a).val = (![t.val / 64, 0, 0] : Fin 3 → Nat) a + (y a).val := by
  show (cfg1.win 4).index t a * (cfg1.win 4).size a + 1 * (y a).val = _
  rw [idx4_eq]; omega
theorem emb5_val (t : Fin cfg1.N) (y : ((cfg1.win 5).xblock (cfg1.grid.coords t)).Idx) (a : Fin 3) :
    (((cfg1.win 5).blk t).view.emb y a).val = (![t.val / 64, 0, 0] : Fin 3 → Nat) a + (y a).val := by
  show (cfg1.win 5).index t a * (cfg1.win 5).size a + 1 * (y a).val = _
  rw [idx5_eq]; omega

abbrev embArr (V : Entry Ideal) (c : Dev nD) : Cert.Spec.Emb.Idx → EReal := V c main_arg0
abbrev compArr (V : Entry Ideal) (c : Dev nD) : Cert.Spec.Lab.Idx → BitVec 32 := V c main_arg1
abbrev doseArr (V : Entry Ideal) (c : Dev nD) : Cert.Spec.Lab.Idx → BitVec 32 := V c main_arg2
abbrev dirArr (V : Entry Ideal) (c : Dev nD) : Cert.Spec.Row.Idx → EReal := V c main_v12

def rowAt (t : Fin cfg1.N) (n : Fin 2048) : Fin 262144 :=
  ⟨2048 * t.val + n.val, by have := lt_of_lt_of_eq t.isLt (show cfg1.N = 128 from N_1); omega⟩

theorem embBlk_apply (V : Entry Ideal) (c : Dev nD) (t : Fin cfg1.N) (n : Fin 2048) (k : Fin 512) :
    embBlk V c t (ix2 n k) = embArr V c (Cert.Spec.eIx (rowAt t n) k) := by
  show V c main_arg0 (((cfg1.win 0).blk t).view.emb (ix2 n k)) = V c main_arg0 _
  refine congrArg _ (funext fun a => Fin.ext ?_)
  rw [emb0_val]
  match a with
  | ⟨0, _⟩ => rfl
  | ⟨1, _⟩ => show 0 + k.val = k.val; omega
theorem compBlk_apply (V : Entry Ideal) (c : Dev nD) (t : Fin cfg1.N) (n : Fin 2048) :
    compBlk V c t (ix1 n) = compArr V c (Cert.Spec.lIx (rowAt t n)) := by
  show V c main_arg1 (((cfg1.win 1).blk t).view.emb (ix1 n)) = V c main_arg1 _
  refine congrArg _ (funext fun a => Fin.ext ?_)
  rw [emb1_val]
  match a with
  | ⟨0, _⟩ => rfl
theorem doseBlk_apply (V : Entry Ideal) (c : Dev nD) (t : Fin cfg1.N) (n : Fin 2048) :
    doseBlk V c t (ix1 n) = doseArr V c (Cert.Spec.lIx (rowAt t n)) := by
  show V c main_arg2 (((cfg1.win 2).blk t).view.emb (ix1 n)) = V c main_arg2 _
  refine congrArg _ (funext fun a => Fin.ext ?_)
  rw [emb2_val]
  match a with
  | ⟨0, _⟩ => rfl
theorem dirBlk_apply (V : Entry Ideal) (c : Dev nD) (t : Fin cfg1.N) (k : Fin 512) :
    dirBlk V c t (Cert.Spec.rIx k) = dirArr V c (Cert.Spec.rIx k) := by
  show V c main_v12 (((cfg1.win 3).blk t).view.emb (Cert.Spec.rIx k)) = V c main_v12 _
  refine congrArg _ (funext fun a => Fin.ext ?_)
  rw [emb3_val]
  match a with
  | ⟨0, _⟩ => rfl
  | ⟨1, _⟩ => show 0 + k.val = k.val; omega

theorem pay5_apply (i : S1024x8.Idx) : k1_pay5 (F := Ideal) i = 0 := by
  unfold k1_pay5; rw [shapeCast_self]; exact Ideal.ofBits_zero_f32
theorem pay6_apply (i : S1024x8.Idx) : k1_pay6 (F := Ideal) i = 0 := by
  unfold k1_pay6; rw [shapeCast_self]; exact Ideal.ofBits_zero_f32
theorem pay1_eq (v : FVec Ideal S1024x8 .f32) : k1_pay1 v = v := by
  unfold k1_pay1; exact shapeCast_self _ _
theorem pay2_apply (a b : FVec Ideal S1024x8 .f32) (i : S1024x8.Idx) : k1_pay2 a b i = b i + a i := by
  unfold k1_pay2; rw [shapeCast_self]; rfl

def blkCnt (V : Entry Ideal) (c : Dev nD) (cc : Fin 1024) (d : Fin 8) (t : Fin cfg1.N) : EReal :=
  ∑ n : Fin 2048, if Cert.Spec.hit (compArr V c) (doseArr V c) cc d (rowAt t n) then (1 : EReal) else 0
def blkTot (V : Entry Ideal) (c : Dev nD) (cc : Fin 1024) (d : Fin 8) (t : Fin cfg1.N) : EReal :=
  ∑ n : Fin 2048, if Cert.Spec.hit (compArr V c) (doseArr V c) cc d (rowAt t n)
    then Cert.Spec.dist (embArr V c) (dirArr V c) (rowAt t n) else 0

theorem cnt_step_val (V : Entry Ideal) (c : Dev nD) (t : Fin cfg1.N) (cc : Fin 1024) (d : Fin 8) (acc : Vec Ideal S1024x8 .f32) :
    k1_pay1 (k1_pay9 (dirBlk V c t) (embBlk V c t) (doseBlk V c t) (compBlk V c t) acc) (Cert.Spec.tIx cc d)
      = acc (Cert.Spec.tIx cc d) + blkCnt V c cc d t := by
  rw [pay1_eq, Region1Block.pay9_apply]
  refine congrArg _ (Finset.sum_congr rfl fun n _ => ?_)
  rw [compBlk_apply, doseBlk_apply]
  exact if_congr Iff.rfl rfl rfl

theorem tot_step_val (V : Entry Ideal) (c : Dev nD) (t : Fin cfg1.N) (cc : Fin 1024) (d : Fin 8) (acc : Vec Ideal S1024x8 .f32)
    (hreal : ∀ n : Fin 262144, ∃ r : ℝ, Cert.Spec.dist (embArr V c) (dirArr V c) n = (r : EReal)) :
    k1_pay2 (k1_pay8 (dirBlk V c t) (embBlk V c t) (doseBlk V c t) (compBlk V c t)) acc (Cert.Spec.tIx cc d)
      = acc (Cert.Spec.tIx cc d) + blkTot V c cc d t := by
  have hd : ∀ n : Fin 2048, (1 : EReal) - ∑ k : Fin 512, embBlk V c t (ix2 n k) * dirBlk V c t (Cert.Spec.rIx k)
      = Cert.Spec.dist (embArr V c) (dirArr V c) (rowAt t n) := fun n => by
    unfold Cert.Spec.dist
    refine congrArg _ (Finset.sum_congr rfl fun k _ => ?_)
    rw [embBlk_apply, dirBlk_apply]
  rw [pay2_apply, Region1Block.pay8_apply _ _ _ _ _ _ (fun n => by rw [hd n]; exact hreal _)]
  refine congrArg _ (Finset.sum_congr rfl fun n _ => ?_)
  rw [compBlk_apply, doseBlk_apply, hd n]
  exact if_congr Iff.rfl rfl rfl

def cntOf (V : Entry Ideal) (c : Dev nD) (cc : Fin 1024) (d : Fin 8) (s : ℕ) : EReal :=
  if h : s < cfg1.N then blkCnt V c cc d ⟨s, h⟩ else 0
def totOf (V : Entry Ideal) (c : Dev nD) (cc : Fin 1024) (d : Fin 8) (s : ℕ) : EReal :=
  if h : s < cfg1.N then blkTot V c cc d ⟨s, h⟩ else 0

theorem cntOf_pos (V : Entry Ideal) (c : Dev nD) (cc : Fin 1024) (d : Fin 8) (s : ℕ) (h : s < cfg1.N) :
    cntOf V c cc d s = blkCnt V c cc d ⟨s, h⟩ := by unfold cntOf; exact dif_pos h
theorem totOf_pos (V : Entry Ideal) (c : Dev nD) (cc : Fin 1024) (d : Fin 8) (s : ℕ) (h : s < cfg1.N) :
    totOf V c cc d s = blkTot V c cc d ⟨s, h⟩ := by unfold totOf; exact dif_pos h

theorem cnt_run (V : Entry Ideal) (c : Dev nD) (cc : Fin 1024) (d : Fin 8) (q : ℕ) :
    ∀ (j : ℕ) (_ : j < 64) (h : 64 * q + j < cfg1.N),
      cntAt V c (64 * q + j) h (Cert.Spec.tIx cc d) = ∑ s ∈ Finset.range (j + 1), cntOf V c cc d (64 * q + s)
  | 0, _, h => by
    have e : cntAt V c (64 * q + 0) h = _ := cntAt_reset V c ⟨64 * q + 0, h⟩ (by show (64 * q + 0) % 64 = 0; omega)
    rw [e, cnt_step_val, pay5_apply, zero_add, Finset.sum_range_one]
    exact (cntOf_pos V c cc d _ h).symm
  | j + 1, hj, h => by
    have hne : ¬ (64 * q + (j + 1)) % 64 = 0 := by omega
    have e : cntAt V c (64 * q + (j + 1)) h
        = k1_pay1 (k1_pay9 (dirBlk V c ⟨64 * q + (j + 1), h⟩) (embBlk V c ⟨64 * q + (j + 1), h⟩) (doseBlk V c ⟨64 * q + (j + 1), h⟩) (compBlk V c ⟨64 * q + (j + 1), h⟩)
            (cntAt V c (64 * q + j) (Nat.lt_of_succ_lt h))) := cntAt_step V c ⟨64 * q + (j + 1), h⟩ hne
    rw [e, cnt_step_val, cnt_run V c cc d q j (Nat.lt_of_succ_lt hj) (Nat.lt_of_succ_lt h), Finset.sum_range_succ _ (j + 1)]
    exact congrArg _ (cntOf_pos V c cc d _ h).symm

theorem tot_run (V : Entry Ideal) (c : Dev nD) (cc : Fin 1024) (d : Fin 8)
    (hreal : ∀ n : Fin 262144, ∃ r : ℝ, Cert.Spec.dist (embArr V c) (dirArr V c) n = (r : EReal)) (q : ℕ) :
    ∀ (j : ℕ) (_ : j < 64) (h : 64 * q + j < cfg1.N),
      totAt V c (64 * q + j) h (Cert.Spec.tIx cc d) = ∑ s ∈ Finset.range (j + 1), totOf V c cc d (64 * q + s)
  | 0, _, h => by
    have e : totAt V c (64 * q + 0) h = _ := totAt_reset V c ⟨64 * q + 0, h⟩ (by show (64 * q + 0) % 64 = 0; omega)
    rw [e, tot_step_val V c _ cc d _ hreal, pay6_apply, zero_add, Finset.sum_range_one]
    exact (totOf_pos V c cc d _ h).symm
  | j + 1, hj, h => by
    have hne : ¬ (64 * q + (j + 1)) % 64 = 0 := by omega
    have e : totAt V c (64 * q + (j + 1)) h
        = k1_pay2 (k1_pay8 (dirBlk V c ⟨64 * q + (j + 1), h⟩) (embBlk V c ⟨64 * q + (j + 1), h⟩) (doseBlk V c ⟨64 * q + (j + 1), h⟩) (compBlk V c ⟨64 * q + (j + 1), h⟩))
            (totAt V c (64 * q + j) (Nat.lt_of_succ_lt h)) := totAt_step V c ⟨64 * q + (j + 1), h⟩ hne
    rw [e, tot_step_val V c _ cc d _ hreal, tot_run V c cc d hreal q j (Nat.lt_of_succ_lt hj) (Nat.lt_of_succ_lt h), Finset.sum_range_succ _ (j + 1)]
    exact congrArg _ (totOf_pos V c cc d _ h).symm

theorem sum_blocks (g : Fin 262144 → EReal) (q : Fin 2) :
    ∑ s ∈ Finset.range 64, (if h : 64 * q.val + s < cfg1.N then ∑ n : Fin 2048, g (rowAt ⟨64 * q.val + s, h⟩ n) else 0)
      = ∑ r : Fin 131072, g (Cert.Spec.rowOf q r) := by
  have hN : cfg1.N = 128 := N_1
  rw [Finset.sum_range]
  show _ = ∑ r : Fin (64 * 2048), g (Cert.Spec.rowOf q r)
  rw [← Equiv.sum_comp (finProdFinEquiv (m := 64) (n := 2048)) (fun r : Fin (64 * 2048) => g (Cert.Spec.rowOf q r)), Fintype.sum_prod_type]
  refine Finset.sum_congr rfl fun s _ => ?_
  have hs : 64 * q.val + s.val < cfg1.N := by have := s.isLt; have := q.isLt; omega
  rw [dif_pos hs]
  refine Finset.sum_congr rfl fun n _ => ?_
  refine congrArg g (Fin.ext ?_)
  show 2048 * (64 * q.val + s.val) + n.val = q.val * 131072 + (n.val + 2048 * s.val)
  omega

theorem cnt_half (V : Entry Ideal) (c : Dev nD) (cc : Fin 1024) (d : Fin 8) (q : Fin 2) (h : 64 * q.val + 63 < cfg1.N) :
    cntAt V c (64 * q.val + 63) h (Cert.Spec.tIx cc d) = Cert.Spec.cntHalf (compArr V c) (doseArr V c) q cc d := by
  rw [cnt_run V c cc d q.val 63 (by omega) h]
  unfold Cert.Spec.cntHalf cntOf blkCnt
  exact sum_blocks (fun n => if Cert.Spec.hit (compArr V c) (doseArr V c) cc d n then (1 : EReal) else 0) q

theorem tot_half (V : Entry Ideal) (c : Dev nD) (cc : Fin 1024) (d : Fin 8)
    (hreal : ∀ n : Fin 262144, ∃ r : ℝ, Cert.Spec.dist (embArr V c) (dirArr V c) n = (r : EReal))
    (q : Fin 2) (h : 64 * q.val + 63 < cfg1.N) :
    totAt V c (64 * q.val + 63) h (Cert.Spec.tIx cc d)
      = Cert.Spec.totHalf (embArr V c) (dirArr V c) (compArr V c) (doseArr V c) q cc d := by
  rw [tot_run V c cc d hreal q.val 63 (by omega) h]
  unfold Cert.Spec.totHalf totOf blkTot
  exact sum_blocks (fun n => if Cert.Spec.hit (compArr V c) (doseArr V c) cc d n
    then Cert.Spec.dist (embArr V c) (dirArr V c) n else 0) q

def cntArr (V : Entry Ideal) (c : Dev nD) : Cert.Spec.HalfTab.Idx → EReal := fun i =>
  cntAt V c (64 * (i 0).val + 63) (by have h2 : (i 0).val < 2 := (i 0).isLt; exact lt_of_lt_of_eq (by omega) N_1.symm)
    (Cert.Spec.tIx (i 1) (i 2))
def totArr (V : Entry Ideal) (c : Dev nD) : Cert.Spec.HalfTab.Idx → EReal := fun i =>
  totAt V c (64 * (i 0).val + 63) (by have h2 : (i 0).val < 2 := (i 0).isLt; exact lt_of_lt_of_eq (by omega) N_1.symm)
    (Cert.Spec.tIx (i 1) (i 2))

theorem cntArr_apply_of (V : Entry Ideal) (c : Dev nD) (i : Cert.Spec.HalfTab.Idx) (n : ℕ) (hn : n < cfg1.N) (j : S1024x8.Idx)
    (h0 : 64 * (i 0).val + 63 = n) (h1 : (i 1).val = (j 0).val) (h2 : (i 2).val = (j 1).val) :
    cntArr V c i = cntAt V c n hn j := by
  subst h0; unfold cntArr
  refine congrArg _ (funext fun a => ?_)
  match a with
  | ⟨0, _⟩ => exact Fin.ext h1
  | ⟨1, _⟩ => exact Fin.ext h2
theorem totArr_apply_of (V : Entry Ideal) (c : Dev nD) (i : Cert.Spec.HalfTab.Idx) (n : ℕ) (hn : n < cfg1.N) (j : S1024x8.Idx)
    (h0 : 64 * (i 0).val + 63 = n) (h1 : (i 1).val = (j 0).val) (h2 : (i 2).val = (j 1).val) :
    totArr V c i = totAt V c n hn j := by
  subst h0; unfold totArr
  refine congrArg _ (funext fun a => ?_)
  match a with
  | ⟨0, _⟩ => exact Fin.ext h1
  | ⟨1, _⟩ => exact Fin.ext h2

theorem flushed4_eq (V : Entry Ideal) (c : Dev nD) (t : Fin cfg1.N) (hf : (cfg1.win 4).flush t = true) :
    (dat V c).flushed 4 t = ((cfg1.win 4).blk t).view.read (Elt Ideal) (cntArr V c) := by
  have h63 : t.val % 64 = 63 := (flush1_4 t).mp hf
  show (cfg1.win 4).cut (grid1.coords t) ((dat V c).after 4 t) = _
  rw [after_4]
  funext y
  show out4At V c t.val t.isLt y = cntArr V c (((cfg1.win 4).blk t).view.emb y)
  have hy0 : (y 0).val < 1 := (y 0).isLt
  have e0 := emb4_val t y 0
  have e1 := emb4_val t y 1
  have e2 := emb4_val t y 2
  rw [cntArr_apply_of V c _ t.val t.isLt (fun a => y a.succ)
    (by rw [e0]; show 64 * (t.val / 64 + (y 0).val) + 63 = t.val; omega)
    (by rw [e1]; show 0 + (y 1).val = (y 1).val; omega)
    (by rw [e2]; show 0 + (y 2).val = (y 2).val; omega)]
  unfold out4At k1_pay3
  exact shapeCast_addUnit_apply _ _ _ y
theorem flushed5_eq (V : Entry Ideal) (c : Dev nD) (t : Fin cfg1.N) (hf : (cfg1.win 5).flush t = true) :
    (dat V c).flushed 5 t = ((cfg1.win 5).blk t).view.read (Elt Ideal) (totArr V c) := by
  have h63 : t.val % 64 = 63 := (flush1_5 t).mp hf
  show (cfg1.win 5).cut (grid1.coords t) ((dat V c).after 5 t) = _
  rw [after_5]
  funext y
  show out5At V c t.val t.isLt y = totArr V c (((cfg1.win 5).blk t).view.emb y)
  have hy0 : (y 0).val < 1 := (y 0).isLt
  have e0 := emb5_val t y 0
  have e1 := emb5_val t y 1
  have e2 := emb5_val t y 2
  rw [totArr_apply_of V c _ t.val t.isLt (fun a => y a.succ)
    (by rw [e0]; show 64 * (t.val / 64 + (y 0).val) + 63 = t.val; omega)
    (by rw [e1]; show 0 + (y 1).val = (y 1).val; omega)
    (by rw [e2]; show 0 + (y 2).val = (y 2).val; omega)]
  unfold out5At k1_pay4
  exact shapeCast_addUnit_apply _ _ _ y

def lastOf (h : Fin 2) : Fin cfg1.N := ⟨64 * h.val + 63, by have := h.isLt; exact lt_of_lt_of_eq (by omega) N_1.symm⟩

theorem oIx_eq_emb4 (h : Fin 2) (cc : Fin 1024) (d : Fin 8) :
    Cert.Spec.oIx h cc d = ((cfg1.win 4).blk (lastOf h)).view.emb (ix3 (0 : Fin 1) cc d) := by
  funext a
  refine Fin.ext ?_
  rw [emb4_val]
  have := h.isLt
  match a with
  | ⟨0, _⟩ => show h.val = (64 * h.val + 63) / 64 + 0; omega
  | ⟨1, _⟩ => show cc.val = 0 + cc.val; omega
  | ⟨2, _⟩ => show d.val = 0 + d.val; omega
theorem oIx_eq_emb5 (h : Fin 2) (cc : Fin 1024) (d : Fin 8) :
    Cert.Spec.oIx h cc d = ((cfg1.win 5).blk (lastOf h)).view.emb (ix3 (0 : Fin 1) cc d) := by
  funext a
  refine Fin.ext ?_
  rw [emb5_val]
  have := h.isLt
  match a with
  | ⟨0, _⟩ => show h.val = (64 * h.val + 63) / 64 + 0; omega
  | ⟨1, _⟩ => show cc.val = 0 + cc.val; omega
  | ⟨2, _⟩ => show d.val = 0 + d.val; omega

theorem arr_cnt (V : Entry Ideal) (c : Dev nD) (h : Fin 2) (cc : Fin 1024) (d : Fin 8) :
    (dat V c).arrAt 4 cfg1.N (Cert.Spec.oIx h cc d) = Cert.Spec.cntHalf (V c main_arg1) (V c main_arg2) h cc d := by
  have hf : (cfg1.win 4).flush (lastOf h) = true := (flush1_4 (lastOf h)).mpr (by show (64 * h.val + 63) % 64 = 63; omega)
  have hm : Cert.Spec.oIx h cc d ∈ ((cfg1.win 4).blk (lastOf h)).view.set := by
    rw [oIx_eq_emb4]; exact ((cfg1.win 4).blk (lastOf h)).view.emb_mem_set _
  rw [(dat V c).arrAt_apply_of_mem 4 (cntArr V c) (flushed4_eq V c) cfg1.N (lastOf h) _ (lastOf h).isLt hf hm]
  exact cnt_half V c cc d h (lastOf h).isLt

theorem arr_tot (V : Entry Ideal) (c : Dev nD)
    (hreal : ∀ n : Fin 262144, ∃ r : ℝ, Cert.Spec.dist (V c main_arg0) (V c main_v12) n = (r : EReal))
    (h : Fin 2) (cc : Fin 1024) (d : Fin 8) :
    (dat V c).arrAt 5 cfg1.N (Cert.Spec.oIx h cc d)
      = Cert.Spec.totHalf (V c main_arg0) (V c main_v12) (V c main_arg1) (V c main_arg2) h cc d := by
  have hf : (cfg1.win 5).flush (lastOf h) = true := (flush1_5 (lastOf h)).mpr (by show (64 * h.val + 63) % 64 = 63; omega)
  have hm : Cert.Spec.oIx h cc d ∈ ((cfg1.win 5).blk (lastOf h)).view.set := by
    rw [oIx_eq_emb5]; exact ((cfg1.win 5).blk (lastOf h)).view.emb_mem_set _
  rw [(dat V c).arrAt_apply_of_mem 5 (totArr V c) (flushed5_eq V c) cfg1.N (lastOf h) _ (lastOf h).isLt hf hm]
  exact tot_half V c cc d hreal h (lastOf h).isLt

end Cert.KernelIdeal.Region1

end
-- ==== Proof.RefValueScatter.lean ====
import Idealize.ShloMosaic.PureOps.Ideal
import Idealize.ShloMosaic.PureOps.Ideal.Laws
import Idealize.ShloMosaic.Lib.ValueIdx
import Idealize.ShloMosaic.Lib.ValueIdxRank1
import proofs.«421787_j43851616092489_3_alg».proof.Proof.Spec

noncomputable section

namespace Cert.ReferenceIdeal.RefValue

open Idealize.ShloMosaic Idealize.ShloMosaic.ValueIdx

abbrev Seg : Shape := ⟨1, ![8192]⟩
abbrev Col : Shape := ⟨2, ![262144, 1]⟩

abbrev sd (wf : ScatterDims.WF Seg Col Spec.Lab [] [0] [0] 1) : ScatterDims Seg Col Spec.Lab :=
  ⟨[], [0], [0], 1, wf⟩

variable (wf : ScatterDims.WF Seg Col Spec.Lab [] [0] [0] 1)

theorem sd_window (j : Spec.Lab.Idx) (a : Fin Seg.rank) : (sd wf).window j a = 0 := by
  unfold ScatterDims.window
  rw [dif_neg]
  obtain rfl : a = 0 := Fin.eq_zero a
  show (0 : Fin 1) ∉ Seg.kept [0]
  decide

theorem sd_siIdx (j : Spec.Lab.Idx) (c : Fin (sd wf).scatterDimsToOperandDims.length) :
    (sd wf).siIdx j c = ix2 (j 0) 0 := by
  funext b
  match b with
  | ⟨0, _⟩ => rfl
  | ⟨1, _⟩ =>
    have hlt : c.val < 1 := c.isLt
    have hc : c = ⟨0, Nat.zero_lt_one⟩ := Fin.ext (by show c.val = 0; omega)
    subst hc
    rfl

theorem sd_start (idx : IVec Col 32) (j : Spec.Lab.Idx) (a : Fin Seg.rank) :
    (sd wf).start j idx a = (idx (ix2 (j 0) 0)).toInt := by
  obtain rfl : a = 0 := Fin.eq_zero a
  unfold ScatterDims.start
  rw [dif_pos (show (0 : Fin Seg.rank) ∈ (sd wf).scatterDimsToOperandDims from List.mem_singleton.2 rfl)]
  exact congrArg (fun t => (idx t).toInt) (sd_siIdx wf j _)

theorem sd_resultIdx?_iff (idx : IVec Col 32) (j : Spec.Lab.Idx) (i : Seg.Idx) :
    (sd wf).resultIdx? j idx = some i ↔ (idx (ix2 (j 0) 0)).toInt = ((i 0).val : Int) := by
  unfold ScatterDims.resultIdx?
  simp only [sd_start, sd_window]
  have hi : (i 0).val < 8192 := (i 0).isLt
  split_ifs with h
  · rw [Option.some.injEq]
    constructor
    · intro he
      have h0 := h 0
      rw [← he]
      simp only [Nat.cast_zero, add_zero] at h0 ⊢
      omega
    · intro he
      funext a
      obtain rfl : a = 0 := Fin.eq_zero a
      refine Fin.ext ?_
      simp only [Nat.cast_zero, add_zero, he, Int.toNat_natCast]
  · constructor
    · intro he; cases he
    · intro he
      exfalso
      apply h
      intro a
      obtain rfl : a = 0 := Fin.eq_zero a
      rw [he]
      show (0 : Int) ≤ ((i 0).val : Int) + ((0 : Nat) : Int) ∧ ((i 0).val : Int) + ((0 : Nat) : Int) < ((8192 : Nat) : Int)
      omega

theorem scatterAdd_apply (x : Seg.Idx → EReal) (idx : IVec Col 32) (upd : Spec.Lab.Idx → EReal) (i : Seg.Idx) :
    Ideal.hostScatterAdd (sd wf) x idx upd i
      = x i + ∑ n : Fin 262144, if (idx (ix2 n 0)).toInt = ((i 0).val : Int) then upd (Spec.lIx n) else 0 := by
  unfold Ideal.hostScatterAdd
  refine congrArg (x i + ·) ?_
  rw [Finset.sum_filter, ← Equiv.sum_comp (idxEquiv1 (n := 262144)).symm]
  refine Finset.sum_congr rfl fun n _ => ?_
  have h1 : (idxEquiv1 (n := 262144)).symm n = Spec.lIx n := funext fun a => match a with | ⟨0, _⟩ => rfl
  simp only [sd_resultIdx?_iff, h1]

theorem seg_word_iff (a b : BitVec 32) (ha : a.toNat < 1024) (hb : b.toNat < 8) (c : Fin 1024) (d : Fin 8) :
    (IntOp.addi (IntOp.muli a 8#32) b).toInt = ((c.val * 8 + d.val : Nat) : Int) ↔ a.toNat = c.val ∧ b.toNat = d.val := by
  have hc : c.val < 1024 := c.isLt
  have hd : d.val < 8 := d.isLt
  unfold IntOp.addi IntOp.muli
  rw [BitVec.toInt_eq_toNat_cond]
  simp only [BitVec.toNat_add, BitVec.toNat_mul, BitVec.toNat_ofNat]
  omega

theorem ofBits_one_f32 : Ideal.ofBits .f32 0x3F800000#32 = 1 := by
  simp [Ideal.ofBits, Ideal.ieee, -EReal.coe_mul]; norm_num

end Cert.ReferenceIdeal.RefValue
-- ==== Proof.RefValue.lean ====
import proofs.«421787_j43851616092489_3_alg».proof.Proof.RefRun
import proofs.«421787_j43851616092489_3_alg».proof.Proof.Spec
import proofs.«421787_j43851616092489_3_alg».proof.Proof.RefValueScatter

noncomputable section

namespace Cert.ReferenceIdeal.RefValue

open Cert.ReferenceIdeal Cert.ReferenceIdeal.Gen Idealize.ShloMosaic Idealize.ShloMosaic.ValueIdx

variable (x0 : FVec Ideal S262144x512 .f32) (x1 x2 : IVec S262144 32)

theorem colsum_eq (k : Fin 512) : Stage.val_main_v1 (F := Ideal) x0 (Spec.rIx k) = Spec.colsum x0 k := by
  rw [Stage.val_main_v1_apply, Stage.val_main_v0_apply, Stage.val_main_cst_apply]
  show Ideal.ofBits .f32 0x00000000#32 + _ = _
  rw [Ideal.ofBits_zero_f32, zero_add]
  unfold Spec.colsum
  refine Finset.sum_congr rfl fun n _ => congrArg x0 (funext fun a => ?_)
  match a with
  | ⟨0, _⟩ => rfl
  | ⟨1, _⟩ => rfl

theorem dist_eq (n : Fin 262144) :
    Stage.val_main_v13 (F := Ideal) x0 (Spec.lIx n) = Spec.dist x0 (Stage.val_main_v8 (F := Ideal) x0) n := by
  rw [Stage.val_main_v13_apply, Stage.val_main_v12_apply, Stage.val_main_cst_3_apply, Stage.val_main_v11_apply,
    Stage.val_main_cst_2_apply]
  show Ideal.ofBits .f32 0x3F800000#32 - (Ideal.ofBits .f32 0x00000000#32 + _) = _
  rw [ofBits_one_f32, Ideal.ofBits_zero_f32, zero_add]
  unfold Spec.dist
  refine congrArg (1 - ·) (Finset.sum_congr rfl fun k _ => ?_)
  rw [Stage.val_main_v10_apply, Stage.val_main_v9_apply]
  show x0 _ * _ = _
  congr 1

section Labels

variable (hc : ∀ n : Fin 262144, (x1 (Spec.lIx n)).toNat < 1024) (hd : ∀ n : Fin 262144, (x2 (Spec.lIx n)).toNat < 8)
include hc hd

theorem word18_iff (c : Fin 1024) (d : Fin 8) (n : Fin 262144) :
    (Stage.val_main_v18 (F := Ideal) x1 x2 (ix2 n 0)).toInt = ((c.val * 8 + d.val : Nat) : Int)
      ↔ Spec.hit x1 x2 c d n := by
  rw [Stage.val_main_v18_apply, Stage.val_main_v16_apply, Stage.val_main_v15_apply, Stage.val_main_v14_apply,
    Stage.val_main_c_apply]
  have hix : Stage.idx_main_v18 (ix2 n 0) = Spec.lIx n := funext fun a => match a with | ⟨0, _⟩ => rfl
  rw [hix]
  exact seg_word_iff _ _ (hc n) (hd n) c d

theorem word22_iff (c : Fin 1024) (d : Fin 8) (n : Fin 262144) :
    (Stage.val_main_v22 (F := Ideal) x1 x2 (ix2 n 0)).toInt = ((c.val * 8 + d.val : Nat) : Int)
      ↔ Spec.hit x1 x2 c d n := by
  rw [Stage.val_main_v22_apply, Stage.val_main_v16_apply, Stage.val_main_v15_apply, Stage.val_main_v14_apply,
    Stage.val_main_c_apply]
  have hix : Stage.idx_main_v22 (ix2 n 0) = Spec.lIx n := funext fun a => match a with | ⟨0, _⟩ => rfl
  rw [hix]
  exact seg_word_iff _ _ (hc n) (hd n) c d

theorem segsum_eq (c : Fin 1024) (d : Fin 8) :
    Stage.val_main_v19 (F := Ideal) x0 x1 x2 (Stage.idx_main_v27 (Spec.tIx c d))
      = Spec.tot x0 (Stage.val_main_v8 (F := Ideal) x0) x1 x2 c d := by
  unfold Stage.val_main_v19
  show Ideal.hostScatterAdd (sd _) _ _ _ _ = _
  rw [scatterAdd_apply, Stage.val_main_v17_apply, Stage.val_main_cst_4_apply]
  show Ideal.ofBits .f32 0x00000000#32 + _ = _
  rw [Ideal.ofBits_zero_f32, zero_add]
  unfold Spec.tot
  refine Finset.sum_congr rfl fun n _ => ?_
  rw [dist_eq]
  exact if_congr (word18_iff x1 x2 hc hd c d n) rfl rfl

theorem segcnt_eq (c : Fin 1024) (d : Fin 8) :
    Stage.val_main_v23 (F := Ideal) x1 x2 (Stage.idx_main_v27 (Spec.tIx c d)) = Spec.cnt x1 x2 c d := by
  unfold Stage.val_main_v23
  show Ideal.hostScatterAdd (sd _) _ _ _ _ = _
  rw [scatterAdd_apply, Stage.val_main_v21_apply, Stage.val_main_cst_6_apply]
  show Ideal.ofBits .f32 0x00000000#32 + _ = _
  rw [Ideal.ofBits_zero_f32, zero_add]
  unfold Spec.cnt
  refine Finset.sum_congr rfl fun n _ => ?_
  rw [Stage.val_main_v20_apply, Stage.val_main_cst_5_apply]
  show (if _ then Ideal.ofBits .f32 0x3F800000#32 else 0) = _
  rw [ofBits_one_f32]
  exact if_congr (word22_iff x1 x2 hc hd c d n) rfl rfl

theorem mean_eq (c : Fin 1024) (d : Fin 8) :
    Stage.val_main_v27 (F := Ideal) x0 x1 x2 (Spec.tIx c d)
      = Spec.mean x0 (Stage.val_main_v8 (F := Ideal) x0) x1 x2 c d := by
  rw [Stage.val_main_v27_apply, Stage.val_main_v26_apply, Stage.val_main_v25_apply, Stage.val_main_v24_apply,
    Stage.val_main_cst_7_apply, segsum_eq x0 x1 x2 hc hd, segcnt_eq x1 x2 hc hd]
  rfl

theorem present_eq (c : Fin 1024) (d : Fin 8) :
    Stage.val_main_v30 (F := Ideal) x1 x2 (Spec.tIx c d) = Spec.present x1 x2 c d := by
  rw [Stage.val_main_v30_apply, Stage.val_main_v29_apply, Stage.val_main_v28_apply, Stage.val_main_cst_8_apply]
  have hi : Stage.idx_main_v30 (Spec.tIx c d) = Stage.idx_main_v27 (Spec.tIx c d) := rfl
  rw [hi, segcnt_eq x1 x2 hc hd]
  rfl

end Labels

end Cert.ReferenceIdeal.RefValue
-- ==== Proof.RefTail.lean ====
import proofs.«421787_j43851616092489_3_alg».proof.Proof.RefRun
import proofs.«421787_j43851616092489_3_alg».proof.Proof.Tail

noncomputable section

namespace Cert.ReferenceIdeal.RefTail

open Idealize.ShloMosaic

/-- The reference's last operations are, one by one, the operations of the sweep over its two tables. -/
theorem ref_sweep {F : FTy → Type} [FloatOps F] (x0 : FVec F Cert.ReferenceIdeal.S262144x512 .f32)
    (x1 x2 : IVec Cert.ReferenceIdeal.S262144 32) :
    Cert.ReferenceIdeal.Stage.val_main_v180 (F := F) x0 x1 x2
      = Cert.Tail.sweep (Cert.ReferenceIdeal.Stage.val_main_v27 (F := F) x0 x1 x2)
          (Cert.ReferenceIdeal.Stage.val_main_v30 (F := F) x1 x2) := rfl

end Cert.ReferenceIdeal.RefTail

end
-- ==== Proof.OriginRef.lean ====
import proofs.«421787_j43851616092489_3_alg».proof.Proof.Origin
import proofs.«421787_j43851616092489_3_alg».proof.Proof.RefRun

noncomputable section

namespace Cert.Origin

open Idealize.ShloMosaic

theorem ref_origin {F : FTy → Type} [FloatOps F] (x0 : FVec F Cert.ReferenceIdeal.S262144x512 .f32) :
    Cert.ReferenceIdeal.Stage.val_main_v8 (F := F) x0
      = originOf (Cert.ReferenceIdeal.Stage.val_main_v1 (F := F) x0) := rfl

end Cert.Origin

end
-- ==== Proof.Bridge.lean ====
import proofs.«421787_j43851616092489_3_alg».proof.Proof.KernelIdealRun
import proofs.«421787_j43851616092489_3_alg».proof.Proof.KernelIdealGlue
import proofs.«421787_j43851616092489_3_alg».proof.Proof.KernelIdealSweep
import proofs.«421787_j43851616092489_3_alg».proof.Proof.KernelIdealRegion0Value
import proofs.«421787_j43851616092489_3_alg».proof.Proof.KernelIdealRegion1Value
import proofs.«421787_j43851616092489_3_alg».proof.Proof.RefValue
import proofs.«421787_j43851616092489_3_alg».proof.Proof.RefTail
import proofs.«421787_j43851616092489_3_alg».proof.Proof.OriginRef
import proofs.«421787_j43851616092489_3_alg».proof.Proof.PreFacts
import proofs.«421787_j43851616092489_3_alg».proof.Proof.Spec
import proofs.«421787_j43851616092489_3_alg».proof.Proof.RefRun

noncomputable section

namespace Cert.Bridge

open Idealize.ShloMosaic Idealize.ShloMosaic.TcCoe Idealize.SL.Sem
open Cert.Spec
open Cert.KernelIdeal (nD τ sig main_arg0 main_arg1 main_arg2 main_v5 main_v12 main_v18 main_v23 main_v26 main_v28 main_v178 main_v0 main_v13_0 main_v13_1)
open Cert.KernelIdeal.Run (outs entry0 entry1)

theorem sum_real {ι : Type} (s : Finset ι) (f : ι → EReal) (h : ∀ i, ∃ r : ℝ, f i = (r : EReal)) :
    ∃ r : ℝ, ∑ i ∈ s, f i = (r : EReal) := by
  classical
  choose g hg using h
  refine ⟨∑ i ∈ s, g i, ?_⟩
  induction s using Finset.induction_on with
  | empty => simp
  | insert a s ha ih => rw [Finset.sum_insert ha, Finset.sum_insert ha, ih, hg, EReal.coe_add]

variable (m : (ℓ : Loc nD τ sig) → Buf (Elt Ideal) ℓ) (c : Dev nD)

abbrev xs : Emb.Idx → EReal := m ((c.tc : Thread nD τ).loc main_arg0)
abbrev comps : Lab.Idx → BitVec 32 := m ((c.tc : Thread nD τ).loc main_arg1)
abbrev doses : Lab.Idx → BitVec 32 := m ((c.tc : Thread nD τ).loc main_arg2)

abbrev csK : Row.Idx → EReal := Cert.KernelIdeal.GenP.V4 m (outs m) c main_v5
abbrev oK : Row.Idx → EReal := Cert.KernelIdeal.GenP.V4 m (outs m) c main_v12
abbrev meansK : Tab.Idx → EReal := Cert.KernelIdeal.GenP.V6 m (outs m) c main_v26
abbrev presK : Tab.Idx → BitVec 1 := Cert.KernelIdeal.GenP.V6 m (outs m) c main_v28

theorem entry1_arg0 : entry1 m c main_arg0 = xs m c := by
  rw [Cert.KernelIdeal.Run.entry1_eq]; exact Cert.KernelIdeal.Glue.arg0_at_v4 m (outs m) c
theorem entry1_arg1 : entry1 m c main_arg1 = comps m c := by
  rw [Cert.KernelIdeal.Run.entry1_eq]; exact Cert.KernelIdeal.Glue.arg1_at_v4 m (outs m) c
theorem entry1_arg2 : entry1 m c main_arg2 = doses m c := by
  rw [Cert.KernelIdeal.Run.entry1_eq]; exact Cert.KernelIdeal.Glue.arg2_at_v4 m (outs m) c
theorem entry1_dir : entry1 m c main_v12 = oK m c := by
  rw [Cert.KernelIdeal.Run.entry1_eq]

theorem csK_apply (k : Fin 512) : csK m c (rIx k) = colsum (xs m c) k := by
  refine (Cert.KernelIdeal.Glue.v5_apply m (outs m) c k).trans ?_
  have e : ∀ h : Fin 2, Cert.KernelIdeal.Glue.sums (outs m) c (hIx h k) = colsumHalf (xs m c) h k := fun h =>
    (congrFun (Cert.KernelIdeal.Run.outs_v0 m c) (hIx h k)).trans (Cert.KernelIdeal.Region0.arr_colsum (entry0 m) c h k)
  rw [e 0, e 1]
  exact (colsum_halves (xs m c) k).symm

theorem csK_eq : csK m c = Cert.ReferenceIdeal.Stage.val_main_v1 (F := Ideal) (xs m c) := by
  funext i
  obtain ⟨k, rfl⟩ : ∃ k : Fin 512, i = rIx k := ⟨i 1, (rIx_eta i).symm⟩
  rw [csK_apply, Cert.ReferenceIdeal.RefValue.colsum_eq]

theorem oK_eq : oK m c = Cert.ReferenceIdeal.Stage.val_main_v8 (F := Ideal) (xs m c) := by
  refine (Cert.KernelIdeal.Glue.v12_eq m (outs m) c).trans ?_
  rw [Cert.Origin.ref_origin]
  exact congrArg Cert.Origin.originOf (csK_eq m c)

section Real
variable (hx : ∀ i, ∃ r : ℝ, xs m c i = (r : EReal))
include hx

theorem oK_real : ∀ i, ∃ r : ℝ, oK m c i = (r : EReal) := by
  intro i
  have h := Cert.Origin.originOf_real (csK m c) (fun j => by
    obtain ⟨k, rfl⟩ : ∃ k : Fin 512, j = rIx k := ⟨j 1, (rIx_eta j).symm⟩
    rw [csK_apply]
    exact sum_real _ _ (fun n => hx _)) i
  rwa [← Cert.KernelIdeal.Glue.v12_eq m (outs m) c] at h

theorem dist_real' (n : Fin 262144) : ∃ r : ℝ, dist (xs m c) (oK m c) n = (r : EReal) :=
  dist_real (xs m c) (oK m c) hx (oK_real m c hx) n

theorem cntK_apply (cc : Fin 1024) (d : Fin 8) :
    Cert.KernelIdeal.GenP.V6 m (outs m) c main_v18 (tIx cc d) = cnt (comps m c) (doses m c) cc d := by
  refine (Cert.KernelIdeal.Glue.v18_apply m (outs m) c cc d).trans ?_
  have e : ∀ h : Fin 2, Cert.KernelIdeal.Glue.cnts (outs m) c (oIx h cc d) = cntHalf (comps m c) (doses m c) h cc d := fun h => by
    refine (congrFun (Cert.KernelIdeal.Run.outs_v13_0 m c) (oIx h cc d)).trans ?_
    rw [Cert.KernelIdeal.Region1.arr_cnt (entry1 m) c h cc d, entry1_arg1, entry1_arg2]
  rw [e 0, e 1]
  exact (cnt_halves _ _ cc d).symm

theorem totK_apply (cc : Fin 1024) (d : Fin 8) :
    Cert.KernelIdeal.GenP.V6 m (outs m) c main_v23 (tIx cc d) = tot (xs m c) (oK m c) (comps m c) (doses m c) cc d := by
  refine (Cert.KernelIdeal.Glue.v23_apply m (outs m) c cc d).trans ?_
  have hr : ∀ n : Fin 262144, ∃ r : ℝ, dist (entry1 m c main_arg0) (entry1 m c main_v12) n = (r : EReal) := by
    rw [entry1_arg0, entry1_dir]; exact dist_real' m c hx
  have e : ∀ h : Fin 2, Cert.KernelIdeal.Glue.tots (outs m) c (oIx h cc d)
      = totHalf (xs m c) (oK m c) (comps m c) (doses m c) h cc d := fun h => by
    refine (congrFun (Cert.KernelIdeal.Run.outs_v13_1 m c) (oIx h cc d)).trans ?_
    rw [Cert.KernelIdeal.Region1.arr_tot (entry1 m) c hr h cc d, entry1_arg0, entry1_arg1, entry1_arg2, entry1_dir]
  rw [e 0, e 1]
  exact (tot_halves _ _ _ _ cc d).symm

theorem meansK_apply (cc : Fin 1024) (d : Fin 8) :
    meansK m c (tIx cc d) = mean (xs m c) (oK m c) (comps m c) (doses m c) cc d := by
  refine (Cert.KernelIdeal.Glue.v26_apply m (outs m) c cc d).trans ?_
  rw [totK_apply m c hx, cntK_apply m c hx]
  rfl

theorem presK_apply (cc : Fin 1024) (d : Fin 8) :
    presK m c (tIx cc d) = present (comps m c) (doses m c) cc d := by
  refine (Cert.KernelIdeal.Glue.v28_apply m (outs m) c cc d).trans ?_
  rw [cntK_apply m c hx]
  rfl

variable (hc : ∀ n : Fin 262144, (comps m c (lIx n)).toNat < 1024) (hd : ∀ n : Fin 262144, (doses m c (lIx n)).toNat < 8)
include hc hd

theorem means_eq : Cert.ReferenceIdeal.Stage.val_main_v27 (F := Ideal) (xs m c) (comps m c) (doses m c) = meansK m c := by
  funext i
  obtain ⟨cc, d, rfl⟩ : ∃ (cc : Fin 1024) (d : Fin 8), i = tIx cc d := ⟨i 0, i 1, (tIx_eta i).symm⟩
  rw [meansK_apply m c hx, Cert.ReferenceIdeal.RefValue.mean_eq (xs m c) (comps m c) (doses m c) hc hd, ← oK_eq]

theorem pres_eq : Cert.ReferenceIdeal.Stage.val_main_v30 (F := Ideal) (comps m c) (doses m c) = presK m c := by
  funext i
  obtain ⟨cc, d, rfl⟩ : ∃ (cc : Fin 1024) (d : Fin 8), i = tIx cc d := ⟨i 0, i 1, (tIx_eta i).symm⟩
  rw [presK_apply m c hx, Cert.ReferenceIdeal.RefValue.present_eq (comps m c) (doses m c) hc hd]

theorem result_eq :
    Cert.ReferenceIdeal.Stage.val_main_v180 (F := Ideal) (xs m c) (comps m c) (doses m c)
      = Cert.KernelIdeal.GenP.V39 m (outs m) c main_v178 := by
  rw [Cert.ReferenceIdeal.RefTail.ref_sweep, means_eq m c hx hc hd, pres_eq m c hx hc hd]
  exact (Cert.KernelIdeal.Sweep.kernel_sweep m (outs m) c).symm

end Real

end Cert.Bridge

end
-- ==== Proof.lean ====
/-
  A hinge loss between consecutive doses of a compound. Both programs take 262144 embedding rows of 512 with a
  compound and a dose label each, form the unit direction of the mean row, each row's distance to it, the mean
  distance of every (compound, dose) pair that occurs, and sweep the doses of each compound. Over the extended
  reals they agree for real embeddings and labels in range: sums regroup, and a segment number names its pair.
-/
import proofs.«421787_j43851616092489_3_alg».proof.Defs
import proofs.«421787_j43851616092489_3_alg».proof.Proof.Gen.Kernel
import proofs.«421787_j43851616092489_3_alg».proof.Proof.Gen.KernelIdeal
import proofs.«421787_j43851616092489_3_alg».proof.Proof.Gen.ReferenceIdeal
import proofs.«421787_j43851616092489_3_alg».proof.Proof.Gen.Pre_finite_inputs
import proofs.«421787_j43851616092489_3_alg».proof.Proof.KernelSegs
import proofs.«421787_j43851616092489_3_alg».proof.Proof.KernelIdealRun
import proofs.«421787_j43851616092489_3_alg».proof.Proof.RefRun
import proofs.«421787_j43851616092489_3_alg».proof.Proof.PreFacts
import proofs.«421787_j43851616092489_3_alg».proof.Proof.Bridge
import Idealize.ShloMosaic.Adequacy
import Idealize.ShloMosaic.Init

noncomputable section

namespace Cert.Proof

open Idealize.ShloMosaic Idealize.ShloMosaic.TcCoe Idealize.SL.Sem

/-- A kernel program's frame is the conditional frame of its host side at its two regions' records. -/
theorem frame_kernel : Cert.frame_Kernel (hKernel := Cert.Kernel.Gen.facts) (hPre_finite_inputs := Cert.Pre_finite_inputs.Gen.facts) :=
  fun m ρ _ => Cert.Kernel.Run.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stage.run (F := Ideal) m ρ)

/-- The one rewrite of the idealization, widening a value just narrowed, is its rule's statement. -/
theorem preserves : Cert.preserves_Kernel_KernelIdeal :=
  IdealRules.truncf_extf.statement Cert.KernelIdeal.S2048x8 .f32 .bf16

/-- Each run names its result; the bridge says both are the same sweep of the same two tables. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.GenP.V39 m (Cert.KernelIdeal.Run.outs m) c Cert.KernelIdeal.main_v178,
    Cert.KernelIdeal.Run.run m ρ, ?_⟩
  refine (θ_run Cert.ReferenceIdeal.defs _ _).mono (fun _ h c => ⟨(h c).1.trans ?_, (h c).2⟩)
    (Cert.ReferenceIdeal.Stage.run (F := Ideal) m' ρ')
  rw [(hagree c).1, (hagree c).2.1, (hagree c).2.2]
  obtain ⟨hc, hd⟩ := Cert.PreFacts.labels_of_pre _ _ _ (hpre c)
  exact Cert.Bridge.result_eq m c (Cert.PreFacts.real_of_pre _ _ _ (hpre c)) hc hd

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
